-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![8192, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S256x256 : Shape := ⟨2, ![256, 256]⟩
abbrev S32x8x256 : Shape := ⟨3, ![32, 8, 256]⟩
abbrev S31 : Shape := ⟨1, ![31]⟩
abbrev S32 : Shape := ⟨1, ![32]⟩
abbrev S_ : Shape := ⟨0, ![]⟩
abbrev S1 : Shape := ⟨1, ![1]⟩
abbrev S1x8x256 : Shape := ⟨3, ![1, 8, 256]⟩
abbrev S8x256 : Shape := ⟨2, ![8, 256]⟩

abbrev nBuf : Space → Nat
  | .hbm => 2
  | .vmem => 5
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S32x8x256, .bf16⟩
  | .local _ .vmem, ⟨3, _⟩ => ⟨S32x8x256, .bf16⟩
  | .local _ .vmem, ⟨4, _⟩ => ⟨S32x8x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  (ofTc nBuf bufTy 1 128 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_294 : BitVec 32 := 0#32
  let c0_i32_295 : BitVec 32 := 0#32
  ![v2.toNat, 0, 0]
def k0_off3 (d0 : Dev nD) (c1_i32_284 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v414 : BitVec 32 := Scalar.addi v2 c1_i32_284
  let c32_i32_285 : BitVec 32 := 32#32
  let c0_i32_286 : BitVec 32 := 0#32
  let v415 : BitVec 1 := Scalar.cmpi .eq c32_i32_285 c0_i32_286
  let c1_i32_287 : BitVec 32 := 1#32
  let v416 : BitVec 32 := Scalar.select v415 c1_i32_287 c32_i32_285
  let v417 : BitVec 32 := Scalar.remsi v414 v416
  let c0_i32_289 : BitVec 32 := 0#32
  let v419 : BitVec 1 := Scalar.cmpi .slt v417 c0_i32_289
  let c0_i32_290 : BitVec 32 := 0#32
  let v420 : BitVec 1 := Scalar.cmpi .slt v416 c0_i32_290
  let v421 : BitVec 1 := Scalar.xori v419 v420
  let c0_i32_288 : BitVec 32 := 0#32
  let v418 : BitVec 1 := Scalar.cmpi .ne v417 c0_i32_288
  let v422 : BitVec 1 := Scalar.andi v421 v418
  let v423 : BitVec 32 := Scalar.addi v417 v416
  let v424 : BitVec 32 := Scalar.select v422 v423 v417
  let c0_i32_296 : BitVec 32 := 0#32
  let c0_i32_297 : BitVec 32 := 0#32
  ![v424.toNat, 0, 0]
def k0_dev32 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_284 : BitVec 32 := 1#32
  let v414 : BitVec 32 := Scalar.addi v2 c1_i32_284
  let c32_i32_285 : BitVec 32 := 32#32
  let c0_i32_286 : BitVec 32 := 0#32
  let v415 : BitVec 1 := Scalar.cmpi .eq c32_i32_285 c0_i32_286
  let c1_i32_287 : BitVec 32 := 1#32
  let v416 : BitVec 32 := Scalar.select v415 c1_i32_287 c32_i32_285
  let v417 : BitVec 32 := Scalar.remsi v414 v416
  let c0_i32_289 : BitVec 32 := 0#32
  let v419 : BitVec 1 := Scalar.cmpi .slt v417 c0_i32_289
  let c0_i32_290 : BitVec 32 := 0#32
  let v420 : BitVec 1 := Scalar.cmpi .slt v416 c0_i32_290
  let v421 : BitVec 1 := Scalar.xori v419 v420
  let c0_i32_288 : BitVec 32 := 0#32
  let v418 : BitVec 1 := Scalar.cmpi .ne v417 c0_i32_288
  let v422 : BitVec 1 := Scalar.andi v421 v418
  let v423 : BitVec 32 := Scalar.addi v417 v416
  let v424 : BitVec 32 := Scalar.select v422 v423 v417
  let c1_i32_292 : BitVec 32 := 1#32
  let v425 : BitVec 32 := Scalar.muli v424 c1_i32_292
  let v426 : BitVec 32 := Scalar.addi c0_i32_293 v425
  v426.toNat
def k0_dev33 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_298 : BitVec 32 := 2#32
  let v433 : BitVec 32 := Scalar.addi v2 c2_i32_298
  let c32_i32_299 : BitVec 32 := 32#32
  let c0_i32_300 : BitVec 32 := 0#32
  let v434 : BitVec 1 := Scalar.cmpi .eq c32_i32_299 c0_i32_300
  let c1_i32_301 : BitVec 32 := 1#32
  let v435 : BitVec 32 := Scalar.select v434 c1_i32_301 c32_i32_299
  let v436 : BitVec 32 := Scalar.remsi v433 v435
  let c0_i32_303 : BitVec 32 := 0#32
  let v438 : BitVec 1 := Scalar.cmpi .slt v436 c0_i32_303
  let c0_i32_304 : BitVec 32 := 0#32
  let v439 : BitVec 1 := Scalar.cmpi .slt v435 c0_i32_304
  let v440 : BitVec 1 := Scalar.xori v438 v439
  let c0_i32_302 : BitVec 32 := 0#32
  let v437 : BitVec 1 := Scalar.cmpi .ne v436 c0_i32_302
  let v441 : BitVec 1 := Scalar.andi v440 v437
  let v442 : BitVec 32 := Scalar.addi v436 v435
  let v443 : BitVec 32 := Scalar.select v441 v442 v436
  let c1_i32_306 : BitVec 32 := 1#32
  let v444 : BitVec 32 := Scalar.muli v443 c1_i32_306
  let v445 : BitVec 32 := Scalar.addi c0_i32_307 v444
  v445.toNat
def k0_dev34 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_312 : BitVec 32 := 3#32
  let v452 : BitVec 32 := Scalar.addi v2 c3_i32_312
  let c32_i32_313 : BitVec 32 := 32#32
  let c0_i32_314 : BitVec 32 := 0#32
  let v453 : BitVec 1 := Scalar.cmpi .eq c32_i32_313 c0_i32_314
  let c1_i32_315 : BitVec 32 := 1#32
  let v454 : BitVec 32 := Scalar.select v453 c1_i32_315 c32_i32_313
  let v455 : BitVec 32 := Scalar.remsi v452 v454
  let c0_i32_317 : BitVec 32 := 0#32
  let v457 : BitVec 1 := Scalar.cmpi .slt v455 c0_i32_317
  let c0_i32_318 : BitVec 32 := 0#32
  let v458 : BitVec 1 := Scalar.cmpi .slt v454 c0_i32_318
  let v459 : BitVec 1 := Scalar.xori v457 v458
  let c0_i32_316 : BitVec 32 := 0#32
  let v456 : BitVec 1 := Scalar.cmpi .ne v455 c0_i32_316
  let v460 : BitVec 1 := Scalar.andi v459 v456
  let v461 : BitVec 32 := Scalar.addi v455 v454
  let v462 : BitVec 32 := Scalar.select v460 v461 v455
  let c1_i32_320 : BitVec 32 := 1#32
  let v463 : BitVec 32 := Scalar.muli v462 c1_i32_320
  let v464 : BitVec 32 := Scalar.addi c0_i32_321 v463
  v464.toNat
def k0_dev35 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_326 : BitVec 32 := 4#32
  let v471 : BitVec 32 := Scalar.addi v2 c4_i32_326
  let c32_i32_327 : BitVec 32 := 32#32
  let c0_i32_328 : BitVec 32 := 0#32
  let v472 : BitVec 1 := Scalar.cmpi .eq c32_i32_327 c0_i32_328
  let c1_i32_329 : BitVec 32 := 1#32
  let v473 : BitVec 32 := Scalar.select v472 c1_i32_329 c32_i32_327
  let v474 : BitVec 32 := Scalar.remsi v471 v473
  let c0_i32_331 : BitVec 32 := 0#32
  let v476 : BitVec 1 := Scalar.cmpi .slt v474 c0_i32_331
  let c0_i32_332 : BitVec 32 := 0#32
  let v477 : BitVec 1 := Scalar.cmpi .slt v473 c0_i32_332
  let v478 : BitVec 1 := Scalar.xori v476 v477
  let c0_i32_330 : BitVec 32 := 0#32
  let v475 : BitVec 1 := Scalar.cmpi .ne v474 c0_i32_330
  let v479 : BitVec 1 := Scalar.andi v478 v475
  let v480 : BitVec 32 := Scalar.addi v474 v473
  let v481 : BitVec 32 := Scalar.select v479 v480 v474
  let c1_i32_334 : BitVec 32 := 1#32
  let v482 : BitVec 32 := Scalar.muli v481 c1_i32_334
  let v483 : BitVec 32 := Scalar.addi c0_i32_335 v482
  v483.toNat
def k0_dev36 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_340 : BitVec 32 := 5#32
  let v490 : BitVec 32 := Scalar.addi v2 c5_i32_340
  let c32_i32_341 : BitVec 32 := 32#32
  let c0_i32_342 : BitVec 32 := 0#32
  let v491 : BitVec 1 := Scalar.cmpi .eq c32_i32_341 c0_i32_342
  let c1_i32_343 : BitVec 32 := 1#32
  let v492 : BitVec 32 := Scalar.select v491 c1_i32_343 c32_i32_341
  let v493 : BitVec 32 := Scalar.remsi v490 v492
  let c0_i32_345 : BitVec 32 := 0#32
  let v495 : BitVec 1 := Scalar.cmpi .slt v493 c0_i32_345
  let c0_i32_346 : BitVec 32 := 0#32
  let v496 : BitVec 1 := Scalar.cmpi .slt v492 c0_i32_346
  let v497 : BitVec 1 := Scalar.xori v495 v496
  let c0_i32_344 : BitVec 32 := 0#32
  let v494 : BitVec 1 := Scalar.cmpi .ne v493 c0_i32_344
  let v498 : BitVec 1 := Scalar.andi v497 v494
  let v499 : BitVec 32 := Scalar.addi v493 v492
  let v500 : BitVec 32 := Scalar.select v498 v499 v493
  let c1_i32_348 : BitVec 32 := 1#32
  let v501 : BitVec 32 := Scalar.muli v500 c1_i32_348
  let v502 : BitVec 32 := Scalar.addi c0_i32_349 v501
  v502.toNat
def k0_dev37 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_354 : BitVec 32 := 6#32
  let v509 : BitVec 32 := Scalar.addi v2 c6_i32_354
  let c32_i32_355 : BitVec 32 := 32#32
  let c0_i32_356 : BitVec 32 := 0#32
  let v510 : BitVec 1 := Scalar.cmpi .eq c32_i32_355 c0_i32_356
  let c1_i32_357 : BitVec 32 := 1#32
  let v511 : BitVec 32 := Scalar.select v510 c1_i32_357 c32_i32_355
  let v512 : BitVec 32 := Scalar.remsi v509 v511
  let c0_i32_359 : BitVec 32 := 0#32
  let v514 : BitVec 1 := Scalar.cmpi .slt v512 c0_i32_359
  let c0_i32_360 : BitVec 32 := 0#32
  let v515 : BitVec 1 := Scalar.cmpi .slt v511 c0_i32_360
  let v516 : BitVec 1 := Scalar.xori v514 v515
  let c0_i32_358 : BitVec 32 := 0#32
  let v513 : BitVec 1 := Scalar.cmpi .ne v512 c0_i32_358
  let v517 : BitVec 1 := Scalar.andi v516 v513
  let v518 : BitVec 32 := Scalar.addi v512 v511
  let v519 : BitVec 32 := Scalar.select v517 v518 v512
  let c1_i32_362 : BitVec 32 := 1#32
  let v520 : BitVec 32 := Scalar.muli v519 c1_i32_362
  let v521 : BitVec 32 := Scalar.addi c0_i32_363 v520
  v521.toNat
def k0_dev38 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_368 : BitVec 32 := 7#32
  let v528 : BitVec 32 := Scalar.addi v2 c7_i32_368
  let c32_i32_369 : BitVec 32 := 32#32
  let c0_i32_370 : BitVec 32 := 0#32
  let v529 : BitVec 1 := Scalar.cmpi .eq c32_i32_369 c0_i32_370
  let c1_i32_371 : BitVec 32 := 1#32
  let v530 : BitVec 32 := Scalar.select v529 c1_i32_371 c32_i32_369
  let v531 : BitVec 32 := Scalar.remsi v528 v530
  let c0_i32_373 : BitVec 32 := 0#32
  let v533 : BitVec 1 := Scalar.cmpi .slt v531 c0_i32_373
  let c0_i32_374 : BitVec 32 := 0#32
  let v534 : BitVec 1 := Scalar.cmpi .slt v530 c0_i32_374
  let v535 : BitVec 1 := Scalar.xori v533 v534
  let c0_i32_372 : BitVec 32 := 0#32
  let v532 : BitVec 1 := Scalar.cmpi .ne v531 c0_i32_372
  let v536 : BitVec 1 := Scalar.andi v535 v532
  let v537 : BitVec 32 := Scalar.addi v531 v530
  let v538 : BitVec 32 := Scalar.select v536 v537 v531
  let c1_i32_376 : BitVec 32 := 1#32
  let v539 : BitVec 32 := Scalar.muli v538 c1_i32_376
  let v540 : BitVec 32 := Scalar.addi c0_i32_377 v539
  v540.toNat
def k0_dev39 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_382 : BitVec 32 := 8#32
  let v547 : BitVec 32 := Scalar.addi v2 c8_i32_382
  let c32_i32_383 : BitVec 32 := 32#32
  let c0_i32_384 : BitVec 32 := 0#32
  let v548 : BitVec 1 := Scalar.cmpi .eq c32_i32_383 c0_i32_384
  let c1_i32_385 : BitVec 32 := 1#32
  let v549 : BitVec 32 := Scalar.select v548 c1_i32_385 c32_i32_383
  let v550 : BitVec 32 := Scalar.remsi v547 v549
  let c0_i32_387 : BitVec 32 := 0#32
  let v552 : BitVec 1 := Scalar.cmpi .slt v550 c0_i32_387
  let c0_i32_388 : BitVec 32 := 0#32
  let v553 : BitVec 1 := Scalar.cmpi .slt v549 c0_i32_388
  let v554 : BitVec 1 := Scalar.xori v552 v553
  let c0_i32_386 : BitVec 32 := 0#32
  let v551 : BitVec 1 := Scalar.cmpi .ne v550 c0_i32_386
  let v555 : BitVec 1 := Scalar.andi v554 v551
  let v556 : BitVec 32 := Scalar.addi v550 v549
  let v557 : BitVec 32 := Scalar.select v555 v556 v550
  let c1_i32_390 : BitVec 32 := 1#32
  let v558 : BitVec 32 := Scalar.muli v557 c1_i32_390
  let v559 : BitVec 32 := Scalar.addi c0_i32_391 v558
  v559.toNat
def k0_dev40 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_396 : BitVec 32 := 9#32
  let v566 : BitVec 32 := Scalar.addi v2 c9_i32_396
  let c32_i32_397 : BitVec 32 := 32#32
  let c0_i32_398 : BitVec 32 := 0#32
  let v567 : BitVec 1 := Scalar.cmpi .eq c32_i32_397 c0_i32_398
  let c1_i32_399 : BitVec 32 := 1#32
  let v568 : BitVec 32 := Scalar.select v567 c1_i32_399 c32_i32_397
  let v569 : BitVec 32 := Scalar.remsi v566 v568
  let c0_i32_401 : BitVec 32 := 0#32
  let v571 : BitVec 1 := Scalar.cmpi .slt v569 c0_i32_401
  let c0_i32_402 : BitVec 32 := 0#32
  let v572 : BitVec 1 := Scalar.cmpi .slt v568 c0_i32_402
  let v573 : BitVec 1 := Scalar.xori v571 v572
  let c0_i32_400 : BitVec 32 := 0#32
  let v570 : BitVec 1 := Scalar.cmpi .ne v569 c0_i32_400
  let v574 : BitVec 1 := Scalar.andi v573 v570
  let v575 : BitVec 32 := Scalar.addi v569 v568
  let v576 : BitVec 32 := Scalar.select v574 v575 v569
  let c1_i32_404 : BitVec 32 := 1#32
  let v577 : BitVec 32 := Scalar.muli v576 c1_i32_404
  let v578 : BitVec 32 := Scalar.addi c0_i32_405 v577
  v578.toNat
def k0_dev41 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_410 : BitVec 32 := 10#32
  let v585 : BitVec 32 := Scalar.addi v2 c10_i32_410
  let c32_i32_411 : BitVec 32 := 32#32
  let c0_i32_412 : BitVec 32 := 0#32
  let v586 : BitVec 1 := Scalar.cmpi .eq c32_i32_411 c0_i32_412
  let c1_i32_413 : BitVec 32 := 1#32
  let v587 : BitVec 32 := Scalar.select v586 c1_i32_413 c32_i32_411
  let v588 : BitVec 32 := Scalar.remsi v585 v587
  let c0_i32_415 : BitVec 32 := 0#32
  let v590 : BitVec 1 := Scalar.cmpi .slt v588 c0_i32_415
  let c0_i32_416 : BitVec 32 := 0#32
  let v591 : BitVec 1 := Scalar.cmpi .slt v587 c0_i32_416
  let v592 : BitVec 1 := Scalar.xori v590 v591
  let c0_i32_414 : BitVec 32 := 0#32
  let v589 : BitVec 1 := Scalar.cmpi .ne v588 c0_i32_414
  let v593 : BitVec 1 := Scalar.andi v592 v589
  let v594 : BitVec 32 := Scalar.addi v588 v587
  let v595 : BitVec 32 := Scalar.select v593 v594 v588
  let c1_i32_418 : BitVec 32 := 1#32
  let v596 : BitVec 32 := Scalar.muli v595 c1_i32_418
  let v597 : BitVec 32 := Scalar.addi c0_i32_419 v596
  v597.toNat
def k0_dev42 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_424 : BitVec 32 := 11#32
  let v604 : BitVec 32 := Scalar.addi v2 c11_i32_424
  let c32_i32_425 : BitVec 32 := 32#32
  let c0_i32_426 : BitVec 32 := 0#32
  let v605 : BitVec 1 := Scalar.cmpi .eq c32_i32_425 c0_i32_426
  let c1_i32_427 : BitVec 32 := 1#32
  let v606 : BitVec 32 := Scalar.select v605 c1_i32_427 c32_i32_425
  let v607 : BitVec 32 := Scalar.remsi v604 v606
  let c0_i32_429 : BitVec 32 := 0#32
  let v609 : BitVec 1 := Scalar.cmpi .slt v607 c0_i32_429
  let c0_i32_430 : BitVec 32 := 0#32
  let v610 : BitVec 1 := Scalar.cmpi .slt v606 c0_i32_430
  let v611 : BitVec 1 := Scalar.xori v609 v610
  let c0_i32_428 : BitVec 32 := 0#32
  let v608 : BitVec 1 := Scalar.cmpi .ne v607 c0_i32_428
  let v612 : BitVec 1 := Scalar.andi v611 v608
  let v613 : BitVec 32 := Scalar.addi v607 v606
  let v614 : BitVec 32 := Scalar.select v612 v613 v607
  let c1_i32_432 : BitVec 32 := 1#32
  let v615 : BitVec 32 := Scalar.muli v614 c1_i32_432
  let v616 : BitVec 32 := Scalar.addi c0_i32_433 v615
  v616.toNat
def k0_dev43 (d0 : Dev nD) : Nat :=
  let c0_i32_447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_438 : BitVec 32 := 12#32
  let v623 : BitVec 32 := Scalar.addi v2 c12_i32_438
  let c32_i32_439 : BitVec 32 := 32#32
  let c0_i32_440 : BitVec 32 := 0#32
  let v624 : BitVec 1 := Scalar.cmpi .eq c32_i32_439 c0_i32_440
  let c1_i32_441 : BitVec 32 := 1#32
  let v625 : BitVec 32 := Scalar.select v624 c1_i32_441 c32_i32_439
  let v626 : BitVec 32 := Scalar.remsi v623 v625
  let c0_i32_443 : BitVec 32 := 0#32
  let v628 : BitVec 1 := Scalar.cmpi .slt v626 c0_i32_443
  let c0_i32_444 : BitVec 32 := 0#32
  let v629 : BitVec 1 := Scalar.cmpi .slt v625 c0_i32_444
  let v630 : BitVec 1 := Scalar.xori v628 v629
  let c0_i32_442 : BitVec 32 := 0#32
  let v627 : BitVec 1 := Scalar.cmpi .ne v626 c0_i32_442
  let v631 : BitVec 1 := Scalar.andi v630 v627
  let v632 : BitVec 32 := Scalar.addi v626 v625
  let v633 : BitVec 32 := Scalar.select v631 v632 v626
  let c1_i32_446 : BitVec 32 := 1#32
  let v634 : BitVec 32 := Scalar.muli v633 c1_i32_446
  let v635 : BitVec 32 := Scalar.addi c0_i32_447 v634
  v635.toNat
def k0_dev44 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_452 : BitVec 32 := 13#32
  let v642 : BitVec 32 := Scalar.addi v2 c13_i32_452
  let c32_i32_453 : BitVec 32 := 32#32
  let c0_i32_454 : BitVec 32 := 0#32
  let v643 : BitVec 1 := Scalar.cmpi .eq c32_i32_453 c0_i32_454
  let c1_i32_455 : BitVec 32 := 1#32
  let v644 : BitVec 32 := Scalar.select v643 c1_i32_455 c32_i32_453
  let v645 : BitVec 32 := Scalar.remsi v642 v644
  let c0_i32_457 : BitVec 32 := 0#32
  let v647 : BitVec 1 := Scalar.cmpi .slt v645 c0_i32_457
  let c0_i32_458 : BitVec 32 := 0#32
  let v648 : BitVec 1 := Scalar.cmpi .slt v644 c0_i32_458
  let v649 : BitVec 1 := Scalar.xori v647 v648
  let c0_i32_456 : BitVec 32 := 0#32
  let v646 : BitVec 1 := Scalar.cmpi .ne v645 c0_i32_456
  let v650 : BitVec 1 := Scalar.andi v649 v646
  let v651 : BitVec 32 := Scalar.addi v645 v644
  let v652 : BitVec 32 := Scalar.select v650 v651 v645
  let c1_i32_460 : BitVec 32 := 1#32
  let v653 : BitVec 32 := Scalar.muli v652 c1_i32_460
  let v654 : BitVec 32 := Scalar.addi c0_i32_461 v653
  v654.toNat
def k0_dev45 (d0 : Dev nD) : Nat :=
  let c0_i32_475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_466 : BitVec 32 := 14#32
  let v661 : BitVec 32 := Scalar.addi v2 c14_i32_466
  let c32_i32_467 : BitVec 32 := 32#32
  let c0_i32_468 : BitVec 32 := 0#32
  let v662 : BitVec 1 := Scalar.cmpi .eq c32_i32_467 c0_i32_468
  let c1_i32_469 : BitVec 32 := 1#32
  let v663 : BitVec 32 := Scalar.select v662 c1_i32_469 c32_i32_467
  let v664 : BitVec 32 := Scalar.remsi v661 v663
  let c0_i32_471 : BitVec 32 := 0#32
  let v666 : BitVec 1 := Scalar.cmpi .slt v664 c0_i32_471
  let c0_i32_472 : BitVec 32 := 0#32
  let v667 : BitVec 1 := Scalar.cmpi .slt v663 c0_i32_472
  let v668 : BitVec 1 := Scalar.xori v666 v667
  let c0_i32_470 : BitVec 32 := 0#32
  let v665 : BitVec 1 := Scalar.cmpi .ne v664 c0_i32_470
  let v669 : BitVec 1 := Scalar.andi v668 v665
  let v670 : BitVec 32 := Scalar.addi v664 v663
  let v671 : BitVec 32 := Scalar.select v669 v670 v664
  let c1_i32_474 : BitVec 32 := 1#32
  let v672 : BitVec 32 := Scalar.muli v671 c1_i32_474
  let v673 : BitVec 32 := Scalar.addi c0_i32_475 v672
  v673.toNat
def k0_dev46 (d0 : Dev nD) : Nat :=
  let c0_i32_489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_480 : BitVec 32 := 15#32
  let v680 : BitVec 32 := Scalar.addi v2 c15_i32_480
  let c32_i32_481 : BitVec 32 := 32#32
  let c0_i32_482 : BitVec 32 := 0#32
  let v681 : BitVec 1 := Scalar.cmpi .eq c32_i32_481 c0_i32_482
  let c1_i32_483 : BitVec 32 := 1#32
  let v682 : BitVec 32 := Scalar.select v681 c1_i32_483 c32_i32_481
  let v683 : BitVec 32 := Scalar.remsi v680 v682
  let c0_i32_485 : BitVec 32 := 0#32
  let v685 : BitVec 1 := Scalar.cmpi .slt v683 c0_i32_485
  let c0_i32_486 : BitVec 32 := 0#32
  let v686 : BitVec 1 := Scalar.cmpi .slt v682 c0_i32_486
  let v687 : BitVec 1 := Scalar.xori v685 v686
  let c0_i32_484 : BitVec 32 := 0#32
  let v684 : BitVec 1 := Scalar.cmpi .ne v683 c0_i32_484
  let v688 : BitVec 1 := Scalar.andi v687 v684
  let v689 : BitVec 32 := Scalar.addi v683 v682
  let v690 : BitVec 32 := Scalar.select v688 v689 v683
  let c1_i32_488 : BitVec 32 := 1#32
  let v691 : BitVec 32 := Scalar.muli v690 c1_i32_488
  let v692 : BitVec 32 := Scalar.addi c0_i32_489 v691
  v692.toNat
def k0_dev47 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_494 : BitVec 32 := 16#32
  let v699 : BitVec 32 := Scalar.addi v2 c16_i32_494
  let c32_i32_495 : BitVec 32 := 32#32
  let c0_i32_496 : BitVec 32 := 0#32
  let v700 : BitVec 1 := Scalar.cmpi .eq c32_i32_495 c0_i32_496
  let c1_i32_497 : BitVec 32 := 1#32
  let v701 : BitVec 32 := Scalar.select v700 c1_i32_497 c32_i32_495
  let v702 : BitVec 32 := Scalar.remsi v699 v701
  let c0_i32_499 : BitVec 32 := 0#32
  let v704 : BitVec 1 := Scalar.cmpi .slt v702 c0_i32_499
  let c0_i32_500 : BitVec 32 := 0#32
  let v705 : BitVec 1 := Scalar.cmpi .slt v701 c0_i32_500
  let v706 : BitVec 1 := Scalar.xori v704 v705
  let c0_i32_498 : BitVec 32 := 0#32
  let v703 : BitVec 1 := Scalar.cmpi .ne v702 c0_i32_498
  let v707 : BitVec 1 := Scalar.andi v706 v703
  let v708 : BitVec 32 := Scalar.addi v702 v701
  let v709 : BitVec 32 := Scalar.select v707 v708 v702
  let c1_i32_502 : BitVec 32 := 1#32
  let v710 : BitVec 32 := Scalar.muli v709 c1_i32_502
  let v711 : BitVec 32 := Scalar.addi c0_i32_503 v710
  v711.toNat
def k0_dev48 (d0 : Dev nD) : Nat :=
  let c0_i32_517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_508 : BitVec 32 := 17#32
  let v718 : BitVec 32 := Scalar.addi v2 c17_i32_508
  let c32_i32_509 : BitVec 32 := 32#32
  let c0_i32_510 : BitVec 32 := 0#32
  let v719 : BitVec 1 := Scalar.cmpi .eq c32_i32_509 c0_i32_510
  let c1_i32_511 : BitVec 32 := 1#32
  let v720 : BitVec 32 := Scalar.select v719 c1_i32_511 c32_i32_509
  let v721 : BitVec 32 := Scalar.remsi v718 v720
  let c0_i32_513 : BitVec 32 := 0#32
  let v723 : BitVec 1 := Scalar.cmpi .slt v721 c0_i32_513
  let c0_i32_514 : BitVec 32 := 0#32
  let v724 : BitVec 1 := Scalar.cmpi .slt v720 c0_i32_514
  let v725 : BitVec 1 := Scalar.xori v723 v724
  let c0_i32_512 : BitVec 32 := 0#32
  let v722 : BitVec 1 := Scalar.cmpi .ne v721 c0_i32_512
  let v726 : BitVec 1 := Scalar.andi v725 v722
  let v727 : BitVec 32 := Scalar.addi v721 v720
  let v728 : BitVec 32 := Scalar.select v726 v727 v721
  let c1_i32_516 : BitVec 32 := 1#32
  let v729 : BitVec 32 := Scalar.muli v728 c1_i32_516
  let v730 : BitVec 32 := Scalar.addi c0_i32_517 v729
  v730.toNat
def k0_dev49 (d0 : Dev nD) : Nat :=
  let c0_i32_531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_522 : BitVec 32 := 18#32
  let v737 : BitVec 32 := Scalar.addi v2 c18_i32_522
  let c32_i32_523 : BitVec 32 := 32#32
  let c0_i32_524 : BitVec 32 := 0#32
  let v738 : BitVec 1 := Scalar.cmpi .eq c32_i32_523 c0_i32_524
  let c1_i32_525 : BitVec 32 := 1#32
  let v739 : BitVec 32 := Scalar.select v738 c1_i32_525 c32_i32_523
  let v740 : BitVec 32 := Scalar.remsi v737 v739
  let c0_i32_527 : BitVec 32 := 0#32
  let v742 : BitVec 1 := Scalar.cmpi .slt v740 c0_i32_527
  let c0_i32_528 : BitVec 32 := 0#32
  let v743 : BitVec 1 := Scalar.cmpi .slt v739 c0_i32_528
  let v744 : BitVec 1 := Scalar.xori v742 v743
  let c0_i32_526 : BitVec 32 := 0#32
  let v741 : BitVec 1 := Scalar.cmpi .ne v740 c0_i32_526
  let v745 : BitVec 1 := Scalar.andi v744 v741
  let v746 : BitVec 32 := Scalar.addi v740 v739
  let v747 : BitVec 32 := Scalar.select v745 v746 v740
  let c1_i32_530 : BitVec 32 := 1#32
  let v748 : BitVec 32 := Scalar.muli v747 c1_i32_530
  let v749 : BitVec 32 := Scalar.addi c0_i32_531 v748
  v749.toNat
def k0_dev50 (d0 : Dev nD) : Nat :=
  let c0_i32_545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_536 : BitVec 32 := 19#32
  let v756 : BitVec 32 := Scalar.addi v2 c19_i32_536
  let c32_i32_537 : BitVec 32 := 32#32
  let c0_i32_538 : BitVec 32 := 0#32
  let v757 : BitVec 1 := Scalar.cmpi .eq c32_i32_537 c0_i32_538
  let c1_i32_539 : BitVec 32 := 1#32
  let v758 : BitVec 32 := Scalar.select v757 c1_i32_539 c32_i32_537
  let v759 : BitVec 32 := Scalar.remsi v756 v758
  let c0_i32_541 : BitVec 32 := 0#32
  let v761 : BitVec 1 := Scalar.cmpi .slt v759 c0_i32_541
  let c0_i32_542 : BitVec 32 := 0#32
  let v762 : BitVec 1 := Scalar.cmpi .slt v758 c0_i32_542
  let v763 : BitVec 1 := Scalar.xori v761 v762
  let c0_i32_540 : BitVec 32 := 0#32
  let v760 : BitVec 1 := Scalar.cmpi .ne v759 c0_i32_540
  let v764 : BitVec 1 := Scalar.andi v763 v760
  let v765 : BitVec 32 := Scalar.addi v759 v758
  let v766 : BitVec 32 := Scalar.select v764 v765 v759
  let c1_i32_544 : BitVec 32 := 1#32
  let v767 : BitVec 32 := Scalar.muli v766 c1_i32_544
  let v768 : BitVec 32 := Scalar.addi c0_i32_545 v767
  v768.toNat
def k0_dev51 (d0 : Dev nD) : Nat :=
  let c0_i32_559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_550 : BitVec 32 := 20#32
  let v775 : BitVec 32 := Scalar.addi v2 c20_i32_550
  let c32_i32_551 : BitVec 32 := 32#32
  let c0_i32_552 : BitVec 32 := 0#32
  let v776 : BitVec 1 := Scalar.cmpi .eq c32_i32_551 c0_i32_552
  let c1_i32_553 : BitVec 32 := 1#32
  let v777 : BitVec 32 := Scalar.select v776 c1_i32_553 c32_i32_551
  let v778 : BitVec 32 := Scalar.remsi v775 v777
  let c0_i32_555 : BitVec 32 := 0#32
  let v780 : BitVec 1 := Scalar.cmpi .slt v778 c0_i32_555
  let c0_i32_556 : BitVec 32 := 0#32
  let v781 : BitVec 1 := Scalar.cmpi .slt v777 c0_i32_556
  let v782 : BitVec 1 := Scalar.xori v780 v781
  let c0_i32_554 : BitVec 32 := 0#32
  let v779 : BitVec 1 := Scalar.cmpi .ne v778 c0_i32_554
  let v783 : BitVec 1 := Scalar.andi v782 v779
  let v784 : BitVec 32 := Scalar.addi v778 v777
  let v785 : BitVec 32 := Scalar.select v783 v784 v778
  let c1_i32_558 : BitVec 32 := 1#32
  let v786 : BitVec 32 := Scalar.muli v785 c1_i32_558
  let v787 : BitVec 32 := Scalar.addi c0_i32_559 v786
  v787.toNat
def k0_dev52 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_564 : BitVec 32 := 21#32
  let v794 : BitVec 32 := Scalar.addi v2 c21_i32_564
  let c32_i32_565 : BitVec 32 := 32#32
  let c0_i32_566 : BitVec 32 := 0#32
  let v795 : BitVec 1 := Scalar.cmpi .eq c32_i32_565 c0_i32_566
  let c1_i32_567 : BitVec 32 := 1#32
  let v796 : BitVec 32 := Scalar.select v795 c1_i32_567 c32_i32_565
  let v797 : BitVec 32 := Scalar.remsi v794 v796
  let c0_i32_569 : BitVec 32 := 0#32
  let v799 : BitVec 1 := Scalar.cmpi .slt v797 c0_i32_569
  let c0_i32_570 : BitVec 32 := 0#32
  let v800 : BitVec 1 := Scalar.cmpi .slt v796 c0_i32_570
  let v801 : BitVec 1 := Scalar.xori v799 v800
  let c0_i32_568 : BitVec 32 := 0#32
  let v798 : BitVec 1 := Scalar.cmpi .ne v797 c0_i32_568
  let v802 : BitVec 1 := Scalar.andi v801 v798
  let v803 : BitVec 32 := Scalar.addi v797 v796
  let v804 : BitVec 32 := Scalar.select v802 v803 v797
  let c1_i32_572 : BitVec 32 := 1#32
  let v805 : BitVec 32 := Scalar.muli v804 c1_i32_572
  let v806 : BitVec 32 := Scalar.addi c0_i32_573 v805
  v806.toNat
def k0_dev53 (d0 : Dev nD) : Nat :=
  let c0_i32_587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_578 : BitVec 32 := 22#32
  let v813 : BitVec 32 := Scalar.addi v2 c22_i32_578
  let c32_i32_579 : BitVec 32 := 32#32
  let c0_i32_580 : BitVec 32 := 0#32
  let v814 : BitVec 1 := Scalar.cmpi .eq c32_i32_579 c0_i32_580
  let c1_i32_581 : BitVec 32 := 1#32
  let v815 : BitVec 32 := Scalar.select v814 c1_i32_581 c32_i32_579
  let v816 : BitVec 32 := Scalar.remsi v813 v815
  let c0_i32_583 : BitVec 32 := 0#32
  let v818 : BitVec 1 := Scalar.cmpi .slt v816 c0_i32_583
  let c0_i32_584 : BitVec 32 := 0#32
  let v819 : BitVec 1 := Scalar.cmpi .slt v815 c0_i32_584
  let v820 : BitVec 1 := Scalar.xori v818 v819
  let c0_i32_582 : BitVec 32 := 0#32
  let v817 : BitVec 1 := Scalar.cmpi .ne v816 c0_i32_582
  let v821 : BitVec 1 := Scalar.andi v820 v817
  let v822 : BitVec 32 := Scalar.addi v816 v815
  let v823 : BitVec 32 := Scalar.select v821 v822 v816
  let c1_i32_586 : BitVec 32 := 1#32
  let v824 : BitVec 32 := Scalar.muli v823 c1_i32_586
  let v825 : BitVec 32 := Scalar.addi c0_i32_587 v824
  v825.toNat
def k0_dev54 (d0 : Dev nD) : Nat :=
  let c0_i32_601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_592 : BitVec 32 := 23#32
  let v832 : BitVec 32 := Scalar.addi v2 c23_i32_592
  let c32_i32_593 : BitVec 32 := 32#32
  let c0_i32_594 : BitVec 32 := 0#32
  let v833 : BitVec 1 := Scalar.cmpi .eq c32_i32_593 c0_i32_594
  let c1_i32_595 : BitVec 32 := 1#32
  let v834 : BitVec 32 := Scalar.select v833 c1_i32_595 c32_i32_593
  let v835 : BitVec 32 := Scalar.remsi v832 v834
  let c0_i32_597 : BitVec 32 := 0#32
  let v837 : BitVec 1 := Scalar.cmpi .slt v835 c0_i32_597
  let c0_i32_598 : BitVec 32 := 0#32
  let v838 : BitVec 1 := Scalar.cmpi .slt v834 c0_i32_598
  let v839 : BitVec 1 := Scalar.xori v837 v838
  let c0_i32_596 : BitVec 32 := 0#32
  let v836 : BitVec 1 := Scalar.cmpi .ne v835 c0_i32_596
  let v840 : BitVec 1 := Scalar.andi v839 v836
  let v841 : BitVec 32 := Scalar.addi v835 v834
  let v842 : BitVec 32 := Scalar.select v840 v841 v835
  let c1_i32_600 : BitVec 32 := 1#32
  let v843 : BitVec 32 := Scalar.muli v842 c1_i32_600
  let v844 : BitVec 32 := Scalar.addi c0_i32_601 v843
  v844.toNat
def k0_dev55 (d0 : Dev nD) : Nat :=
  let c0_i32_615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_606 : BitVec 32 := 24#32
  let v851 : BitVec 32 := Scalar.addi v2 c24_i32_606
  let c32_i32_607 : BitVec 32 := 32#32
  let c0_i32_608 : BitVec 32 := 0#32
  let v852 : BitVec 1 := Scalar.cmpi .eq c32_i32_607 c0_i32_608
  let c1_i32_609 : BitVec 32 := 1#32
  let v853 : BitVec 32 := Scalar.select v852 c1_i32_609 c32_i32_607
  let v854 : BitVec 32 := Scalar.remsi v851 v853
  let c0_i32_611 : BitVec 32 := 0#32
  let v856 : BitVec 1 := Scalar.cmpi .slt v854 c0_i32_611
  let c0_i32_612 : BitVec 32 := 0#32
  let v857 : BitVec 1 := Scalar.cmpi .slt v853 c0_i32_612
  let v858 : BitVec 1 := Scalar.xori v856 v857
  let c0_i32_610 : BitVec 32 := 0#32
  let v855 : BitVec 1 := Scalar.cmpi .ne v854 c0_i32_610
  let v859 : BitVec 1 := Scalar.andi v858 v855
  let v860 : BitVec 32 := Scalar.addi v854 v853
  let v861 : BitVec 32 := Scalar.select v859 v860 v854
  let c1_i32_614 : BitVec 32 := 1#32
  let v862 : BitVec 32 := Scalar.muli v861 c1_i32_614
  let v863 : BitVec 32 := Scalar.addi c0_i32_615 v862
  v863.toNat
def k0_dev56 (d0 : Dev nD) : Nat :=
  let c0_i32_629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_620 : BitVec 32 := 25#32
  let v870 : BitVec 32 := Scalar.addi v2 c25_i32_620
  let c32_i32_621 : BitVec 32 := 32#32
  let c0_i32_622 : BitVec 32 := 0#32
  let v871 : BitVec 1 := Scalar.cmpi .eq c32_i32_621 c0_i32_622
  let c1_i32_623 : BitVec 32 := 1#32
  let v872 : BitVec 32 := Scalar.select v871 c1_i32_623 c32_i32_621
  let v873 : BitVec 32 := Scalar.remsi v870 v872
  let c0_i32_625 : BitVec 32 := 0#32
  let v875 : BitVec 1 := Scalar.cmpi .slt v873 c0_i32_625
  let c0_i32_626 : BitVec 32 := 0#32
  let v876 : BitVec 1 := Scalar.cmpi .slt v872 c0_i32_626
  let v877 : BitVec 1 := Scalar.xori v875 v876
  let c0_i32_624 : BitVec 32 := 0#32
  let v874 : BitVec 1 := Scalar.cmpi .ne v873 c0_i32_624
  let v878 : BitVec 1 := Scalar.andi v877 v874
  let v879 : BitVec 32 := Scalar.addi v873 v872
  let v880 : BitVec 32 := Scalar.select v878 v879 v873
  let c1_i32_628 : BitVec 32 := 1#32
  let v881 : BitVec 32 := Scalar.muli v880 c1_i32_628
  let v882 : BitVec 32 := Scalar.addi c0_i32_629 v881
  v882.toNat
def k0_dev57 (d0 : Dev nD) : Nat :=
  let c0_i32_643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_634 : BitVec 32 := 26#32
  let v889 : BitVec 32 := Scalar.addi v2 c26_i32_634
  let c32_i32_635 : BitVec 32 := 32#32
  let c0_i32_636 : BitVec 32 := 0#32
  let v890 : BitVec 1 := Scalar.cmpi .eq c32_i32_635 c0_i32_636
  let c1_i32_637 : BitVec 32 := 1#32
  let v891 : BitVec 32 := Scalar.select v890 c1_i32_637 c32_i32_635
  let v892 : BitVec 32 := Scalar.remsi v889 v891
  let c0_i32_639 : BitVec 32 := 0#32
  let v894 : BitVec 1 := Scalar.cmpi .slt v892 c0_i32_639
  let c0_i32_640 : BitVec 32 := 0#32
  let v895 : BitVec 1 := Scalar.cmpi .slt v891 c0_i32_640
  let v896 : BitVec 1 := Scalar.xori v894 v895
  let c0_i32_638 : BitVec 32 := 0#32
  let v893 : BitVec 1 := Scalar.cmpi .ne v892 c0_i32_638
  let v897 : BitVec 1 := Scalar.andi v896 v893
  let v898 : BitVec 32 := Scalar.addi v892 v891
  let v899 : BitVec 32 := Scalar.select v897 v898 v892
  let c1_i32_642 : BitVec 32 := 1#32
  let v900 : BitVec 32 := Scalar.muli v899 c1_i32_642
  let v901 : BitVec 32 := Scalar.addi c0_i32_643 v900
  v901.toNat
def k0_dev58 (d0 : Dev nD) : Nat :=
  let c0_i32_657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_648 : BitVec 32 := 27#32
  let v908 : BitVec 32 := Scalar.addi v2 c27_i32_648
  let c32_i32_649 : BitVec 32 := 32#32
  let c0_i32_650 : BitVec 32 := 0#32
  let v909 : BitVec 1 := Scalar.cmpi .eq c32_i32_649 c0_i32_650
  let c1_i32_651 : BitVec 32 := 1#32
  let v910 : BitVec 32 := Scalar.select v909 c1_i32_651 c32_i32_649
  let v911 : BitVec 32 := Scalar.remsi v908 v910
  let c0_i32_653 : BitVec 32 := 0#32
  let v913 : BitVec 1 := Scalar.cmpi .slt v911 c0_i32_653
  let c0_i32_654 : BitVec 32 := 0#32
  let v914 : BitVec 1 := Scalar.cmpi .slt v910 c0_i32_654
  let v915 : BitVec 1 := Scalar.xori v913 v914
  let c0_i32_652 : BitVec 32 := 0#32
  let v912 : BitVec 1 := Scalar.cmpi .ne v911 c0_i32_652
  let v916 : BitVec 1 := Scalar.andi v915 v912
  let v917 : BitVec 32 := Scalar.addi v911 v910
  let v918 : BitVec 32 := Scalar.select v916 v917 v911
  let c1_i32_656 : BitVec 32 := 1#32
  let v919 : BitVec 32 := Scalar.muli v918 c1_i32_656
  let v920 : BitVec 32 := Scalar.addi c0_i32_657 v919
  v920.toNat
def k0_dev59 (d0 : Dev nD) : Nat :=
  let c0_i32_671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_662 : BitVec 32 := 28#32
  let v927 : BitVec 32 := Scalar.addi v2 c28_i32_662
  let c32_i32_663 : BitVec 32 := 32#32
  let c0_i32_664 : BitVec 32 := 0#32
  let v928 : BitVec 1 := Scalar.cmpi .eq c32_i32_663 c0_i32_664
  let c1_i32_665 : BitVec 32 := 1#32
  let v929 : BitVec 32 := Scalar.select v928 c1_i32_665 c32_i32_663
  let v930 : BitVec 32 := Scalar.remsi v927 v929
  let c0_i32_667 : BitVec 32 := 0#32
  let v932 : BitVec 1 := Scalar.cmpi .slt v930 c0_i32_667
  let c0_i32_668 : BitVec 32 := 0#32
  let v933 : BitVec 1 := Scalar.cmpi .slt v929 c0_i32_668
  let v934 : BitVec 1 := Scalar.xori v932 v933
  let c0_i32_666 : BitVec 32 := 0#32
  let v931 : BitVec 1 := Scalar.cmpi .ne v930 c0_i32_666
  let v935 : BitVec 1 := Scalar.andi v934 v931
  let v936 : BitVec 32 := Scalar.addi v930 v929
  let v937 : BitVec 32 := Scalar.select v935 v936 v930
  let c1_i32_670 : BitVec 32 := 1#32
  let v938 : BitVec 32 := Scalar.muli v937 c1_i32_670
  let v939 : BitVec 32 := Scalar.addi c0_i32_671 v938
  v939.toNat
def k0_dev60 (d0 : Dev nD) : Nat :=
  let c0_i32_685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_676 : BitVec 32 := 29#32
  let v946 : BitVec 32 := Scalar.addi v2 c29_i32_676
  let c32_i32_677 : BitVec 32 := 32#32
  let c0_i32_678 : BitVec 32 := 0#32
  let v947 : BitVec 1 := Scalar.cmpi .eq c32_i32_677 c0_i32_678
  let c1_i32_679 : BitVec 32 := 1#32
  let v948 : BitVec 32 := Scalar.select v947 c1_i32_679 c32_i32_677
  let v949 : BitVec 32 := Scalar.remsi v946 v948
  let c0_i32_681 : BitVec 32 := 0#32
  let v951 : BitVec 1 := Scalar.cmpi .slt v949 c0_i32_681
  let c0_i32_682 : BitVec 32 := 0#32
  let v952 : BitVec 1 := Scalar.cmpi .slt v948 c0_i32_682
  let v953 : BitVec 1 := Scalar.xori v951 v952
  let c0_i32_680 : BitVec 32 := 0#32
  let v950 : BitVec 1 := Scalar.cmpi .ne v949 c0_i32_680
  let v954 : BitVec 1 := Scalar.andi v953 v950
  let v955 : BitVec 32 := Scalar.addi v949 v948
  let v956 : BitVec 32 := Scalar.select v954 v955 v949
  let c1_i32_684 : BitVec 32 := 1#32
  let v957 : BitVec 32 := Scalar.muli v956 c1_i32_684
  let v958 : BitVec 32 := Scalar.addi c0_i32_685 v957
  v958.toNat
def k0_dev61 (d0 : Dev nD) : Nat :=
  let c0_i32_699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_690 : BitVec 32 := 30#32
  let v965 : BitVec 32 := Scalar.addi v2 c30_i32_690
  let c32_i32_691 : BitVec 32 := 32#32
  let c0_i32_692 : BitVec 32 := 0#32
  let v966 : BitVec 1 := Scalar.cmpi .eq c32_i32_691 c0_i32_692
  let c1_i32_693 : BitVec 32 := 1#32
  let v967 : BitVec 32 := Scalar.select v966 c1_i32_693 c32_i32_691
  let v968 : BitVec 32 := Scalar.remsi v965 v967
  let c0_i32_695 : BitVec 32 := 0#32
  let v970 : BitVec 1 := Scalar.cmpi .slt v968 c0_i32_695
  let c0_i32_696 : BitVec 32 := 0#32
  let v971 : BitVec 1 := Scalar.cmpi .slt v967 c0_i32_696
  let v972 : BitVec 1 := Scalar.xori v970 v971
  let c0_i32_694 : BitVec 32 := 0#32
  let v969 : BitVec 1 := Scalar.cmpi .ne v968 c0_i32_694
  let v973 : BitVec 1 := Scalar.andi v972 v969
  let v974 : BitVec 32 := Scalar.addi v968 v967
  let v975 : BitVec 32 := Scalar.select v973 v974 v968
  let c1_i32_698 : BitVec 32 := 1#32
  let v976 : BitVec 32 := Scalar.muli v975 c1_i32_698
  let v977 : BitVec 32 := Scalar.addi c0_i32_699 v976
  v977.toNat
def k0_dev62 (d0 : Dev nD) : Nat :=
  let c0_i32_713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_704 : BitVec 32 := 31#32
  let v984 : BitVec 32 := Scalar.addi v2 c31_i32_704
  let c32_i32_705 : BitVec 32 := 32#32
  let c0_i32_706 : BitVec 32 := 0#32
  let v985 : BitVec 1 := Scalar.cmpi .eq c32_i32_705 c0_i32_706
  let c1_i32_707 : BitVec 32 := 1#32
  let v986 : BitVec 32 := Scalar.select v985 c1_i32_707 c32_i32_705
  let v987 : BitVec 32 := Scalar.remsi v984 v986
  let c0_i32_709 : BitVec 32 := 0#32
  let v989 : BitVec 1 := Scalar.cmpi .slt v987 c0_i32_709
  let c0_i32_710 : BitVec 32 := 0#32
  let v990 : BitVec 1 := Scalar.cmpi .slt v986 c0_i32_710
  let v991 : BitVec 1 := Scalar.xori v989 v990
  let c0_i32_708 : BitVec 32 := 0#32
  let v988 : BitVec 1 := Scalar.cmpi .ne v987 c0_i32_708
  let v992 : BitVec 1 := Scalar.andi v991 v988
  let v993 : BitVec 32 := Scalar.addi v987 v986
  let v994 : BitVec 32 := Scalar.select v992 v993 v987
  let c1_i32_712 : BitVec 32 := 1#32
  let v995 : BitVec 32 := Scalar.muli v994 c1_i32_712
  let v996 : BitVec 32 := Scalar.addi c0_i32_713 v995
  v996.toNat
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1003 : Index := Scalar.indexCast v2
  let c0_718 : Index := 0#32
  let c0_719 : Index := 0#32
  ![v1003.toNat, 0, 0]
def k0_off5 (d0 : Dev nD) (c1_i32_720 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1007 : BitVec 32 := Scalar.addi v2 c1_i32_720
  let c32_i32_721 : BitVec 32 := 32#32
  let c0_i32_722 : BitVec 32 := 0#32
  let v1008 : BitVec 1 := Scalar.cmpi .eq c32_i32_721 c0_i32_722
  let c1_i32_723 : BitVec 32 := 1#32
  let v1009 : BitVec 32 := Scalar.select v1008 c1_i32_723 c32_i32_721
  let v1010 : BitVec 32 := Scalar.remsi v1007 v1009
  let c0_i32_725 : BitVec 32 := 0#32
  let v1012 : BitVec 1 := Scalar.cmpi .slt v1010 c0_i32_725
  let c0_i32_726 : BitVec 32 := 0#32
  let v1013 : BitVec 1 := Scalar.cmpi .slt v1009 c0_i32_726
  let v1014 : BitVec 1 := Scalar.xori v1012 v1013
  let c0_i32_724 : BitVec 32 := 0#32
  let v1011 : BitVec 1 := Scalar.cmpi .ne v1010 c0_i32_724
  let v1015 : BitVec 1 := Scalar.andi v1014 v1011
  let v1016 : BitVec 32 := Scalar.addi v1010 v1009
  let v1017 : BitVec 32 := Scalar.select v1015 v1016 v1010
  ![v1017.toNat]
def k0_off6 (d0 : Dev nD) (c1_i32_720 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1007 : BitVec 32 := Scalar.addi v2 c1_i32_720
  let c32_i32_721 : BitVec 32 := 32#32
  let c0_i32_722 : BitVec 32 := 0#32
  let v1008 : BitVec 1 := Scalar.cmpi .eq c32_i32_721 c0_i32_722
  let c1_i32_723 : BitVec 32 := 1#32
  let v1009 : BitVec 32 := Scalar.select v1008 c1_i32_723 c32_i32_721
  let v1010 : BitVec 32 := Scalar.remsi v1007 v1009
  let c0_i32_725 : BitVec 32 := 0#32
  let v1012 : BitVec 1 := Scalar.cmpi .slt v1010 c0_i32_725
  let c0_i32_726 : BitVec 32 := 0#32
  let v1013 : BitVec 1 := Scalar.cmpi .slt v1009 c0_i32_726
  let v1014 : BitVec 1 := Scalar.xori v1012 v1013
  let c0_i32_724 : BitVec 32 := 0#32
  let v1011 : BitVec 1 := Scalar.cmpi .ne v1010 c0_i32_724
  let v1015 : BitVec 1 := Scalar.andi v1014 v1011
  let v1016 : BitVec 32 := Scalar.addi v1010 v1009
  let v1017 : BitVec 32 := Scalar.select v1015 v1016 v1010
  let v1024 : Index := Scalar.indexCast v1017
  let c0_735 : Index := 0#32
  let c0_736 : Index := 0#32
  ![v1024.toNat, 0, 0]
def k0_dev63 (d0 : Dev nD) : Nat :=
  let c0_i32_1258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1249 : BitVec 32 := 1#32
  let v1695 : BitVec 32 := Scalar.addi v2 c1_i32_1249
  let c32_i32_1250 : BitVec 32 := 32#32
  let c0_i32_1251 : BitVec 32 := 0#32
  let v1696 : BitVec 1 := Scalar.cmpi .eq c32_i32_1250 c0_i32_1251
  let c1_i32_1252 : BitVec 32 := 1#32
  let v1697 : BitVec 32 := Scalar.select v1696 c1_i32_1252 c32_i32_1250
  let v1698 : BitVec 32 := Scalar.remsi v1695 v1697
  let c0_i32_1254 : BitVec 32 := 0#32
  let v1700 : BitVec 1 := Scalar.cmpi .slt v1698 c0_i32_1254
  let c0_i32_1255 : BitVec 32 := 0#32
  let v1701 : BitVec 1 := Scalar.cmpi .slt v1697 c0_i32_1255
  let v1702 : BitVec 1 := Scalar.xori v1700 v1701
  let c0_i32_1253 : BitVec 32 := 0#32
  let v1699 : BitVec 1 := Scalar.cmpi .ne v1698 c0_i32_1253
  let v1703 : BitVec 1 := Scalar.andi v1702 v1699
  let v1704 : BitVec 32 := Scalar.addi v1698 v1697
  let v1705 : BitVec 32 := Scalar.select v1703 v1704 v1698
  let c1_i32_1257 : BitVec 32 := 1#32
  let v1706 : BitVec 32 := Scalar.muli v1705 c1_i32_1257
  let v1707 : BitVec 32 := Scalar.addi c0_i32_1258 v1706
  v1707.toNat
def k0_dev64 (d0 : Dev nD) : Nat :=
  let c0_i32_1272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1263 : BitVec 32 := 2#32
  let v1714 : BitVec 32 := Scalar.addi v2 c2_i32_1263
  let c32_i32_1264 : BitVec 32 := 32#32
  let c0_i32_1265 : BitVec 32 := 0#32
  let v1715 : BitVec 1 := Scalar.cmpi .eq c32_i32_1264 c0_i32_1265
  let c1_i32_1266 : BitVec 32 := 1#32
  let v1716 : BitVec 32 := Scalar.select v1715 c1_i32_1266 c32_i32_1264
  let v1717 : BitVec 32 := Scalar.remsi v1714 v1716
  let c0_i32_1268 : BitVec 32 := 0#32
  let v1719 : BitVec 1 := Scalar.cmpi .slt v1717 c0_i32_1268
  let c0_i32_1269 : BitVec 32 := 0#32
  let v1720 : BitVec 1 := Scalar.cmpi .slt v1716 c0_i32_1269
  let v1721 : BitVec 1 := Scalar.xori v1719 v1720
  let c0_i32_1267 : BitVec 32 := 0#32
  let v1718 : BitVec 1 := Scalar.cmpi .ne v1717 c0_i32_1267
  let v1722 : BitVec 1 := Scalar.andi v1721 v1718
  let v1723 : BitVec 32 := Scalar.addi v1717 v1716
  let v1724 : BitVec 32 := Scalar.select v1722 v1723 v1717
  let c1_i32_1271 : BitVec 32 := 1#32
  let v1725 : BitVec 32 := Scalar.muli v1724 c1_i32_1271
  let v1726 : BitVec 32 := Scalar.addi c0_i32_1272 v1725
  v1726.toNat
def k0_dev65 (d0 : Dev nD) : Nat :=
  let c0_i32_1286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1277 : BitVec 32 := 3#32
  let v1733 : BitVec 32 := Scalar.addi v2 c3_i32_1277
  let c32_i32_1278 : BitVec 32 := 32#32
  let c0_i32_1279 : BitVec 32 := 0#32
  let v1734 : BitVec 1 := Scalar.cmpi .eq c32_i32_1278 c0_i32_1279
  let c1_i32_1280 : BitVec 32 := 1#32
  let v1735 : BitVec 32 := Scalar.select v1734 c1_i32_1280 c32_i32_1278
  let v1736 : BitVec 32 := Scalar.remsi v1733 v1735
  let c0_i32_1282 : BitVec 32 := 0#32
  let v1738 : BitVec 1 := Scalar.cmpi .slt v1736 c0_i32_1282
  let c0_i32_1283 : BitVec 32 := 0#32
  let v1739 : BitVec 1 := Scalar.cmpi .slt v1735 c0_i32_1283
  let v1740 : BitVec 1 := Scalar.xori v1738 v1739
  let c0_i32_1281 : BitVec 32 := 0#32
  let v1737 : BitVec 1 := Scalar.cmpi .ne v1736 c0_i32_1281
  let v1741 : BitVec 1 := Scalar.andi v1740 v1737
  let v1742 : BitVec 32 := Scalar.addi v1736 v1735
  let v1743 : BitVec 32 := Scalar.select v1741 v1742 v1736
  let c1_i32_1285 : BitVec 32 := 1#32
  let v1744 : BitVec 32 := Scalar.muli v1743 c1_i32_1285
  let v1745 : BitVec 32 := Scalar.addi c0_i32_1286 v1744
  v1745.toNat
def k0_dev66 (d0 : Dev nD) : Nat :=
  let c0_i32_1300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1291 : BitVec 32 := 4#32
  let v1752 : BitVec 32 := Scalar.addi v2 c4_i32_1291
  let c32_i32_1292 : BitVec 32 := 32#32
  let c0_i32_1293 : BitVec 32 := 0#32
  let v1753 : BitVec 1 := Scalar.cmpi .eq c32_i32_1292 c0_i32_1293
  let c1_i32_1294 : BitVec 32 := 1#32
  let v1754 : BitVec 32 := Scalar.select v1753 c1_i32_1294 c32_i32_1292
  let v1755 : BitVec 32 := Scalar.remsi v1752 v1754
  let c0_i32_1296 : BitVec 32 := 0#32
  let v1757 : BitVec 1 := Scalar.cmpi .slt v1755 c0_i32_1296
  let c0_i32_1297 : BitVec 32 := 0#32
  let v1758 : BitVec 1 := Scalar.cmpi .slt v1754 c0_i32_1297
  let v1759 : BitVec 1 := Scalar.xori v1757 v1758
  let c0_i32_1295 : BitVec 32 := 0#32
  let v1756 : BitVec 1 := Scalar.cmpi .ne v1755 c0_i32_1295
  let v1760 : BitVec 1 := Scalar.andi v1759 v1756
  let v1761 : BitVec 32 := Scalar.addi v1755 v1754
  let v1762 : BitVec 32 := Scalar.select v1760 v1761 v1755
  let c1_i32_1299 : BitVec 32 := 1#32
  let v1763 : BitVec 32 := Scalar.muli v1762 c1_i32_1299
  let v1764 : BitVec 32 := Scalar.addi c0_i32_1300 v1763
  v1764.toNat
def k0_dev67 (d0 : Dev nD) : Nat :=
  let c0_i32_1314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1305 : BitVec 32 := 5#32
  let v1771 : BitVec 32 := Scalar.addi v2 c5_i32_1305
  let c32_i32_1306 : BitVec 32 := 32#32
  let c0_i32_1307 : BitVec 32 := 0#32
  let v1772 : BitVec 1 := Scalar.cmpi .eq c32_i32_1306 c0_i32_1307
  let c1_i32_1308 : BitVec 32 := 1#32
  let v1773 : BitVec 32 := Scalar.select v1772 c1_i32_1308 c32_i32_1306
  let v1774 : BitVec 32 := Scalar.remsi v1771 v1773
  let c0_i32_1310 : BitVec 32 := 0#32
  let v1776 : BitVec 1 := Scalar.cmpi .slt v1774 c0_i32_1310
  let c0_i32_1311 : BitVec 32 := 0#32
  let v1777 : BitVec 1 := Scalar.cmpi .slt v1773 c0_i32_1311
  let v1778 : BitVec 1 := Scalar.xori v1776 v1777
  let c0_i32_1309 : BitVec 32 := 0#32
  let v1775 : BitVec 1 := Scalar.cmpi .ne v1774 c0_i32_1309
  let v1779 : BitVec 1 := Scalar.andi v1778 v1775
  let v1780 : BitVec 32 := Scalar.addi v1774 v1773
  let v1781 : BitVec 32 := Scalar.select v1779 v1780 v1774
  let c1_i32_1313 : BitVec 32 := 1#32
  let v1782 : BitVec 32 := Scalar.muli v1781 c1_i32_1313
  let v1783 : BitVec 32 := Scalar.addi c0_i32_1314 v1782
  v1783.toNat
def k0_dev68 (d0 : Dev nD) : Nat :=
  let c0_i32_1328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1319 : BitVec 32 := 6#32
  let v1790 : BitVec 32 := Scalar.addi v2 c6_i32_1319
  let c32_i32_1320 : BitVec 32 := 32#32
  let c0_i32_1321 : BitVec 32 := 0#32
  let v1791 : BitVec 1 := Scalar.cmpi .eq c32_i32_1320 c0_i32_1321
  let c1_i32_1322 : BitVec 32 := 1#32
  let v1792 : BitVec 32 := Scalar.select v1791 c1_i32_1322 c32_i32_1320
  let v1793 : BitVec 32 := Scalar.remsi v1790 v1792
  let c0_i32_1324 : BitVec 32 := 0#32
  let v1795 : BitVec 1 := Scalar.cmpi .slt v1793 c0_i32_1324
  let c0_i32_1325 : BitVec 32 := 0#32
  let v1796 : BitVec 1 := Scalar.cmpi .slt v1792 c0_i32_1325
  let v1797 : BitVec 1 := Scalar.xori v1795 v1796
  let c0_i32_1323 : BitVec 32 := 0#32
  let v1794 : BitVec 1 := Scalar.cmpi .ne v1793 c0_i32_1323
  let v1798 : BitVec 1 := Scalar.andi v1797 v1794
  let v1799 : BitVec 32 := Scalar.addi v1793 v1792
  let v1800 : BitVec 32 := Scalar.select v1798 v1799 v1793
  let c1_i32_1327 : BitVec 32 := 1#32
  let v1801 : BitVec 32 := Scalar.muli v1800 c1_i32_1327
  let v1802 : BitVec 32 := Scalar.addi c0_i32_1328 v1801
  v1802.toNat
def k0_dev69 (d0 : Dev nD) : Nat :=
  let c0_i32_1342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1333 : BitVec 32 := 7#32
  let v1809 : BitVec 32 := Scalar.addi v2 c7_i32_1333
  let c32_i32_1334 : BitVec 32 := 32#32
  let c0_i32_1335 : BitVec 32 := 0#32
  let v1810 : BitVec 1 := Scalar.cmpi .eq c32_i32_1334 c0_i32_1335
  let c1_i32_1336 : BitVec 32 := 1#32
  let v1811 : BitVec 32 := Scalar.select v1810 c1_i32_1336 c32_i32_1334
  let v1812 : BitVec 32 := Scalar.remsi v1809 v1811
  let c0_i32_1338 : BitVec 32 := 0#32
  let v1814 : BitVec 1 := Scalar.cmpi .slt v1812 c0_i32_1338
  let c0_i32_1339 : BitVec 32 := 0#32
  let v1815 : BitVec 1 := Scalar.cmpi .slt v1811 c0_i32_1339
  let v1816 : BitVec 1 := Scalar.xori v1814 v1815
  let c0_i32_1337 : BitVec 32 := 0#32
  let v1813 : BitVec 1 := Scalar.cmpi .ne v1812 c0_i32_1337
  let v1817 : BitVec 1 := Scalar.andi v1816 v1813
  let v1818 : BitVec 32 := Scalar.addi v1812 v1811
  let v1819 : BitVec 32 := Scalar.select v1817 v1818 v1812
  let c1_i32_1341 : BitVec 32 := 1#32
  let v1820 : BitVec 32 := Scalar.muli v1819 c1_i32_1341
  let v1821 : BitVec 32 := Scalar.addi c0_i32_1342 v1820
  v1821.toNat
def k0_dev70 (d0 : Dev nD) : Nat :=
  let c0_i32_1356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1347 : BitVec 32 := 8#32
  let v1828 : BitVec 32 := Scalar.addi v2 c8_i32_1347
  let c32_i32_1348 : BitVec 32 := 32#32
  let c0_i32_1349 : BitVec 32 := 0#32
  let v1829 : BitVec 1 := Scalar.cmpi .eq c32_i32_1348 c0_i32_1349
  let c1_i32_1350 : BitVec 32 := 1#32
  let v1830 : BitVec 32 := Scalar.select v1829 c1_i32_1350 c32_i32_1348
  let v1831 : BitVec 32 := Scalar.remsi v1828 v1830
  let c0_i32_1352 : BitVec 32 := 0#32
  let v1833 : BitVec 1 := Scalar.cmpi .slt v1831 c0_i32_1352
  let c0_i32_1353 : BitVec 32 := 0#32
  let v1834 : BitVec 1 := Scalar.cmpi .slt v1830 c0_i32_1353
  let v1835 : BitVec 1 := Scalar.xori v1833 v1834
  let c0_i32_1351 : BitVec 32 := 0#32
  let v1832 : BitVec 1 := Scalar.cmpi .ne v1831 c0_i32_1351
  let v1836 : BitVec 1 := Scalar.andi v1835 v1832
  let v1837 : BitVec 32 := Scalar.addi v1831 v1830
  let v1838 : BitVec 32 := Scalar.select v1836 v1837 v1831
  let c1_i32_1355 : BitVec 32 := 1#32
  let v1839 : BitVec 32 := Scalar.muli v1838 c1_i32_1355
  let v1840 : BitVec 32 := Scalar.addi c0_i32_1356 v1839
  v1840.toNat
def k0_dev71 (d0 : Dev nD) : Nat :=
  let c0_i32_1370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1361 : BitVec 32 := 9#32
  let v1847 : BitVec 32 := Scalar.addi v2 c9_i32_1361
  let c32_i32_1362 : BitVec 32 := 32#32
  let c0_i32_1363 : BitVec 32 := 0#32
  let v1848 : BitVec 1 := Scalar.cmpi .eq c32_i32_1362 c0_i32_1363
  let c1_i32_1364 : BitVec 32 := 1#32
  let v1849 : BitVec 32 := Scalar.select v1848 c1_i32_1364 c32_i32_1362
  let v1850 : BitVec 32 := Scalar.remsi v1847 v1849
  let c0_i32_1366 : BitVec 32 := 0#32
  let v1852 : BitVec 1 := Scalar.cmpi .slt v1850 c0_i32_1366
  let c0_i32_1367 : BitVec 32 := 0#32
  let v1853 : BitVec 1 := Scalar.cmpi .slt v1849 c0_i32_1367
  let v1854 : BitVec 1 := Scalar.xori v1852 v1853
  let c0_i32_1365 : BitVec 32 := 0#32
  let v1851 : BitVec 1 := Scalar.cmpi .ne v1850 c0_i32_1365
  let v1855 : BitVec 1 := Scalar.andi v1854 v1851
  let v1856 : BitVec 32 := Scalar.addi v1850 v1849
  let v1857 : BitVec 32 := Scalar.select v1855 v1856 v1850
  let c1_i32_1369 : BitVec 32 := 1#32
  let v1858 : BitVec 32 := Scalar.muli v1857 c1_i32_1369
  let v1859 : BitVec 32 := Scalar.addi c0_i32_1370 v1858
  v1859.toNat
def k0_dev72 (d0 : Dev nD) : Nat :=
  let c0_i32_1384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1375 : BitVec 32 := 10#32
  let v1866 : BitVec 32 := Scalar.addi v2 c10_i32_1375
  let c32_i32_1376 : BitVec 32 := 32#32
  let c0_i32_1377 : BitVec 32 := 0#32
  let v1867 : BitVec 1 := Scalar.cmpi .eq c32_i32_1376 c0_i32_1377
  let c1_i32_1378 : BitVec 32 := 1#32
  let v1868 : BitVec 32 := Scalar.select v1867 c1_i32_1378 c32_i32_1376
  let v1869 : BitVec 32 := Scalar.remsi v1866 v1868
  let c0_i32_1380 : BitVec 32 := 0#32
  let v1871 : BitVec 1 := Scalar.cmpi .slt v1869 c0_i32_1380
  let c0_i32_1381 : BitVec 32 := 0#32
  let v1872 : BitVec 1 := Scalar.cmpi .slt v1868 c0_i32_1381
  let v1873 : BitVec 1 := Scalar.xori v1871 v1872
  let c0_i32_1379 : BitVec 32 := 0#32
  let v1870 : BitVec 1 := Scalar.cmpi .ne v1869 c0_i32_1379
  let v1874 : BitVec 1 := Scalar.andi v1873 v1870
  let v1875 : BitVec 32 := Scalar.addi v1869 v1868
  let v1876 : BitVec 32 := Scalar.select v1874 v1875 v1869
  let c1_i32_1383 : BitVec 32 := 1#32
  let v1877 : BitVec 32 := Scalar.muli v1876 c1_i32_1383
  let v1878 : BitVec 32 := Scalar.addi c0_i32_1384 v1877
  v1878.toNat
def k0_dev73 (d0 : Dev nD) : Nat :=
  let c0_i32_1398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1389 : BitVec 32 := 11#32
  let v1885 : BitVec 32 := Scalar.addi v2 c11_i32_1389
  let c32_i32_1390 : BitVec 32 := 32#32
  let c0_i32_1391 : BitVec 32 := 0#32
  let v1886 : BitVec 1 := Scalar.cmpi .eq c32_i32_1390 c0_i32_1391
  let c1_i32_1392 : BitVec 32 := 1#32
  let v1887 : BitVec 32 := Scalar.select v1886 c1_i32_1392 c32_i32_1390
  let v1888 : BitVec 32 := Scalar.remsi v1885 v1887
  let c0_i32_1394 : BitVec 32 := 0#32
  let v1890 : BitVec 1 := Scalar.cmpi .slt v1888 c0_i32_1394
  let c0_i32_1395 : BitVec 32 := 0#32
  let v1891 : BitVec 1 := Scalar.cmpi .slt v1887 c0_i32_1395
  let v1892 : BitVec 1 := Scalar.xori v1890 v1891
  let c0_i32_1393 : BitVec 32 := 0#32
  let v1889 : BitVec 1 := Scalar.cmpi .ne v1888 c0_i32_1393
  let v1893 : BitVec 1 := Scalar.andi v1892 v1889
  let v1894 : BitVec 32 := Scalar.addi v1888 v1887
  let v1895 : BitVec 32 := Scalar.select v1893 v1894 v1888
  let c1_i32_1397 : BitVec 32 := 1#32
  let v1896 : BitVec 32 := Scalar.muli v1895 c1_i32_1397
  let v1897 : BitVec 32 := Scalar.addi c0_i32_1398 v1896
  v1897.toNat
def k0_dev74 (d0 : Dev nD) : Nat :=
  let c0_i32_1412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1403 : BitVec 32 := 12#32
  let v1904 : BitVec 32 := Scalar.addi v2 c12_i32_1403
  let c32_i32_1404 : BitVec 32 := 32#32
  let c0_i32_1405 : BitVec 32 := 0#32
  let v1905 : BitVec 1 := Scalar.cmpi .eq c32_i32_1404 c0_i32_1405
  let c1_i32_1406 : BitVec 32 := 1#32
  let v1906 : BitVec 32 := Scalar.select v1905 c1_i32_1406 c32_i32_1404
  let v1907 : BitVec 32 := Scalar.remsi v1904 v1906
  let c0_i32_1408 : BitVec 32 := 0#32
  let v1909 : BitVec 1 := Scalar.cmpi .slt v1907 c0_i32_1408
  let c0_i32_1409 : BitVec 32 := 0#32
  let v1910 : BitVec 1 := Scalar.cmpi .slt v1906 c0_i32_1409
  let v1911 : BitVec 1 := Scalar.xori v1909 v1910
  let c0_i32_1407 : BitVec 32 := 0#32
  let v1908 : BitVec 1 := Scalar.cmpi .ne v1907 c0_i32_1407
  let v1912 : BitVec 1 := Scalar.andi v1911 v1908
  let v1913 : BitVec 32 := Scalar.addi v1907 v1906
  let v1914 : BitVec 32 := Scalar.select v1912 v1913 v1907
  let c1_i32_1411 : BitVec 32 := 1#32
  let v1915 : BitVec 32 := Scalar.muli v1914 c1_i32_1411
  let v1916 : BitVec 32 := Scalar.addi c0_i32_1412 v1915
  v1916.toNat
def k0_dev75 (d0 : Dev nD) : Nat :=
  let c0_i32_1426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1417 : BitVec 32 := 13#32
  let v1923 : BitVec 32 := Scalar.addi v2 c13_i32_1417
  let c32_i32_1418 : BitVec 32 := 32#32
  let c0_i32_1419 : BitVec 32 := 0#32
  let v1924 : BitVec 1 := Scalar.cmpi .eq c32_i32_1418 c0_i32_1419
  let c1_i32_1420 : BitVec 32 := 1#32
  let v1925 : BitVec 32 := Scalar.select v1924 c1_i32_1420 c32_i32_1418
  let v1926 : BitVec 32 := Scalar.remsi v1923 v1925
  let c0_i32_1422 : BitVec 32 := 0#32
  let v1928 : BitVec 1 := Scalar.cmpi .slt v1926 c0_i32_1422
  let c0_i32_1423 : BitVec 32 := 0#32
  let v1929 : BitVec 1 := Scalar.cmpi .slt v1925 c0_i32_1423
  let v1930 : BitVec 1 := Scalar.xori v1928 v1929
  let c0_i32_1421 : BitVec 32 := 0#32
  let v1927 : BitVec 1 := Scalar.cmpi .ne v1926 c0_i32_1421
  let v1931 : BitVec 1 := Scalar.andi v1930 v1927
  let v1932 : BitVec 32 := Scalar.addi v1926 v1925
  let v1933 : BitVec 32 := Scalar.select v1931 v1932 v1926
  let c1_i32_1425 : BitVec 32 := 1#32
  let v1934 : BitVec 32 := Scalar.muli v1933 c1_i32_1425
  let v1935 : BitVec 32 := Scalar.addi c0_i32_1426 v1934
  v1935.toNat
def k0_dev76 (d0 : Dev nD) : Nat :=
  let c0_i32_1440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1431 : BitVec 32 := 14#32
  let v1942 : BitVec 32 := Scalar.addi v2 c14_i32_1431
  let c32_i32_1432 : BitVec 32 := 32#32
  let c0_i32_1433 : BitVec 32 := 0#32
  let v1943 : BitVec 1 := Scalar.cmpi .eq c32_i32_1432 c0_i32_1433
  let c1_i32_1434 : BitVec 32 := 1#32
  let v1944 : BitVec 32 := Scalar.select v1943 c1_i32_1434 c32_i32_1432
  let v1945 : BitVec 32 := Scalar.remsi v1942 v1944
  let c0_i32_1436 : BitVec 32 := 0#32
  let v1947 : BitVec 1 := Scalar.cmpi .slt v1945 c0_i32_1436
  let c0_i32_1437 : BitVec 32 := 0#32
  let v1948 : BitVec 1 := Scalar.cmpi .slt v1944 c0_i32_1437
  let v1949 : BitVec 1 := Scalar.xori v1947 v1948
  let c0_i32_1435 : BitVec 32 := 0#32
  let v1946 : BitVec 1 := Scalar.cmpi .ne v1945 c0_i32_1435
  let v1950 : BitVec 1 := Scalar.andi v1949 v1946
  let v1951 : BitVec 32 := Scalar.addi v1945 v1944
  let v1952 : BitVec 32 := Scalar.select v1950 v1951 v1945
  let c1_i32_1439 : BitVec 32 := 1#32
  let v1953 : BitVec 32 := Scalar.muli v1952 c1_i32_1439
  let v1954 : BitVec 32 := Scalar.addi c0_i32_1440 v1953
  v1954.toNat
def k0_dev77 (d0 : Dev nD) : Nat :=
  let c0_i32_1454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1445 : BitVec 32 := 15#32
  let v1961 : BitVec 32 := Scalar.addi v2 c15_i32_1445
  let c32_i32_1446 : BitVec 32 := 32#32
  let c0_i32_1447 : BitVec 32 := 0#32
  let v1962 : BitVec 1 := Scalar.cmpi .eq c32_i32_1446 c0_i32_1447
  let c1_i32_1448 : BitVec 32 := 1#32
  let v1963 : BitVec 32 := Scalar.select v1962 c1_i32_1448 c32_i32_1446
  let v1964 : BitVec 32 := Scalar.remsi v1961 v1963
  let c0_i32_1450 : BitVec 32 := 0#32
  let v1966 : BitVec 1 := Scalar.cmpi .slt v1964 c0_i32_1450
  let c0_i32_1451 : BitVec 32 := 0#32
  let v1967 : BitVec 1 := Scalar.cmpi .slt v1963 c0_i32_1451
  let v1968 : BitVec 1 := Scalar.xori v1966 v1967
  let c0_i32_1449 : BitVec 32 := 0#32
  let v1965 : BitVec 1 := Scalar.cmpi .ne v1964 c0_i32_1449
  let v1969 : BitVec 1 := Scalar.andi v1968 v1965
  let v1970 : BitVec 32 := Scalar.addi v1964 v1963
  let v1971 : BitVec 32 := Scalar.select v1969 v1970 v1964
  let c1_i32_1453 : BitVec 32 := 1#32
  let v1972 : BitVec 32 := Scalar.muli v1971 c1_i32_1453
  let v1973 : BitVec 32 := Scalar.addi c0_i32_1454 v1972
  v1973.toNat
def k0_dev78 (d0 : Dev nD) : Nat :=
  let c0_i32_1468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1459 : BitVec 32 := 16#32
  let v1980 : BitVec 32 := Scalar.addi v2 c16_i32_1459
  let c32_i32_1460 : BitVec 32 := 32#32
  let c0_i32_1461 : BitVec 32 := 0#32
  let v1981 : BitVec 1 := Scalar.cmpi .eq c32_i32_1460 c0_i32_1461
  let c1_i32_1462 : BitVec 32 := 1#32
  let v1982 : BitVec 32 := Scalar.select v1981 c1_i32_1462 c32_i32_1460
  let v1983 : BitVec 32 := Scalar.remsi v1980 v1982
  let c0_i32_1464 : BitVec 32 := 0#32
  let v1985 : BitVec 1 := Scalar.cmpi .slt v1983 c0_i32_1464
  let c0_i32_1465 : BitVec 32 := 0#32
  let v1986 : BitVec 1 := Scalar.cmpi .slt v1982 c0_i32_1465
  let v1987 : BitVec 1 := Scalar.xori v1985 v1986
  let c0_i32_1463 : BitVec 32 := 0#32
  let v1984 : BitVec 1 := Scalar.cmpi .ne v1983 c0_i32_1463
  let v1988 : BitVec 1 := Scalar.andi v1987 v1984
  let v1989 : BitVec 32 := Scalar.addi v1983 v1982
  let v1990 : BitVec 32 := Scalar.select v1988 v1989 v1983
  let c1_i32_1467 : BitVec 32 := 1#32
  let v1991 : BitVec 32 := Scalar.muli v1990 c1_i32_1467
  let v1992 : BitVec 32 := Scalar.addi c0_i32_1468 v1991
  v1992.toNat
def k0_dev79 (d0 : Dev nD) : Nat :=
  let c0_i32_1482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1473 : BitVec 32 := 17#32
  let v1999 : BitVec 32 := Scalar.addi v2 c17_i32_1473
  let c32_i32_1474 : BitVec 32 := 32#32
  let c0_i32_1475 : BitVec 32 := 0#32
  let v2000 : BitVec 1 := Scalar.cmpi .eq c32_i32_1474 c0_i32_1475
  let c1_i32_1476 : BitVec 32 := 1#32
  let v2001 : BitVec 32 := Scalar.select v2000 c1_i32_1476 c32_i32_1474
  let v2002 : BitVec 32 := Scalar.remsi v1999 v2001
  let c0_i32_1478 : BitVec 32 := 0#32
  let v2004 : BitVec 1 := Scalar.cmpi .slt v2002 c0_i32_1478
  let c0_i32_1479 : BitVec 32 := 0#32
  let v2005 : BitVec 1 := Scalar.cmpi .slt v2001 c0_i32_1479
  let v2006 : BitVec 1 := Scalar.xori v2004 v2005
  let c0_i32_1477 : BitVec 32 := 0#32
  let v2003 : BitVec 1 := Scalar.cmpi .ne v2002 c0_i32_1477
  let v2007 : BitVec 1 := Scalar.andi v2006 v2003
  let v2008 : BitVec 32 := Scalar.addi v2002 v2001
  let v2009 : BitVec 32 := Scalar.select v2007 v2008 v2002
  let c1_i32_1481 : BitVec 32 := 1#32
  let v2010 : BitVec 32 := Scalar.muli v2009 c1_i32_1481
  let v2011 : BitVec 32 := Scalar.addi c0_i32_1482 v2010
  v2011.toNat
def k0_dev80 (d0 : Dev nD) : Nat :=
  let c0_i32_1496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1487 : BitVec 32 := 18#32
  let v2018 : BitVec 32 := Scalar.addi v2 c18_i32_1487
  let c32_i32_1488 : BitVec 32 := 32#32
  let c0_i32_1489 : BitVec 32 := 0#32
  let v2019 : BitVec 1 := Scalar.cmpi .eq c32_i32_1488 c0_i32_1489
  let c1_i32_1490 : BitVec 32 := 1#32
  let v2020 : BitVec 32 := Scalar.select v2019 c1_i32_1490 c32_i32_1488
  let v2021 : BitVec 32 := Scalar.remsi v2018 v2020
  let c0_i32_1492 : BitVec 32 := 0#32
  let v2023 : BitVec 1 := Scalar.cmpi .slt v2021 c0_i32_1492
  let c0_i32_1493 : BitVec 32 := 0#32
  let v2024 : BitVec 1 := Scalar.cmpi .slt v2020 c0_i32_1493
  let v2025 : BitVec 1 := Scalar.xori v2023 v2024
  let c0_i32_1491 : BitVec 32 := 0#32
  let v2022 : BitVec 1 := Scalar.cmpi .ne v2021 c0_i32_1491
  let v2026 : BitVec 1 := Scalar.andi v2025 v2022
  let v2027 : BitVec 32 := Scalar.addi v2021 v2020
  let v2028 : BitVec 32 := Scalar.select v2026 v2027 v2021
  let c1_i32_1495 : BitVec 32 := 1#32
  let v2029 : BitVec 32 := Scalar.muli v2028 c1_i32_1495
  let v2030 : BitVec 32 := Scalar.addi c0_i32_1496 v2029
  v2030.toNat
def k0_dev81 (d0 : Dev nD) : Nat :=
  let c0_i32_1510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1501 : BitVec 32 := 19#32
  let v2037 : BitVec 32 := Scalar.addi v2 c19_i32_1501
  let c32_i32_1502 : BitVec 32 := 32#32
  let c0_i32_1503 : BitVec 32 := 0#32
  let v2038 : BitVec 1 := Scalar.cmpi .eq c32_i32_1502 c0_i32_1503
  let c1_i32_1504 : BitVec 32 := 1#32
  let v2039 : BitVec 32 := Scalar.select v2038 c1_i32_1504 c32_i32_1502
  let v2040 : BitVec 32 := Scalar.remsi v2037 v2039
  let c0_i32_1506 : BitVec 32 := 0#32
  let v2042 : BitVec 1 := Scalar.cmpi .slt v2040 c0_i32_1506
  let c0_i32_1507 : BitVec 32 := 0#32
  let v2043 : BitVec 1 := Scalar.cmpi .slt v2039 c0_i32_1507
  let v2044 : BitVec 1 := Scalar.xori v2042 v2043
  let c0_i32_1505 : BitVec 32 := 0#32
  let v2041 : BitVec 1 := Scalar.cmpi .ne v2040 c0_i32_1505
  let v2045 : BitVec 1 := Scalar.andi v2044 v2041
  let v2046 : BitVec 32 := Scalar.addi v2040 v2039
  let v2047 : BitVec 32 := Scalar.select v2045 v2046 v2040
  let c1_i32_1509 : BitVec 32 := 1#32
  let v2048 : BitVec 32 := Scalar.muli v2047 c1_i32_1509
  let v2049 : BitVec 32 := Scalar.addi c0_i32_1510 v2048
  v2049.toNat
def k0_dev82 (d0 : Dev nD) : Nat :=
  let c0_i32_1524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1515 : BitVec 32 := 20#32
  let v2056 : BitVec 32 := Scalar.addi v2 c20_i32_1515
  let c32_i32_1516 : BitVec 32 := 32#32
  let c0_i32_1517 : BitVec 32 := 0#32
  let v2057 : BitVec 1 := Scalar.cmpi .eq c32_i32_1516 c0_i32_1517
  let c1_i32_1518 : BitVec 32 := 1#32
  let v2058 : BitVec 32 := Scalar.select v2057 c1_i32_1518 c32_i32_1516
  let v2059 : BitVec 32 := Scalar.remsi v2056 v2058
  let c0_i32_1520 : BitVec 32 := 0#32
  let v2061 : BitVec 1 := Scalar.cmpi .slt v2059 c0_i32_1520
  let c0_i32_1521 : BitVec 32 := 0#32
  let v2062 : BitVec 1 := Scalar.cmpi .slt v2058 c0_i32_1521
  let v2063 : BitVec 1 := Scalar.xori v2061 v2062
  let c0_i32_1519 : BitVec 32 := 0#32
  let v2060 : BitVec 1 := Scalar.cmpi .ne v2059 c0_i32_1519
  let v2064 : BitVec 1 := Scalar.andi v2063 v2060
  let v2065 : BitVec 32 := Scalar.addi v2059 v2058
  let v2066 : BitVec 32 := Scalar.select v2064 v2065 v2059
  let c1_i32_1523 : BitVec 32 := 1#32
  let v2067 : BitVec 32 := Scalar.muli v2066 c1_i32_1523
  let v2068 : BitVec 32 := Scalar.addi c0_i32_1524 v2067
  v2068.toNat
def k0_dev83 (d0 : Dev nD) : Nat :=
  let c0_i32_1538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1529 : BitVec 32 := 21#32
  let v2075 : BitVec 32 := Scalar.addi v2 c21_i32_1529
  let c32_i32_1530 : BitVec 32 := 32#32
  let c0_i32_1531 : BitVec 32 := 0#32
  let v2076 : BitVec 1 := Scalar.cmpi .eq c32_i32_1530 c0_i32_1531
  let c1_i32_1532 : BitVec 32 := 1#32
  let v2077 : BitVec 32 := Scalar.select v2076 c1_i32_1532 c32_i32_1530
  let v2078 : BitVec 32 := Scalar.remsi v2075 v2077
  let c0_i32_1534 : BitVec 32 := 0#32
  let v2080 : BitVec 1 := Scalar.cmpi .slt v2078 c0_i32_1534
  let c0_i32_1535 : BitVec 32 := 0#32
  let v2081 : BitVec 1 := Scalar.cmpi .slt v2077 c0_i32_1535
  let v2082 : BitVec 1 := Scalar.xori v2080 v2081
  let c0_i32_1533 : BitVec 32 := 0#32
  let v2079 : BitVec 1 := Scalar.cmpi .ne v2078 c0_i32_1533
  let v2083 : BitVec 1 := Scalar.andi v2082 v2079
  let v2084 : BitVec 32 := Scalar.addi v2078 v2077
  let v2085 : BitVec 32 := Scalar.select v2083 v2084 v2078
  let c1_i32_1537 : BitVec 32 := 1#32
  let v2086 : BitVec 32 := Scalar.muli v2085 c1_i32_1537
  let v2087 : BitVec 32 := Scalar.addi c0_i32_1538 v2086
  v2087.toNat
def k0_dev84 (d0 : Dev nD) : Nat :=
  let c0_i32_1552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1543 : BitVec 32 := 22#32
  let v2094 : BitVec 32 := Scalar.addi v2 c22_i32_1543
  let c32_i32_1544 : BitVec 32 := 32#32
  let c0_i32_1545 : BitVec 32 := 0#32
  let v2095 : BitVec 1 := Scalar.cmpi .eq c32_i32_1544 c0_i32_1545
  let c1_i32_1546 : BitVec 32 := 1#32
  let v2096 : BitVec 32 := Scalar.select v2095 c1_i32_1546 c32_i32_1544
  let v2097 : BitVec 32 := Scalar.remsi v2094 v2096
  let c0_i32_1548 : BitVec 32 := 0#32
  let v2099 : BitVec 1 := Scalar.cmpi .slt v2097 c0_i32_1548
  let c0_i32_1549 : BitVec 32 := 0#32
  let v2100 : BitVec 1 := Scalar.cmpi .slt v2096 c0_i32_1549
  let v2101 : BitVec 1 := Scalar.xori v2099 v2100
  let c0_i32_1547 : BitVec 32 := 0#32
  let v2098 : BitVec 1 := Scalar.cmpi .ne v2097 c0_i32_1547
  let v2102 : BitVec 1 := Scalar.andi v2101 v2098
  let v2103 : BitVec 32 := Scalar.addi v2097 v2096
  let v2104 : BitVec 32 := Scalar.select v2102 v2103 v2097
  let c1_i32_1551 : BitVec 32 := 1#32
  let v2105 : BitVec 32 := Scalar.muli v2104 c1_i32_1551
  let v2106 : BitVec 32 := Scalar.addi c0_i32_1552 v2105
  v2106.toNat
def k0_dev85 (d0 : Dev nD) : Nat :=
  let c0_i32_1566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1557 : BitVec 32 := 23#32
  let v2113 : BitVec 32 := Scalar.addi v2 c23_i32_1557
  let c32_i32_1558 : BitVec 32 := 32#32
  let c0_i32_1559 : BitVec 32 := 0#32
  let v2114 : BitVec 1 := Scalar.cmpi .eq c32_i32_1558 c0_i32_1559
  let c1_i32_1560 : BitVec 32 := 1#32
  let v2115 : BitVec 32 := Scalar.select v2114 c1_i32_1560 c32_i32_1558
  let v2116 : BitVec 32 := Scalar.remsi v2113 v2115
  let c0_i32_1562 : BitVec 32 := 0#32
  let v2118 : BitVec 1 := Scalar.cmpi .slt v2116 c0_i32_1562
  let c0_i32_1563 : BitVec 32 := 0#32
  let v2119 : BitVec 1 := Scalar.cmpi .slt v2115 c0_i32_1563
  let v2120 : BitVec 1 := Scalar.xori v2118 v2119
  let c0_i32_1561 : BitVec 32 := 0#32
  let v2117 : BitVec 1 := Scalar.cmpi .ne v2116 c0_i32_1561
  let v2121 : BitVec 1 := Scalar.andi v2120 v2117
  let v2122 : BitVec 32 := Scalar.addi v2116 v2115
  let v2123 : BitVec 32 := Scalar.select v2121 v2122 v2116
  let c1_i32_1565 : BitVec 32 := 1#32
  let v2124 : BitVec 32 := Scalar.muli v2123 c1_i32_1565
  let v2125 : BitVec 32 := Scalar.addi c0_i32_1566 v2124
  v2125.toNat
def k0_dev86 (d0 : Dev nD) : Nat :=
  let c0_i32_1580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1571 : BitVec 32 := 24#32
  let v2132 : BitVec 32 := Scalar.addi v2 c24_i32_1571
  let c32_i32_1572 : BitVec 32 := 32#32
  let c0_i32_1573 : BitVec 32 := 0#32
  let v2133 : BitVec 1 := Scalar.cmpi .eq c32_i32_1572 c0_i32_1573
  let c1_i32_1574 : BitVec 32 := 1#32
  let v2134 : BitVec 32 := Scalar.select v2133 c1_i32_1574 c32_i32_1572
  let v2135 : BitVec 32 := Scalar.remsi v2132 v2134
  let c0_i32_1576 : BitVec 32 := 0#32
  let v2137 : BitVec 1 := Scalar.cmpi .slt v2135 c0_i32_1576
  let c0_i32_1577 : BitVec 32 := 0#32
  let v2138 : BitVec 1 := Scalar.cmpi .slt v2134 c0_i32_1577
  let v2139 : BitVec 1 := Scalar.xori v2137 v2138
  let c0_i32_1575 : BitVec 32 := 0#32
  let v2136 : BitVec 1 := Scalar.cmpi .ne v2135 c0_i32_1575
  let v2140 : BitVec 1 := Scalar.andi v2139 v2136
  let v2141 : BitVec 32 := Scalar.addi v2135 v2134
  let v2142 : BitVec 32 := Scalar.select v2140 v2141 v2135
  let c1_i32_1579 : BitVec 32 := 1#32
  let v2143 : BitVec 32 := Scalar.muli v2142 c1_i32_1579
  let v2144 : BitVec 32 := Scalar.addi c0_i32_1580 v2143
  v2144.toNat
def k0_dev87 (d0 : Dev nD) : Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1585 : BitVec 32 := 25#32
  let v2151 : BitVec 32 := Scalar.addi v2 c25_i32_1585
  let c32_i32_1586 : BitVec 32 := 32#32
  let c0_i32_1587 : BitVec 32 := 0#32
  let v2152 : BitVec 1 := Scalar.cmpi .eq c32_i32_1586 c0_i32_1587
  let c1_i32_1588 : BitVec 32 := 1#32
  let v2153 : BitVec 32 := Scalar.select v2152 c1_i32_1588 c32_i32_1586
  let v2154 : BitVec 32 := Scalar.remsi v2151 v2153
  let c0_i32_1590 : BitVec 32 := 0#32
  let v2156 : BitVec 1 := Scalar.cmpi .slt v2154 c0_i32_1590
  let c0_i32_1591 : BitVec 32 := 0#32
  let v2157 : BitVec 1 := Scalar.cmpi .slt v2153 c0_i32_1591
  let v2158 : BitVec 1 := Scalar.xori v2156 v2157
  let c0_i32_1589 : BitVec 32 := 0#32
  let v2155 : BitVec 1 := Scalar.cmpi .ne v2154 c0_i32_1589
  let v2159 : BitVec 1 := Scalar.andi v2158 v2155
  let v2160 : BitVec 32 := Scalar.addi v2154 v2153
  let v2161 : BitVec 32 := Scalar.select v2159 v2160 v2154
  let c1_i32_1593 : BitVec 32 := 1#32
  let v2162 : BitVec 32 := Scalar.muli v2161 c1_i32_1593
  let v2163 : BitVec 32 := Scalar.addi c0_i32_1594 v2162
  v2163.toNat
def k0_dev88 (d0 : Dev nD) : Nat :=
  let c0_i32_1608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1599 : BitVec 32 := 26#32
  let v2170 : BitVec 32 := Scalar.addi v2 c26_i32_1599
  let c32_i32_1600 : BitVec 32 := 32#32
  let c0_i32_1601 : BitVec 32 := 0#32
  let v2171 : BitVec 1 := Scalar.cmpi .eq c32_i32_1600 c0_i32_1601
  let c1_i32_1602 : BitVec 32 := 1#32
  let v2172 : BitVec 32 := Scalar.select v2171 c1_i32_1602 c32_i32_1600
  let v2173 : BitVec 32 := Scalar.remsi v2170 v2172
  let c0_i32_1604 : BitVec 32 := 0#32
  let v2175 : BitVec 1 := Scalar.cmpi .slt v2173 c0_i32_1604
  let c0_i32_1605 : BitVec 32 := 0#32
  let v2176 : BitVec 1 := Scalar.cmpi .slt v2172 c0_i32_1605
  let v2177 : BitVec 1 := Scalar.xori v2175 v2176
  let c0_i32_1603 : BitVec 32 := 0#32
  let v2174 : BitVec 1 := Scalar.cmpi .ne v2173 c0_i32_1603
  let v2178 : BitVec 1 := Scalar.andi v2177 v2174
  let v2179 : BitVec 32 := Scalar.addi v2173 v2172
  let v2180 : BitVec 32 := Scalar.select v2178 v2179 v2173
  let c1_i32_1607 : BitVec 32 := 1#32
  let v2181 : BitVec 32 := Scalar.muli v2180 c1_i32_1607
  let v2182 : BitVec 32 := Scalar.addi c0_i32_1608 v2181
  v2182.toNat
def k0_dev89 (d0 : Dev nD) : Nat :=
  let c0_i32_1622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1613 : BitVec 32 := 27#32
  let v2189 : BitVec 32 := Scalar.addi v2 c27_i32_1613
  let c32_i32_1614 : BitVec 32 := 32#32
  let c0_i32_1615 : BitVec 32 := 0#32
  let v2190 : BitVec 1 := Scalar.cmpi .eq c32_i32_1614 c0_i32_1615
  let c1_i32_1616 : BitVec 32 := 1#32
  let v2191 : BitVec 32 := Scalar.select v2190 c1_i32_1616 c32_i32_1614
  let v2192 : BitVec 32 := Scalar.remsi v2189 v2191
  let c0_i32_1618 : BitVec 32 := 0#32
  let v2194 : BitVec 1 := Scalar.cmpi .slt v2192 c0_i32_1618
  let c0_i32_1619 : BitVec 32 := 0#32
  let v2195 : BitVec 1 := Scalar.cmpi .slt v2191 c0_i32_1619
  let v2196 : BitVec 1 := Scalar.xori v2194 v2195
  let c0_i32_1617 : BitVec 32 := 0#32
  let v2193 : BitVec 1 := Scalar.cmpi .ne v2192 c0_i32_1617
  let v2197 : BitVec 1 := Scalar.andi v2196 v2193
  let v2198 : BitVec 32 := Scalar.addi v2192 v2191
  let v2199 : BitVec 32 := Scalar.select v2197 v2198 v2192
  let c1_i32_1621 : BitVec 32 := 1#32
  let v2200 : BitVec 32 := Scalar.muli v2199 c1_i32_1621
  let v2201 : BitVec 32 := Scalar.addi c0_i32_1622 v2200
  v2201.toNat
def k0_dev90 (d0 : Dev nD) : Nat :=
  let c0_i32_1636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1627 : BitVec 32 := 28#32
  let v2208 : BitVec 32 := Scalar.addi v2 c28_i32_1627
  let c32_i32_1628 : BitVec 32 := 32#32
  let c0_i32_1629 : BitVec 32 := 0#32
  let v2209 : BitVec 1 := Scalar.cmpi .eq c32_i32_1628 c0_i32_1629
  let c1_i32_1630 : BitVec 32 := 1#32
  let v2210 : BitVec 32 := Scalar.select v2209 c1_i32_1630 c32_i32_1628
  let v2211 : BitVec 32 := Scalar.remsi v2208 v2210
  let c0_i32_1632 : BitVec 32 := 0#32
  let v2213 : BitVec 1 := Scalar.cmpi .slt v2211 c0_i32_1632
  let c0_i32_1633 : BitVec 32 := 0#32
  let v2214 : BitVec 1 := Scalar.cmpi .slt v2210 c0_i32_1633
  let v2215 : BitVec 1 := Scalar.xori v2213 v2214
  let c0_i32_1631 : BitVec 32 := 0#32
  let v2212 : BitVec 1 := Scalar.cmpi .ne v2211 c0_i32_1631
  let v2216 : BitVec 1 := Scalar.andi v2215 v2212
  let v2217 : BitVec 32 := Scalar.addi v2211 v2210
  let v2218 : BitVec 32 := Scalar.select v2216 v2217 v2211
  let c1_i32_1635 : BitVec 32 := 1#32
  let v2219 : BitVec 32 := Scalar.muli v2218 c1_i32_1635
  let v2220 : BitVec 32 := Scalar.addi c0_i32_1636 v2219
  v2220.toNat
def k0_dev91 (d0 : Dev nD) : Nat :=
  let c0_i32_1650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1641 : BitVec 32 := 29#32
  let v2227 : BitVec 32 := Scalar.addi v2 c29_i32_1641
  let c32_i32_1642 : BitVec 32 := 32#32
  let c0_i32_1643 : BitVec 32 := 0#32
  let v2228 : BitVec 1 := Scalar.cmpi .eq c32_i32_1642 c0_i32_1643
  let c1_i32_1644 : BitVec 32 := 1#32
  let v2229 : BitVec 32 := Scalar.select v2228 c1_i32_1644 c32_i32_1642
  let v2230 : BitVec 32 := Scalar.remsi v2227 v2229
  let c0_i32_1646 : BitVec 32 := 0#32
  let v2232 : BitVec 1 := Scalar.cmpi .slt v2230 c0_i32_1646
  let c0_i32_1647 : BitVec 32 := 0#32
  let v2233 : BitVec 1 := Scalar.cmpi .slt v2229 c0_i32_1647
  let v2234 : BitVec 1 := Scalar.xori v2232 v2233
  let c0_i32_1645 : BitVec 32 := 0#32
  let v2231 : BitVec 1 := Scalar.cmpi .ne v2230 c0_i32_1645
  let v2235 : BitVec 1 := Scalar.andi v2234 v2231
  let v2236 : BitVec 32 := Scalar.addi v2230 v2229
  let v2237 : BitVec 32 := Scalar.select v2235 v2236 v2230
  let c1_i32_1649 : BitVec 32 := 1#32
  let v2238 : BitVec 32 := Scalar.muli v2237 c1_i32_1649
  let v2239 : BitVec 32 := Scalar.addi c0_i32_1650 v2238
  v2239.toNat
def k0_dev92 (d0 : Dev nD) : Nat :=
  let c0_i32_1664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1655 : BitVec 32 := 30#32
  let v2246 : BitVec 32 := Scalar.addi v2 c30_i32_1655
  let c32_i32_1656 : BitVec 32 := 32#32
  let c0_i32_1657 : BitVec 32 := 0#32
  let v2247 : BitVec 1 := Scalar.cmpi .eq c32_i32_1656 c0_i32_1657
  let c1_i32_1658 : BitVec 32 := 1#32
  let v2248 : BitVec 32 := Scalar.select v2247 c1_i32_1658 c32_i32_1656
  let v2249 : BitVec 32 := Scalar.remsi v2246 v2248
  let c0_i32_1660 : BitVec 32 := 0#32
  let v2251 : BitVec 1 := Scalar.cmpi .slt v2249 c0_i32_1660
  let c0_i32_1661 : BitVec 32 := 0#32
  let v2252 : BitVec 1 := Scalar.cmpi .slt v2248 c0_i32_1661
  let v2253 : BitVec 1 := Scalar.xori v2251 v2252
  let c0_i32_1659 : BitVec 32 := 0#32
  let v2250 : BitVec 1 := Scalar.cmpi .ne v2249 c0_i32_1659
  let v2254 : BitVec 1 := Scalar.andi v2253 v2250
  let v2255 : BitVec 32 := Scalar.addi v2249 v2248
  let v2256 : BitVec 32 := Scalar.select v2254 v2255 v2249
  let c1_i32_1663 : BitVec 32 := 1#32
  let v2257 : BitVec 32 := Scalar.muli v2256 c1_i32_1663
  let v2258 : BitVec 32 := Scalar.addi c0_i32_1664 v2257
  v2258.toNat
def k0_dev93 (d0 : Dev nD) : Nat :=
  let c0_i32_1678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1669 : BitVec 32 := 31#32
  let v2265 : BitVec 32 := Scalar.addi v2 c31_i32_1669
  let c32_i32_1670 : BitVec 32 := 32#32
  let c0_i32_1671 : BitVec 32 := 0#32
  let v2266 : BitVec 1 := Scalar.cmpi .eq c32_i32_1670 c0_i32_1671
  let c1_i32_1672 : BitVec 32 := 1#32
  let v2267 : BitVec 32 := Scalar.select v2266 c1_i32_1672 c32_i32_1670
  let v2268 : BitVec 32 := Scalar.remsi v2265 v2267
  let c0_i32_1674 : BitVec 32 := 0#32
  let v2270 : BitVec 1 := Scalar.cmpi .slt v2268 c0_i32_1674
  let c0_i32_1675 : BitVec 32 := 0#32
  let v2271 : BitVec 1 := Scalar.cmpi .slt v2267 c0_i32_1675
  let v2272 : BitVec 1 := Scalar.xori v2270 v2271
  let c0_i32_1673 : BitVec 32 := 0#32
  let v2269 : BitVec 1 := Scalar.cmpi .ne v2268 c0_i32_1673
  let v2273 : BitVec 1 := Scalar.andi v2272 v2269
  let v2274 : BitVec 32 := Scalar.addi v2268 v2267
  let v2275 : BitVec 32 := Scalar.select v2273 v2274 v2268
  let c1_i32_1677 : BitVec 32 := 1#32
  let v2276 : BitVec 32 := Scalar.muli v2275 c1_i32_1677
  let v2277 : BitVec 32 := Scalar.addi c0_i32_1678 v2276
  v2277.toNat
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1683 : BitVec 32 := 8#32
  let v2284 : BitVec 32 := Scalar.muli v2 c8_i32_1683
  let v2285 : Index := Scalar.indexCast v2284
  let c0_1684 : Index := 0#32
  ![v2285.toNat, 0]
def k0_off8 (d0 : Dev nD) (c1_i32_1685 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2287 : BitVec 32 := Scalar.addi v2 c1_i32_1685
  let c32_i32_1686 : BitVec 32 := 32#32
  let c0_i32_1687 : BitVec 32 := 0#32
  let v2288 : BitVec 1 := Scalar.cmpi .eq c32_i32_1686 c0_i32_1687
  let c1_i32_1688 : BitVec 32 := 1#32
  let v2289 : BitVec 32 := Scalar.select v2288 c1_i32_1688 c32_i32_1686
  let v2290 : BitVec 32 := Scalar.remsi v2287 v2289
  let c0_i32_1690 : BitVec 32 := 0#32
  let v2292 : BitVec 1 := Scalar.cmpi .slt v2290 c0_i32_1690
  let c0_i32_1691 : BitVec 32 := 0#32
  let v2293 : BitVec 1 := Scalar.cmpi .slt v2289 c0_i32_1691
  let v2294 : BitVec 1 := Scalar.xori v2292 v2293
  let c0_i32_1689 : BitVec 32 := 0#32
  let v2291 : BitVec 1 := Scalar.cmpi .ne v2290 c0_i32_1689
  let v2295 : BitVec 1 := Scalar.andi v2294 v2291
  let v2296 : BitVec 32 := Scalar.addi v2290 v2289
  let v2297 : BitVec 32 := Scalar.select v2295 v2296 v2290
  let c8_i32_1702 : BitVec 32 := 8#32
  let v2308 : BitVec 32 := Scalar.muli v2297 c8_i32_1702
  let v2309 : Index := Scalar.indexCast v2308
  let c0_1703 : Index := 0#32
  ![v2309.toNat, 0]
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  shapeCasts_S256x256_S32x8x256 : S256x256.ShapeCasts S32x8x256
  inb_S32x8x256_S32x8x256_0_0_0 : ∀ a, (![0, 0, 0] : Fin 3 → Nat) a + S32x8x256.size a ≤ S32x8x256.size a
  h_S32x8x256 : 0 < S32x8x256.numel
  shapeCasts_S32x8x256_S32x8x256 : S32x8x256.ShapeCasts S32x8x256
  packedbf16_S32x8x256_S32x8x256_0_0_0 : (Rect.unit (s := S32x8x256) ![0, 0, 0] S32x8x256.size inb_S32x8x256_S32x8x256_0_0_0).PackedRows (EltTy.packing .bf16)
  hamt_31 : (31#32 : BitVec 32).msb = false
  inb_S31_S1_0 : ∀ a, (![0] : Fin 1 → Nat) a + S1.size a ≤ S31.size a
  squeezes_S1_S_ : S1.Squeezes S_
  inb_S31_S1_1 : ∀ a, (![1] : Fin 1 → Nat) a + S1.size a ≤ S31.size a
  inb_S31_S1_2 : ∀ a, (![2] : Fin 1 → Nat) a + S1.size a ≤ S31.size a
  inb_S31_S1_3 : ∀ a, (![3] : Fin 1 → Nat) a + S1.size a ≤ S31.size a
  inb_S31_S1_4 : ∀ a, (![4] : Fin 1 → Nat) a + S1.size a ≤ S31.size a
  inb_S31_S1_5 : ∀ a, (![5] : Fin 1 → Nat) a + S1.size a ≤ S31.size a
  inb_S31_S1_6 : ∀ a, (![6] : Fin 1 → Nat) a + S1.size a ≤ S31.size a
  inb_S31_S1_7 : ∀ a, (![7] : Fin 1 → Nat) a + S1.size a ≤ S31.size a
  inb_S31_S1_8 : ∀ a, (![8] : Fin 1 → Nat) a + S1.size a ≤ S31.size a
  inb_S31_S1_9 : ∀ a, (![9] : Fin 1 → Nat) a + S1.size a ≤ S31.size a
  inb_S31_S1_10 : ∀ a, (![10] : Fin 1 → Nat) a + S1.size a ≤ S31.size a
  inb_S31_S1_11 : ∀ a, (![11] : Fin 1 → Nat) a + S1.size a ≤ S31.size a
  inb_S31_S1_12 : ∀ a, (![12] : Fin 1 → Nat) a + S1.size a ≤ S31.size a
  inb_S31_S1_13 : ∀ a, (![13] : Fin 1 → Nat) a + S1.size a ≤ S31.size a
  inb_S31_S1_14 : ∀ a, (![14] : Fin 1 → Nat) a + S1.size a ≤ S31.size a
  inb_S31_S1_15 : ∀ a, (![15] : Fin 1 → Nat) a + S1.size a ≤ S31.size a
  inb_S31_S1_16 : ∀ a, (![16] : Fin 1 → Nat) a + S1.size a ≤ S31.size a
  inb_S31_S1_17 : ∀ a, (![17] : Fin 1 → Nat) a + S1.size a ≤ S31.size a
  inb_S31_S1_18 : ∀ a, (![18] : Fin 1 → Nat) a + S1.size a ≤ S31.size a
  inb_S31_S1_19 : ∀ a, (![19] : Fin 1 → Nat) a + S1.size a ≤ S31.size a
  inb_S31_S1_20 : ∀ a, (![20] : Fin 1 → Nat) a + S1.size a ≤ S31.size a
  inb_S31_S1_21 : ∀ a, (![21] : Fin 1 → Nat) a + S1.size a ≤ S31.size a
  inb_S31_S1_22 : ∀ a, (![22] : Fin 1 → Nat) a + S1.size a ≤ S31.size a
  inb_S31_S1_23 : ∀ a, (![23] : Fin 1 → Nat) a + S1.size a ≤ S31.size a
  inb_S31_S1_24 : ∀ a, (![24] : Fin 1 → Nat) a + S1.size a ≤ S31.size a
  inb_S31_S1_25 : ∀ a, (![25] : Fin 1 → Nat) a + S1.size a ≤ S31.size a
  inb_S31_S1_26 : ∀ a, (![26] : Fin 1 → Nat) a + S1.size a ≤ S31.size a
  inb_S31_S1_27 : ∀ a, (![27] : Fin 1 → Nat) a + S1.size a ≤ S31.size a
  inb_S31_S1_28 : ∀ a, (![28] : Fin 1 → Nat) a + S1.size a ≤ S31.size a
  inb_S31_S1_29 : ∀ a, (![29] : Fin 1 → Nat) a + S1.size a ≤ S31.size a
  inb_S31_S1_30 : ∀ a, (![30] : Fin 1 → Nat) a + S1.size a ≤ S31.size a
  h_S1x8x256 : 0 < S1x8x256.numel
  shapeCasts_S1x8x256_S8x256 : S1x8x256.ShapeCasts S8x256
  inb_S32x8x256_S1x8x256_0_0_0 : ∀ a, (![0, 0, 0] : Fin 3 → Nat) a + S1x8x256.size a ≤ S32x8x256.size a
  wordsbf16_S32x8x256_S1x8x256_0_0_0 : (Rect.unit (s := S32x8x256) ![0, 0, 0] S1x8x256.size inb_S32x8x256_S1x8x256_0_0_0).WholeWords (EltTy.packing .bf16)
  shapeCasts_S8x256_S1x8x256 : S8x256.ShapeCasts S1x8x256
  shapeCasts_S1x8x256_S1x8x256 : S1x8x256.ShapeCasts S1x8x256
  h_S8x256 : 0 < S8x256.numel
  hcc0_scratch3 : 2 + S31.numel ≤ 128
  hcc0_scratch4 : 33 + S32.numel ≤ 128
  hcc0_scratch5 : 65 + S31.numel ≤ 128
  hcc0_scratch6 : 96 + S32.numel ≤ 128
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_off1_inb : ∀ d0 : Dev nD, ∀ a, (k0_off1 d0) a + S1.size a ≤ S32.size a
  k0_off2_inb : ∀ d0 : Dev nD, ∀ a, (k0_off2 d0) a + S1x8x256.size a ≤ S32x8x256.size a
  k0_off3_inb : ∀ d0 : Dev nD, ∀ (r : Fin 31), ∀ a, (k0_off3 d0 (BitVec.ofNat 32 (1 + r.val))) a + S1x8x256.size a ≤ S32x8x256.size a
  k0_off3_wordsbf16 : ∀ d0 : Dev nD, ∀ (r : Fin 31), (Rect.unit (s := S32x8x256) (k0_off3 d0 (BitVec.ofNat 32 (1 + r.val))) S1x8x256.size (k0_off3_inb d0 r)).WholeWords (EltTy.packing .bf16)
  k0_off2_wordsbf16 : ∀ d0 : Dev nD, (Rect.unit (s := S32x8x256) (k0_off2 d0) S1x8x256.size (k0_off2_inb d0)).WholeWords (EltTy.packing .bf16)
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_off4_inb : ∀ d0 : Dev nD, ∀ a, (k0_off4 d0) a + S1x8x256.size a ≤ S32x8x256.size a
  k0_off5_inb : ∀ d0 : Dev nD, ∀ (r : Fin 31), ∀ a, (k0_off5 d0 (BitVec.ofNat 32 (1 + r.val))) a + S1.size a ≤ S32.size a
  k0_off6_inb : ∀ d0 : Dev nD, ∀ (r : Fin 31), ∀ a, (k0_off6 d0 (BitVec.ofNat 32 (1 + r.val))) a + S1x8x256.size a ≤ S32x8x256.size a
  k0_off4_packedbf16 : ∀ d0 : Dev nD, (Rect.unit (s := S32x8x256) (k0_off4 d0) S1x8x256.size (k0_off4_inb d0)).PackedRows (EltTy.packing .bf16)
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  k0_dev92_lt : ∀ d0 : Dev nD, (k0_dev92 d0) < nD
  k0_dev93_lt : ∀ d0 : Dev nD, (k0_dev93 d0) < nD
  k0_off7_inb : ∀ d0 : Dev nD, ∀ a, (k0_off7 d0) a + S8x256.size a ≤ S256x256.size a
  k0_off8_inb : ∀ d0 : Dev nD, ∀ (r : Fin 31), ∀ a, (k0_off8 d0 (BitVec.ofNat 32 (1 + r.val))) a + S8x256.size a ≤ S256x256.size a
  hstage0_0 : ∀ j, (stage0_0 j).IsWhole
  hstage0_1 : ∀ j, (stage0_1 j).IsWhole

variable [Facts₀]

abbrev cc0_scratch3 : DmaSems sig S31 := SemArray.consecutive 2 S31 hcc0_scratch3
abbrev cc0_scratch4 : DmaSems sig S32 := SemArray.consecutive 33 S32 hcc0_scratch4
abbrev cc0_scratch5 : DmaSems sig S31 := SemArray.consecutive 65 S31 hcc0_scratch5
abbrev cc0_scratch6 : DmaSems sig S32 := SemArray.consecutive 96 S32 hcc0_scratch6

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x256 : Shape := ⟨2, ![8192, 256]⟩
abbrev S32x256x256 : Shape := ⟨3, ![32, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S32x256x256, .f32⟩
  | .hbm, ⟨2, _⟩ => ⟨S_, .f32⟩
  | .hbm, ⟨3, _⟩ => ⟨S256x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S8192x256_S32x256x256 : S8192x256.ShapeCasts S32x256x256
  reducesTo_S32x256x256_S256x256_d0 : S32x256x256.ReducesTo [0] S256x256
  h_S_ : 0 < S_.numel

variable [Facts₀]

class Facts : Prop extends Facts₀ where

variable [Facts]
-- ==== Proof.MeshForms.lean ====
import proofs.«901011_g7700000000001012_dist_rs_then_ag_i_m256_n256_v7x_i32_bf16_1_alg».proof.Proof.Gen.KernelIdeal

set_option Elab.async false

noncomputable section

namespace Cert.KernelIdeal.Mesh

open Cert.KernelIdeal Cert.KernelIdeal.Gen Idealize.ShloMosaic

/-- The device `k` places after `c` on the ring of 32. -/
def peer (c : Dev nD) (k : ℕ) : Dev nD := ⟨(c.val + k) % 32, Nat.mod_lt _ (by decide)⟩

theorem peer_val (c : Dev nD) (k : ℕ) : (peer c k).val = (c.val + k) % 32 := rfl

theorem peer_zero (c : Dev nD) : peer c 0 = c := by
  have hc : c.val < 32 := c.isLt
  apply Fin.ext
  rw [peer_val]
  omega

theorem peer_ne_self (c : Dev nD) (k : ℕ) (h1 : 1 ≤ k) (h2 : k ≤ 31) : peer c k ≠ c := by
  have hc : c.val < 32 := c.isLt
  intro h
  have hv : (c.val + k) % 32 = c.val := by rw [← peer_val, h]
  omega

theorem peer_inj (c : Dev nD) (j k : ℕ) (hj : j < 32) (hk : k < 32) (h : peer c j = peer c k) : j = k := by
  have hc : c.val < 32 := c.isLt
  have hv : (c.val + j) % 32 = (c.val + k) % 32 := by rw [← peer_val, ← peer_val, h]
  omega

/-- The number of places from `a` forward to `b`. -/
def dist (a b : Dev nD) : ℕ := (b.val + 32 - a.val) % 32

theorem peer_dist (a b : Dev nD) : peer a (dist a b) = b := by
  have ha : a.val < 32 := a.isLt
  have hb : b.val < 32 := b.isLt
  apply Fin.ext
  rw [peer_val]
  unfold dist
  omega

theorem dist_peer (c : Dev nD) (k : ℕ) (hk : k < 32) : dist c (peer c k) = k := by
  have hc : c.val < 32 := c.isLt
  unfold dist
  rw [peer_val]
  omega

theorem dist_lt (a b : Dev nD) : dist a b < 32 := Nat.mod_lt _ (by decide)

theorem dist_pos (a b : Dev nD) (h : a ≠ b) : 1 ≤ dist a b := by
  have ha : a.val < 32 := a.isLt
  have hb : b.val < 32 := b.isLt
  have hne : a.val ≠ b.val := fun e => h (Fin.ext e)
  unfold dist
  omega

theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel
theorem dev4_eq (c : Dev nD) : (⟨k0_dev4 c, k0_dev4_lt c⟩ : Dev nD) = peer c 4 := by revert c; decide +kernel
theorem dev5_eq (c : Dev nD) : (⟨k0_dev5 c, k0_dev5_lt c⟩ : Dev nD) = peer c 5 := by revert c; decide +kernel
theorem dev6_eq (c : Dev nD) : (⟨k0_dev6 c, k0_dev6_lt c⟩ : Dev nD) = peer c 6 := by revert c; decide +kernel
theorem dev7_eq (c : Dev nD) : (⟨k0_dev7 c, k0_dev7_lt c⟩ : Dev nD) = peer c 7 := by revert c; decide +kernel
theorem dev8_eq (c : Dev nD) : (⟨k0_dev8 c, k0_dev8_lt c⟩ : Dev nD) = peer c 8 := by revert c; decide +kernel
theorem dev9_eq (c : Dev nD) : (⟨k0_dev9 c, k0_dev9_lt c⟩ : Dev nD) = peer c 9 := by revert c; decide +kernel
theorem dev10_eq (c : Dev nD) : (⟨k0_dev10 c, k0_dev10_lt c⟩ : Dev nD) = peer c 10 := by revert c; decide +kernel
theorem dev11_eq (c : Dev nD) : (⟨k0_dev11 c, k0_dev11_lt c⟩ : Dev nD) = peer c 11 := by revert c; decide +kernel
theorem dev12_eq (c : Dev nD) : (⟨k0_dev12 c, k0_dev12_lt c⟩ : Dev nD) = peer c 12 := by revert c; decide +kernel
theorem dev13_eq (c : Dev nD) : (⟨k0_dev13 c, k0_dev13_lt c⟩ : Dev nD) = peer c 13 := by revert c; decide +kernel
theorem dev14_eq (c : Dev nD) : (⟨k0_dev14 c, k0_dev14_lt c⟩ : Dev nD) = peer c 14 := by revert c; decide +kernel
theorem dev15_eq (c : Dev nD) : (⟨k0_dev15 c, k0_dev15_lt c⟩ : Dev nD) = peer c 15 := by revert c; decide +kernel
theorem dev16_eq (c : Dev nD) : (⟨k0_dev16 c, k0_dev16_lt c⟩ : Dev nD) = peer c 16 := by revert c; decide +kernel
theorem dev17_eq (c : Dev nD) : (⟨k0_dev17 c, k0_dev17_lt c⟩ : Dev nD) = peer c 17 := by revert c; decide +kernel
theorem dev18_eq (c : Dev nD) : (⟨k0_dev18 c, k0_dev18_lt c⟩ : Dev nD) = peer c 18 := by revert c; decide +kernel
theorem dev19_eq (c : Dev nD) : (⟨k0_dev19 c, k0_dev19_lt c⟩ : Dev nD) = peer c 19 := by revert c; decide +kernel
theorem dev20_eq (c : Dev nD) : (⟨k0_dev20 c, k0_dev20_lt c⟩ : Dev nD) = peer c 20 := by revert c; decide +kernel
theorem dev21_eq (c : Dev nD) : (⟨k0_dev21 c, k0_dev21_lt c⟩ : Dev nD) = peer c 21 := by revert c; decide +kernel
theorem dev22_eq (c : Dev nD) : (⟨k0_dev22 c, k0_dev22_lt c⟩ : Dev nD) = peer c 22 := by revert c; decide +kernel
theorem dev23_eq (c : Dev nD) : (⟨k0_dev23 c, k0_dev23_lt c⟩ : Dev nD) = peer c 23 := by revert c; decide +kernel
theorem dev24_eq (c : Dev nD) : (⟨k0_dev24 c, k0_dev24_lt c⟩ : Dev nD) = peer c 24 := by revert c; decide +kernel
theorem dev25_eq (c : Dev nD) : (⟨k0_dev25 c, k0_dev25_lt c⟩ : Dev nD) = peer c 25 := by revert c; decide +kernel
theorem dev26_eq (c : Dev nD) : (⟨k0_dev26 c, k0_dev26_lt c⟩ : Dev nD) = peer c 26 := by revert c; decide +kernel
theorem dev27_eq (c : Dev nD) : (⟨k0_dev27 c, k0_dev27_lt c⟩ : Dev nD) = peer c 27 := by revert c; decide +kernel
theorem dev28_eq (c : Dev nD) : (⟨k0_dev28 c, k0_dev28_lt c⟩ : Dev nD) = peer c 28 := by revert c; decide +kernel
theorem dev29_eq (c : Dev nD) : (⟨k0_dev29 c, k0_dev29_lt c⟩ : Dev nD) = peer c 29 := by revert c; decide +kernel
theorem dev30_eq (c : Dev nD) : (⟨k0_dev30 c, k0_dev30_lt c⟩ : Dev nD) = peer c 30 := by revert c; decide +kernel
theorem dev31_eq (c : Dev nD) : (⟨k0_dev31 c, k0_dev31_lt c⟩ : Dev nD) = peer c 31 := by revert c; decide +kernel

theorem dev32_eq (c : Dev nD) : (⟨k0_dev32 c, k0_dev32_lt c⟩ : Dev nD) = peer c 1 := by revert c; decide +kernel
theorem dev33_eq (c : Dev nD) : (⟨k0_dev33 c, k0_dev33_lt c⟩ : Dev nD) = peer c 2 := by revert c; decide +kernel
theorem dev34_eq (c : Dev nD) : (⟨k0_dev34 c, k0_dev34_lt c⟩ : Dev nD) = peer c 3 := by revert c; decide +kernel
theorem dev35_eq (c : Dev nD) : (⟨k0_dev35 c, k0_dev35_lt c⟩ : Dev nD) = peer c 4 := by revert c; decide +kernel
theorem dev36_eq (c : Dev nD) : (⟨k0_dev36 c, k0_dev36_lt c⟩ : Dev nD) = peer c 5 := by revert c; decide +kernel
theorem dev37_eq (c : Dev nD) : (⟨k0_dev37 c, k0_dev37_lt c⟩ : Dev nD) = peer c 6 := by revert c; decide +kernel
theorem dev38_eq (c : Dev nD) : (⟨k0_dev38 c, k0_dev38_lt c⟩ : Dev nD) = peer c 7 := by revert c; decide +kernel
theorem dev39_eq (c : Dev nD) : (⟨k0_dev39 c, k0_dev39_lt c⟩ : Dev nD) = peer c 8 := by revert c; decide +kernel
theorem dev40_eq (c : Dev nD) : (⟨k0_dev40 c, k0_dev40_lt c⟩ : Dev nD) = peer c 9 := by revert c; decide +kernel
theorem dev41_eq (c : Dev nD) : (⟨k0_dev41 c, k0_dev41_lt c⟩ : Dev nD) = peer c 10 := by revert c; decide +kernel
theorem dev42_eq (c : Dev nD) : (⟨k0_dev42 c, k0_dev42_lt c⟩ : Dev nD) = peer c 11 := by revert c; decide +kernel
theorem dev43_eq (c : Dev nD) : (⟨k0_dev43 c, k0_dev43_lt c⟩ : Dev nD) = peer c 12 := by revert c; decide +kernel
theorem dev44_eq (c : Dev nD) : (⟨k0_dev44 c, k0_dev44_lt c⟩ : Dev nD) = peer c 13 := by revert c; decide +kernel
theorem dev45_eq (c : Dev nD) : (⟨k0_dev45 c, k0_dev45_lt c⟩ : Dev nD) = peer c 14 := by revert c; decide +kernel
theorem dev46_eq (c : Dev nD) : (⟨k0_dev46 c, k0_dev46_lt c⟩ : Dev nD) = peer c 15 := by revert c; decide +kernel
theorem dev47_eq (c : Dev nD) : (⟨k0_dev47 c, k0_dev47_lt c⟩ : Dev nD) = peer c 16 := by revert c; decide +kernel
theorem dev48_eq (c : Dev nD) : (⟨k0_dev48 c, k0_dev48_lt c⟩ : Dev nD) = peer c 17 := by revert c; decide +kernel
theorem dev49_eq (c : Dev nD) : (⟨k0_dev49 c, k0_dev49_lt c⟩ : Dev nD) = peer c 18 := by revert c; decide +kernel
theorem dev50_eq (c : Dev nD) : (⟨k0_dev50 c, k0_dev50_lt c⟩ : Dev nD) = peer c 19 := by revert c; decide +kernel
theorem dev51_eq (c : Dev nD) : (⟨k0_dev51 c, k0_dev51_lt c⟩ : Dev nD) = peer c 20 := by revert c; decide +kernel
theorem dev52_eq (c : Dev nD) : (⟨k0_dev52 c, k0_dev52_lt c⟩ : Dev nD) = peer c 21 := by revert c; decide +kernel
theorem dev53_eq (c : Dev nD) : (⟨k0_dev53 c, k0_dev53_lt c⟩ : Dev nD) = peer c 22 := by revert c; decide +kernel
theorem dev54_eq (c : Dev nD) : (⟨k0_dev54 c, k0_dev54_lt c⟩ : Dev nD) = peer c 23 := by revert c; decide +kernel
theorem dev55_eq (c : Dev nD) : (⟨k0_dev55 c, k0_dev55_lt c⟩ : Dev nD) = peer c 24 := by revert c; decide +kernel
theorem dev56_eq (c : Dev nD) : (⟨k0_dev56 c, k0_dev56_lt c⟩ : Dev nD) = peer c 25 := by revert c; decide +kernel
theorem dev57_eq (c : Dev nD) : (⟨k0_dev57 c, k0_dev57_lt c⟩ : Dev nD) = peer c 26 := by revert c; decide +kernel
theorem dev58_eq (c : Dev nD) : (⟨k0_dev58 c, k0_dev58_lt c⟩ : Dev nD) = peer c 27 := by revert c; decide +kernel
theorem dev59_eq (c : Dev nD) : (⟨k0_dev59 c, k0_dev59_lt c⟩ : Dev nD) = peer c 28 := by revert c; decide +kernel
theorem dev60_eq (c : Dev nD) : (⟨k0_dev60 c, k0_dev60_lt c⟩ : Dev nD) = peer c 29 := by revert c; decide +kernel
theorem dev61_eq (c : Dev nD) : (⟨k0_dev61 c, k0_dev61_lt c⟩ : Dev nD) = peer c 30 := by revert c; decide +kernel
theorem dev62_eq (c : Dev nD) : (⟨k0_dev62 c, k0_dev62_lt c⟩ : Dev nD) = peer c 31 := by revert c; decide +kernel

theorem dev63_eq (c : Dev nD) : (⟨k0_dev63 c, k0_dev63_lt c⟩ : Dev nD) = peer c 1 := by revert c; decide +kernel
theorem dev64_eq (c : Dev nD) : (⟨k0_dev64 c, k0_dev64_lt c⟩ : Dev nD) = peer c 2 := by revert c; decide +kernel
theorem dev65_eq (c : Dev nD) : (⟨k0_dev65 c, k0_dev65_lt c⟩ : Dev nD) = peer c 3 := by revert c; decide +kernel
theorem dev66_eq (c : Dev nD) : (⟨k0_dev66 c, k0_dev66_lt c⟩ : Dev nD) = peer c 4 := by revert c; decide +kernel
theorem dev67_eq (c : Dev nD) : (⟨k0_dev67 c, k0_dev67_lt c⟩ : Dev nD) = peer c 5 := by revert c; decide +kernel
theorem dev68_eq (c : Dev nD) : (⟨k0_dev68 c, k0_dev68_lt c⟩ : Dev nD) = peer c 6 := by revert c; decide +kernel
theorem dev69_eq (c : Dev nD) : (⟨k0_dev69 c, k0_dev69_lt c⟩ : Dev nD) = peer c 7 := by revert c; decide +kernel
theorem dev70_eq (c : Dev nD) : (⟨k0_dev70 c, k0_dev70_lt c⟩ : Dev nD) = peer c 8 := by revert c; decide +kernel
theorem dev71_eq (c : Dev nD) : (⟨k0_dev71 c, k0_dev71_lt c⟩ : Dev nD) = peer c 9 := by revert c; decide +kernel
theorem dev72_eq (c : Dev nD) : (⟨k0_dev72 c, k0_dev72_lt c⟩ : Dev nD) = peer c 10 := by revert c; decide +kernel
theorem dev73_eq (c : Dev nD) : (⟨k0_dev73 c, k0_dev73_lt c⟩ : Dev nD) = peer c 11 := by revert c; decide +kernel
theorem dev74_eq (c : Dev nD) : (⟨k0_dev74 c, k0_dev74_lt c⟩ : Dev nD) = peer c 12 := by revert c; decide +kernel
theorem dev75_eq (c : Dev nD) : (⟨k0_dev75 c, k0_dev75_lt c⟩ : Dev nD) = peer c 13 := by revert c; decide +kernel
theorem dev76_eq (c : Dev nD) : (⟨k0_dev76 c, k0_dev76_lt c⟩ : Dev nD) = peer c 14 := by revert c; decide +kernel
theorem dev77_eq (c : Dev nD) : (⟨k0_dev77 c, k0_dev77_lt c⟩ : Dev nD) = peer c 15 := by revert c; decide +kernel
theorem dev78_eq (c : Dev nD) : (⟨k0_dev78 c, k0_dev78_lt c⟩ : Dev nD) = peer c 16 := by revert c; decide +kernel
theorem dev79_eq (c : Dev nD) : (⟨k0_dev79 c, k0_dev79_lt c⟩ : Dev nD) = peer c 17 := by revert c; decide +kernel
theorem dev80_eq (c : Dev nD) : (⟨k0_dev80 c, k0_dev80_lt c⟩ : Dev nD) = peer c 18 := by revert c; decide +kernel
theorem dev81_eq (c : Dev nD) : (⟨k0_dev81 c, k0_dev81_lt c⟩ : Dev nD) = peer c 19 := by revert c; decide +kernel
theorem dev82_eq (c : Dev nD) : (⟨k0_dev82 c, k0_dev82_lt c⟩ : Dev nD) = peer c 20 := by revert c; decide +kernel
theorem dev83_eq (c : Dev nD) : (⟨k0_dev83 c, k0_dev83_lt c⟩ : Dev nD) = peer c 21 := by revert c; decide +kernel
theorem dev84_eq (c : Dev nD) : (⟨k0_dev84 c, k0_dev84_lt c⟩ : Dev nD) = peer c 22 := by revert c; decide +kernel
theorem dev85_eq (c : Dev nD) : (⟨k0_dev85 c, k0_dev85_lt c⟩ : Dev nD) = peer c 23 := by revert c; decide +kernel
theorem dev86_eq (c : Dev nD) : (⟨k0_dev86 c, k0_dev86_lt c⟩ : Dev nD) = peer c 24 := by revert c; decide +kernel
theorem dev87_eq (c : Dev nD) : (⟨k0_dev87 c, k0_dev87_lt c⟩ : Dev nD) = peer c 25 := by revert c; decide +kernel
theorem dev88_eq (c : Dev nD) : (⟨k0_dev88 c, k0_dev88_lt c⟩ : Dev nD) = peer c 26 := by revert c; decide +kernel
theorem dev89_eq (c : Dev nD) : (⟨k0_dev89 c, k0_dev89_lt c⟩ : Dev nD) = peer c 27 := by revert c; decide +kernel
theorem dev90_eq (c : Dev nD) : (⟨k0_dev90 c, k0_dev90_lt c⟩ : Dev nD) = peer c 28 := by revert c; decide +kernel
theorem dev91_eq (c : Dev nD) : (⟨k0_dev91 c, k0_dev91_lt c⟩ : Dev nD) = peer c 29 := by revert c; decide +kernel
theorem dev92_eq (c : Dev nD) : (⟨k0_dev92 c, k0_dev92_lt c⟩ : Dev nD) = peer c 30 := by revert c; decide +kernel
theorem dev93_eq (c : Dev nD) : (⟨k0_dev93 c, k0_dev93_lt c⟩ : Dev nD) = peer c 31 := by revert c; decide +kernel

theorem off1_eq (c : Dev nD) : k0_off1 c = ![c.val] := k0_off1_eq c

theorem off2_eq (c : Dev nD) : k0_off2 c = ![c.val, 0, 0] := k0_off2_eq c

theorem off3_eq (c : Dev nD) (r : Fin 31) :
    k0_off3 c (BitVec.ofNat 32 (1 + r.val)) = ![(peer c (1 + r.val)).val, 0, 0] := by
  revert c r; decide +kernel

theorem off4_eq (c : Dev nD) : k0_off4 c = ![c.val, 0, 0] := k0_off4_eq c

theorem off5_eq (c : Dev nD) (r : Fin 31) :
    k0_off5 c (BitVec.ofNat 32 (1 + r.val)) = ![(peer c (1 + r.val)).val] := by
  revert c r; decide +kernel

theorem off6_eq (c : Dev nD) (r : Fin 31) :
    k0_off6 c (BitVec.ofNat 32 (1 + r.val)) = ![(peer c (1 + r.val)).val, 0, 0] := by
  revert c r; decide +kernel

theorem off7_eq (c : Dev nD) : k0_off7 c = ![8 * c.val, 0] := k0_off7_eq c

theorem off8_eq (c : Dev nD) (r : Fin 31) :
    k0_off8 c (BitVec.ofNat 32 (1 + r.val)) = ![8 * (peer c (1 + r.val)).val, 0] := by
  revert c r; decide +kernel

end Cert.KernelIdeal.Mesh
-- ==== Proof.Cells.lean ====
import proofs.«901011_g7700000000001012_dist_rs_then_ag_i_m256_n256_v7x_i32_bf16_1_alg».proof.Proof.Gen.KernelIdeal
import proofs.«901011_g7700000000001012_dist_rs_then_ag_i_m256_n256_v7x_i32_bf16_1_alg».proof.Proof.Gen.KernelIdeal.Skeleton
import proofs.«901011_g7700000000001012_dist_rs_then_ag_i_m256_n256_v7x_i32_bf16_1_alg».proof.Proof.Gen.KernelIdeal.Launch
import proofs.«901011_g7700000000001012_dist_rs_then_ag_i_m256_n256_v7x_i32_bf16_1_alg».proof.Proof.MeshForms
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev bfM : Memref sig .tc .vmem S32x8x256 .bf16 := Memref.whole cc0_scratch0
abbrev rsM : Memref sig .tc .vmem S32x8x256 .bf16 := Memref.whole cc0_scratch1
abbrev agM : Memref sig .tc .vmem S32x8x256 .bf16 := Memref.whole cc0_scratch2
abbrev oM : Memref sig .tc .vmem S256x256 .f32 := Memref.whole cc0_stg1_0

theorem slot_inb (s : Dev nD) : ∀ a, (![s.val, 0, 0] : Fin 3 → Nat) a + S1x8x256.size a ≤ S32x8x256.size a := by
  intro a; have : s.val < 32 := s.isLt; fin_cases a <;> simp <;> omega

abbrev slot (M : Memref sig .tc .vmem S32x8x256 .bf16) (s : Dev nD) : Memref sig .tc .vmem S1x8x256 .bf16 :=
  M.slice (Rect.unit (s := S32x8x256) ![s.val, 0, 0] S1x8x256.size (slot_inb s)) (fun _ => rfl)

abbrev barS : Sem sig := (SemArray.scalar (sig.barrier 0 rfl) : Sems sig S_).sem

theorem i31_inb (j : Fin 31) : ∀ a, (![j.val] : Fin 1 → Nat) a + S1.size a ≤ S31.size a := by
  intro a; have : j.val < 31 := j.isLt; fin_cases a <;> simp <;> omega
theorem i32_inb (s : Dev nD) : ∀ a, (![s.val] : Fin 1 → Nat) a + S1.size a ≤ S32.size a := by
  intro a; have : s.val < 32 := s.isLt; fin_cases a <;> simp <;> omega

abbrev sem31 (A : DmaSems sig S31) (j : Fin 31) : DmaSem sig :=
  ((A.slice (Rect.unit (s := S31) ![j.val] S1.size (i31_inb j))).squeeze S_ squeezes_S1_S_).sem
abbrev sem32 (A : DmaSems sig S32) (s : Dev nD) : DmaSem sig :=
  ((A.slice (Rect.unit (s := S32) ![s.val] S1.size (i32_inb s))).squeeze S_ squeezes_S1_S_).sem

abbrev barC (c : Dev nD) : GSem nD τ sig := ((c : Thread nD τ), .reg barS)
abbrev rsS (c : Dev nD) (j : Fin 31) : GSem nD τ sig := ((c : Thread nD τ), .dma (sem31 cc0_scratch3 j))
abbrev rsR (c : Dev nD) (s : Dev nD) : GSem nD τ sig := ((c : Thread nD τ), .dma (sem32 cc0_scratch4 s))
abbrev agS (c : Dev nD) (j : Fin 31) : GSem nD τ sig := ((c : Thread nD τ), .dma (sem31 cc0_scratch5 j))
abbrev agR (c : Dev nD) (s : Dev nD) : GSem nD τ sig := ((c : Thread nD τ), .dma (sem32 cc0_scratch6 s))

abbrev N : ℕ := (slot rsM (0 : Dev nD)).view.dmaCredit

inductive Kind where
  | bar | rsS (j : Fin 31) | rsR (s : Dev nD) | agS (j : Fin 31) | agR (s : Dev nD) | other
  deriving DecidableEq

def kind : SemLoc sig → Kind
  | .reg s => if s = barS then .bar else .other
  | .dma q =>
    if h : 2 ≤ q.val ∧ q.val < 33 then .rsS ⟨q.val - 2, by show _ < 31; omega⟩
    else if h : 33 ≤ q.val ∧ q.val < 65 then .rsR ⟨q.val - 33, by show _ < 32; omega⟩
    else if h : 65 ≤ q.val ∧ q.val < 96 then .agS ⟨q.val - 65, by show _ < 31; omega⟩
    else if h : 96 ≤ q.val ∧ q.val < 128 then .agR ⟨q.val - 96, by show _ < 32; omega⟩
    else .other

theorem kind_bar : kind (.reg barS : SemLoc sig) = .bar := by simp [kind]
theorem kind_rsS (j : Fin 31) : kind (.dma (sem31 cc0_scratch3 j) : SemLoc sig) = .rsS j := by revert j; decide
theorem kind_rsR (s : Dev nD) : kind (.dma (sem32 cc0_scratch4 s) : SemLoc sig) = .rsR s := by revert s; decide
theorem kind_agS (j : Fin 31) : kind (.dma (sem31 cc0_scratch5 j) : SemLoc sig) = .agS j := by revert j; decide
theorem kind_agR (s : Dev nD) : kind (.dma (sem32 cc0_scratch6 s) : SemLoc sig) = .agR s := by revert s; decide

variable (m : (ℓ : Loc nD τ sig) → Buf (Elt F) ℓ) (ρ : Dev nD → PrngReg)

def s₀ : MemSt nD τ sig (Elt F) := ⟨m, fun _ => 0, ρ⟩

def xstg (c : Dev nD) : (cc0_stg0_0 : Ref sig .tc).ty.Contents (Elt F) :=
  (win0_0.blk (0 : Fin 1)).view.read (Elt F) ((s₀ m ρ).mem ((c : Thread nD τ).loc main_arg0))

def xbf (c : Dev nD) : (cc0_scratch0 : Ref sig .tc).ty.Contents (Elt F) := k0_pay1 (xstg m ρ c)

def chunk (c : Dev nD) (k : ℕ) : Vec F S1x8x256 .bf16 := (slot bfM c).view.read (Elt F) (xbf m ρ (peer c k))

def accAt (c : Dev nD) : ℕ → FVec F S8x256 .f32
  | 0 => k0_pay25 (chunk m ρ c 0)
  | k + 1 => addf (accAt c k) (k0_pay25 (chunk m ρ c (k + 1)))

def red (c : Dev nD) : FVec F S8x256 .f32 := accAt m ρ c 31
def agv (c : Dev nD) : FVec F S1x8x256 .bf16 := k0_pay24 (accAt m ρ c 30) (chunk m ρ c 31)

abbrev devOf (i : S32x8x256.Idx) : Dev nD := ⟨(i 0).val, (i 0).isLt⟩

def RS (c : Dev nD) : (cc0_scratch1 : Ref sig .tc).ty.Contents (Elt F) :=
  fun i => xbf m ρ (devOf i) (ValueIdx.ix3 (n0 := 32) (n1 := 8) (n2 := 256) ⟨c.val, c.isLt⟩ ⟨(i 1).val, (i 1).isLt⟩ ⟨(i 2).val, (i 2).isLt⟩)

def AG : (cc0_scratch2 : Ref sig .tc).ty.Contents (Elt F) :=
  fun i => agv m ρ (devOf i) (ValueIdx.ix3 (n0 := 1) (n1 := 8) (n2 := 256) ⟨0, by decide⟩ ⟨(i 1).val, (i 1).isLt⟩ ⟨(i 2).val, (i 2).isLt⟩)

abbrev slotPts (M : Memref sig .tc .vmem S32x8x256 .bf16) (s d : Dev nD) (q : PosShare TreeShare)
    (f : Buf (Elt F) ((slot M s).view.loc (d : Thread nD τ))) : sProp 𝕄 :=
  (slot M s).view.loc (d : Thread nD τ) ↦[(slot M s).view.set]{q} f

def restShr : ℕ → PosShare TreeShare
  | 0 => fullShare
  | j + 1 => (restShr j).left

def shr (j : ℕ) : PosShare TreeShare := (restShr j).right

def barPay (c p : Dev nD) : sProp 𝕄 :=
  iprop((∃ f, slotPts rsM c p fullShare f) ∗ (∃ f, slotPts agM c p fullShare f))

def ringRd : Rounds.Schedule (GSem nD τ sig) (Dev nD) 𝕄 where
  duties g r :=
    if r = 0 ∧ g.1.2 = .tc then
      match kind g.2 with
      | .bar => Finset.univ.erase g.1.1
      | .rsS _ => {g.1.1}
      | .rsR s => if s = g.1.1 then ∅ else {s}
      | .agS _ => {g.1.1}
      | .agR s => if s = g.1.1 then ∅ else {s}
      | .other => ∅
    else ∅
  unitless _ := False
  amount g _ _ := if g.2 = .reg barS then 1 else N
  payload g _ d :=
    match kind g.2 with
    | .bar => barPay g.1.1 d
    | .rsS j => slotPts bfM (peer g.1.1 (j.val + 1)) g.1.1 fullShare (xbf m ρ g.1.1)
    | .rsR s => slotPts rsM s g.1.1 fullShare (RS m ρ g.1.1)
    | .agS j => slotPts agM g.1.1 g.1.1 (shr j.val) (AG m ρ)
    | .agR s => slotPts agM s g.1.1 fullShare (AG m ρ)
    | .other => iprop(emp)
  amount_pos g _ _ _ := by
    by_cases h : g.2 = .reg barS
    · rw [if_pos h]; exact Nat.one_pos
    · rw [if_neg h]; exact View.dmaCredit_pos _ (by decide)

end Cert.KernelIdeal.Ring

end
-- ==== Proof.State.lean ====
import proofs.«901011_g7700000000001012_dist_rs_then_ag_i_m256_n256_v7x_i32_bf16_1_alg».proof.Proof.Cells

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev CellIx : Type := Unit ⊕ (Fin 31 ⊕ (Dev nD ⊕ (Fin 31 ⊕ Dev nD)))

def csem : CellIx → SemLoc sig
  | .inl _ => .reg barS
  | .inr (.inl j) => .dma (sem31 cc0_scratch3 j)
  | .inr (.inr (.inl s)) => .dma (sem32 cc0_scratch4 s)
  | .inr (.inr (.inr (.inl j))) => .dma (sem31 cc0_scratch5 j)
  | .inr (.inr (.inr (.inr s))) => .dma (sem32 cc0_scratch6 s)

abbrev kcell (ck : Dev nD × CellIx) : GSem nD τ sig := ((ck.1 : Thread nD τ), csem ck.2)

abbrev OwnIx : Type := Fin 31 ⊕ (Dev nD ⊕ (Fin 31 ⊕ Dev nD))
abbrev osem (i : OwnIx) : SemLoc sig := csem (.inr i)

def oweBar (c : Dev nD) (k : ℕ) : CellTallies nD τ sig Unit := tallyAt (barC (peer c k)) () 1
def oweRs (c : Dev nD) (k : ℕ) : CellTallies nD τ sig Unit := tallyAt (rsR (peer c k) c) () N
def oweAg (c : Dev nD) (k : ℕ) : CellTallies nD τ sig Unit := tallyAt (agR (peer c k) c) () N

def owedAt (c : Dev nD) (a b g : ℕ) : CellTallies nD τ sig Unit :=
  (∑ k ∈ Finset.Ioc g 31, oweAg c k) + (∑ k ∈ Finset.Ioc b 31, oweRs c k) + (∑ k ∈ Finset.Ioc a 31, oweBar c k)

def O₀ (c : Dev nD) : CellTallies nD τ sig Unit := owedAt c 0 0 0

def L (g : GSem nD τ sig) : Finset Unit := if g.1.2 = .tc then {()} else ∅

def lv (g : GSem nD τ sig) (_ : Unit) : ℕ :=
  match kind g.2 with
  | .bar => 1 | .rsR _ => 2 | .agR _ => 3 | _ => 0

variable (m : (ℓ : Loc nD τ sig) → Buf (Elt F) ℓ) (ρ : Dev nD → PrngReg)

def records (K : Dev nD × CellIx → ℕ) : sProp 𝕄 :=
  iprop((bigSep Finset.univ fun ck : Dev nD × CellIx => cellInv ER (ringRd m ρ) (K ck) (kcell ck))
    ∗ bigSep Finset.univ fun ck : Dev nD × CellIx => reached ER (kcell ck) 0)

instance records_persistent (K : Dev nD × CellIx → ℕ) : BI.Persistent (records m ρ K) := by unfold records; infer_instance

def payToks (c : Dev nD) : sProp 𝕄 :=
  iprop((bigSep (Finset.Ioc 0 31) fun k => iprop(dutyTok ER (barC (peer c k)) 0 c ∗ dutyTok ER (rsR (peer c k) c) 0 c ∗ dutyTok ER (agR (peer c k) c) 0 c))
    ∗ bigSep Finset.univ fun j : Fin 31 => iprop(dutyTok ER (rsS c j) 0 c ∗ dutyTok ER (agS c j) 0 c))

def positions (c : Dev nD) : sProp 𝕄 := bigSep Finset.univ fun i : CellIx => atPos ER (kcell (c, i)) 0 ∅ 0

def ghost (K : Dev nD × CellIx → ℕ) (c : Dev nD) : sProp 𝕄 := iprop(records m ρ K ∗ positions c ∗ payToks c)

def credits (c : Dev nD) : sProp 𝕄 :=
  iprop(cred (tallyAt (barC c) () 31)
    ∗ (bigSep (Finset.univ.erase c) fun s => cred (tallyAt (rsR c s) () N))
    ∗ bigSep (Finset.univ.erase c) fun s => cred (tallyAt (agR c s) () N))

def start (c : Dev nD) : sProp 𝕄 := iprop((∃ K, ghost m ρ K c) ∗ credits c ∗ levAts L lv)

abbrev scr (c : Dev nD) (b : Ref sig .tc) : sProp 𝕄 := iprop(∃ f : Buf (Elt F) ((c : Thread nD τ).loc b), ((c : Thread nD τ).loc b) ↦{fullShare} f)

def Φ₀ (c : Dev nD) : sProp 𝕄 := iprop(start m ρ c ∗ scr c cc0_scratch0 ∗ scr c cc0_scratch1 ∗ scr c cc0_scratch2)

def Φ₁ (c : Dev nD) : sProp 𝕄 :=
  iprop((scr c cc0_scratch0 ∗ scr c cc0_scratch1 ∗ scr c cc0_scratch2) ∗ bigSep Finset.univ fun i : OwnIx => semVal ((c : Thread nD τ), osem i) 0)

def outBlock (c s : Dev nD) : FVec F S8x256 .f32 :=
  if s = c then red m ρ c else k0_pay25 ((slot agM s).view.read (Elt F) (AG m ρ))

def outAt (c : Dev nD) : (cc0_stg1_0 : Ref sig .tc).ty.Contents (Elt F) :=
  fun i => outBlock m ρ c ⟨(i 0).val / 8, by have h : (i 0).val < 256 := (i 0).isLt; show _ < 32; omega⟩
    (ValueIdx.ix2 (n0 := 8) (n1 := 256) ⟨(i 0).val % 8, Nat.mod_lt _ (by decide)⟩ ⟨(i 1).val, (i 1).isLt⟩)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 cc0_scratch5 cc0_scratch6

end Cert.KernelIdeal.Ring

end
-- ==== Proof.Tables.lean ====
import proofs.«901011_g7700000000001012_dist_rs_then_ag_i_m256_n256_v7x_i32_bf16_1_alg».proof.Proof.State

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance ringRd_payload_storable {F : FTy → Type} [FloatOps F] (m : (ℓ : Loc nD τ sig) → Buf (Elt F) ℓ) (ρ : Dev nD → PrngReg)
    (g : GSem nD τ sig) (r : ℕ) (d : Dev nD) :
    BI.Storable (upEmb : UEmb _ (MT nD τ sig Unit (Elt F) ℕ UU ℕ)) ((ringRd (F := F) m ρ).payload g r d) := by
  show BI.Storable upEmb (match kind g.2 with
    | .bar => barPay g.1.1 d
    | .rsS j => slotPts bfM (peer g.1.1 (j.val + 1)) g.1.1 fullShare (xbf m ρ g.1.1)
    | .rsR s => slotPts rsM s g.1.1 fullShare (RS m ρ g.1.1)
    | .agS j => slotPts agM g.1.1 g.1.1 (shr j.val) (AG m ρ)
    | .agR s => slotPts agM s g.1.1 fullShare (AG m ρ)
    | .other => iprop(emp))
  unfold barPay
  split <;> infer_instance

theorem duties_at {F : FTy → Type} [FloatOps F] (m : (ℓ : Loc nD τ sig) → Buf (Elt F) ℓ) (ρ : Dev nD → PrngReg)
    (c : Dev nD) (sm : SemLoc sig) :
    (ringRd (F := F) m ρ).duties ((c : Thread nD τ), sm) 0 =
      match kind sm with
      | .bar => Finset.univ.erase c
      | .rsS _ => {c}
      | .rsR s => if s = c then ∅ else {s}
      | .agS _ => {c}
      | .agR s => if s = c then ∅ else {s}
      | .other => ∅ := by
  dsimp only [ringRd]; exact if_pos ⟨rfl, rfl⟩

theorem payload_at {F : FTy → Type} [FloatOps F] (m : (ℓ : Loc nD τ sig) → Buf (Elt F) ℓ) (ρ : Dev nD → PrngReg)
    (c : Dev nD) (sm : SemLoc sig) (r : ℕ) (d : Dev nD) :
    (ringRd (F := F) m ρ).payload ((c : Thread nD τ), sm) r d =
      match kind sm with
      | .bar => barPay c d
      | .rsS j => slotPts bfM (peer c (j.val + 1)) c fullShare (xbf m ρ c)
      | .rsR s => slotPts rsM s c fullShare (RS m ρ c)
      | .agS j => slotPts agM c c (shr j.val) (AG m ρ)
      | .agR s => slotPts agM s c fullShare (AG m ρ)
      | .other => iprop(emp) := rfl

theorem amount_at {F : FTy → Type} [FloatOps F] (m : (ℓ : Loc nD τ sig) → Buf (Elt F) ℓ) (ρ : Dev nD → PrngReg)
    (g : GSem nD τ sig) (r : ℕ) (d : Dev nD) :
    (ringRd (F := F) m ρ).amount g r d = if g.2 = .reg barS then 1 else N := rfl

theorem duties_bar {F : FTy → Type} [FloatOps F] (m : (ℓ : Loc nD τ sig) → Buf (Elt F) ℓ) (ρ : Dev nD → PrngReg) (c : Dev nD) :
    (ringRd (F := F) m ρ).duties (barC c) 0 = Finset.univ.erase c := by
  rw [duties_at, kind_bar]

theorem duties_rsS {F : FTy → Type} [FloatOps F] (m : (ℓ : Loc nD τ sig) → Buf (Elt F) ℓ) (ρ : Dev nD → PrngReg) (c : Dev nD) (j : Fin 31) :
    (ringRd (F := F) m ρ).duties (rsS c j) 0 = {c} := by
  rw [duties_at, kind_rsS]

theorem duties_rsR {F : FTy → Type} [FloatOps F] (m : (ℓ : Loc nD τ sig) → Buf (Elt F) ℓ) (ρ : Dev nD → PrngReg) (c s : Dev nD) (h : s ≠ c) :
    (ringRd (F := F) m ρ).duties (rsR c s) 0 = {s} := by
  rw [duties_at, kind_rsR]; exact if_neg h

theorem duties_rsR_self {F : FTy → Type} [FloatOps F] (m : (ℓ : Loc nD τ sig) → Buf (Elt F) ℓ) (ρ : Dev nD → PrngReg) (c : Dev nD) :
    (ringRd (F := F) m ρ).duties (rsR c c) 0 = ∅ := by
  rw [duties_at, kind_rsR]; exact if_pos rfl

theorem duties_agS {F : FTy → Type} [FloatOps F] (m : (ℓ : Loc nD τ sig) → Buf (Elt F) ℓ) (ρ : Dev nD → PrngReg) (c : Dev nD) (j : Fin 31) :
    (ringRd (F := F) m ρ).duties (agS c j) 0 = {c} := by
  rw [duties_at, kind_agS]

theorem duties_agR {F : FTy → Type} [FloatOps F] (m : (ℓ : Loc nD τ sig) → Buf (Elt F) ℓ) (ρ : Dev nD → PrngReg) (c s : Dev nD) (h : s ≠ c) :
    (ringRd (F := F) m ρ).duties (agR c s) 0 = {s} := by
  rw [duties_at, kind_agR]; exact if_neg h

theorem duties_agR_self {F : FTy → Type} [FloatOps F] (m : (ℓ : Loc nD τ sig) → Buf (Elt F) ℓ) (ρ : Dev nD → PrngReg) (c : Dev nD) :
    (ringRd (F := F) m ρ).duties (agR c c) 0 = ∅ := by
  rw [duties_at, kind_agR]; exact if_pos rfl

theorem duties_later {F : FTy → Type} [FloatOps F] (m : (ℓ : Loc nD τ sig) → Buf (Elt F) ℓ) (ρ : Dev nD → PrngReg) (g : GSem nD τ sig) :
    ∀ r, 1 ≤ r → (ringRd (F := F) m ρ).duties g r = ∅ :=
  fun r hr => by
    dsimp only [ringRd]
    exact if_neg fun h => by have h0 := h.1; omega

theorem not_unitless {F : FTy → Type} [FloatOps F] (m : (ℓ : Loc nD τ sig) → Buf (Elt F) ℓ) (ρ : Dev nD → PrngReg) (g : GSem nD τ sig) :
    ¬ (ringRd (F := F) m ρ).unitless g := fun h => h

theorem amount_bar {F : FTy → Type} [FloatOps F] (m : (ℓ : Loc nD τ sig) → Buf (Elt F) ℓ) (ρ : Dev nD → PrngReg) (c d : Dev nD) :
    (ringRd (F := F) m ρ).amount (barC c) 0 d = 1 := by
  rw [amount_at]; exact if_pos rfl

theorem osem_ne_bar (i : OwnIx) : osem i ≠ (.reg barS : SemLoc sig) := by
  rcases i with j | s | j | s <;> exact fun h => by cases h

theorem amount_own {F : FTy → Type} [FloatOps F] (m : (ℓ : Loc nD τ sig) → Buf (Elt F) ℓ) (ρ : Dev nD → PrngReg) (c : Dev nD) (i : OwnIx) (d : Dev nD) :
    (ringRd (F := F) m ρ).amount ((c : Thread nD τ), osem i) 0 d = N := by
  rw [amount_at]; exact if_neg (osem_ne_bar i)

theorem amount_rsS {F : FTy → Type} [FloatOps F] (m : (ℓ : Loc nD τ sig) → Buf (Elt F) ℓ) (ρ : Dev nD → PrngReg) (c : Dev nD) (j : Fin 31) (d : Dev nD) :
    (ringRd (F := F) m ρ).amount (rsS c j) 0 d = N := amount_own m ρ c (.inl j) d

theorem amount_rsR {F : FTy → Type} [FloatOps F] (m : (ℓ : Loc nD τ sig) → Buf (Elt F) ℓ) (ρ : Dev nD → PrngReg) (c s d : Dev nD) :
    (ringRd (F := F) m ρ).amount (rsR c s) 0 d = N := amount_own m ρ c (.inr (.inl s)) d

theorem amount_agS {F : FTy → Type} [FloatOps F] (m : (ℓ : Loc nD τ sig) → Buf (Elt F) ℓ) (ρ : Dev nD → PrngReg) (c : Dev nD) (j : Fin 31) (d : Dev nD) :
    (ringRd (F := F) m ρ).amount (agS c j) 0 d = N := amount_own m ρ c (.inr (.inr (.inl j))) d

theorem amount_agR {F : FTy → Type} [FloatOps F] (m : (ℓ : Loc nD τ sig) → Buf (Elt F) ℓ) (ρ : Dev nD → PrngReg) (c s d : Dev nD) :
    (ringRd (F := F) m ρ).amount (agR c s) 0 d = N := amount_own m ρ c (.inr (.inr (.inr s))) d

theorem expect_bar {F : FTy → Type} [FloatOps F] (m : (ℓ : Loc nD τ sig) → Buf (Elt F) ℓ) (ρ : Dev nD → PrngReg) (c : Dev nD) :
    (ringRd (F := F) m ρ).expect (barC c) 0 = 31 := by
  unfold Schedule.expect Schedule.amountOf
  rw [duties_bar, Finset.sum_congr rfl fun d _ => amount_bar m ρ c d, Finset.sum_const,
    Finset.card_erase_of_mem (Finset.mem_univ c), Finset.card_univ, Fintype.card_fin, smul_eq_mul]
  rfl

theorem expect_rsS {F : FTy → Type} [FloatOps F] (m : (ℓ : Loc nD τ sig) → Buf (Elt F) ℓ) (ρ : Dev nD → PrngReg) (c : Dev nD) (j : Fin 31) :
    (ringRd (F := F) m ρ).expect (rsS c j) 0 = N := by
  unfold Schedule.expect Schedule.amountOf; rw [duties_rsS, Finset.sum_singleton, amount_rsS]

theorem expect_agS {F : FTy → Type} [FloatOps F] (m : (ℓ : Loc nD τ sig) → Buf (Elt F) ℓ) (ρ : Dev nD → PrngReg) (c : Dev nD) (j : Fin 31) :
    (ringRd (F := F) m ρ).expect (agS c j) 0 = N := by
  unfold Schedule.expect Schedule.amountOf; rw [duties_agS, Finset.sum_singleton, amount_agS]

theorem expect_rsR {F : FTy → Type} [FloatOps F] (m : (ℓ : Loc nD τ sig) → Buf (Elt F) ℓ) (ρ : Dev nD → PrngReg) (c s : Dev nD) (h : s ≠ c) :
    (ringRd (F := F) m ρ).expect (rsR c s) 0 = N := by
  unfold Schedule.expect Schedule.amountOf; rw [duties_rsR m ρ c s h, Finset.sum_singleton, amount_rsR]

theorem expect_agR {F : FTy → Type} [FloatOps F] (m : (ℓ : Loc nD τ sig) → Buf (Elt F) ℓ) (ρ : Dev nD → PrngReg) (c s : Dev nD) (h : s ≠ c) :
    (ringRd (F := F) m ρ).expect (agR c s) 0 = N := by
  unfold Schedule.expect Schedule.amountOf; rw [duties_agR m ρ c s h, Finset.sum_singleton, amount_agR]

theorem payload_bar {F : FTy → Type} [FloatOps F] (m : (ℓ : Loc nD τ sig) → Buf (Elt F) ℓ) (ρ : Dev nD → PrngReg) (c p : Dev nD) :
    (ringRd (F := F) m ρ).payload (barC c) 0 p = barPay c p := by
  rw [payload_at, kind_bar]

theorem payload_rsS {F : FTy → Type} [FloatOps F] (m : (ℓ : Loc nD τ sig) → Buf (Elt F) ℓ) (ρ : Dev nD → PrngReg) (c : Dev nD) (j : Fin 31) (d : Dev nD) :
    (ringRd (F := F) m ρ).payload (rsS c j) 0 d = slotPts bfM (peer c (j.val + 1)) c fullShare (xbf m ρ c) := by
  rw [payload_at, kind_rsS]

theorem payload_rsR {F : FTy → Type} [FloatOps F] (m : (ℓ : Loc nD τ sig) → Buf (Elt F) ℓ) (ρ : Dev nD → PrngReg) (c s d : Dev nD) :
    (ringRd (F := F) m ρ).payload (rsR c s) 0 d = slotPts rsM s c fullShare (RS m ρ c) := by
  rw [payload_at, kind_rsR]

theorem payload_agS {F : FTy → Type} [FloatOps F] (m : (ℓ : Loc nD τ sig) → Buf (Elt F) ℓ) (ρ : Dev nD → PrngReg) (c : Dev nD) (j : Fin 31) (d : Dev nD) :
    (ringRd (F := F) m ρ).payload (agS c j) 0 d = slotPts agM c c (shr j.val) (AG m ρ) := by
  rw [payload_at, kind_agS]

theorem payload_agR {F : FTy → Type} [FloatOps F] (m : (ℓ : Loc nD τ sig) → Buf (Elt F) ℓ) (ρ : Dev nD → PrngReg) (c s d : Dev nD) :
    (ringRd (F := F) m ρ).payload (agR c s) 0 d = slotPts agM s c fullShare (AG m ρ) := by
  rw [payload_at, kind_agR]

theorem rest_rsS {F : FTy → Type} [FloatOps F] (m : (ℓ : Loc nD τ sig) → Buf (Elt F) ℓ) (ρ : Dev nD → PrngReg) (c : Dev nD) (j : Fin 31) :
    bigSep ((ringRd (F := F) m ρ).duties (rsS c j) 0 \ ∅) (fun d => (ringRd (F := F) m ρ).payload (rsS c j) 0 d)
      = slotPts bfM (peer c (j.val + 1)) c fullShare (xbf m ρ c) := by
  rw [Finset.sdiff_empty, duties_rsS, bigSep_singleton, payload_rsS]

theorem rest_rsR {F : FTy → Type} [FloatOps F] (m : (ℓ : Loc nD τ sig) → Buf (Elt F) ℓ) (ρ : Dev nD → PrngReg) (c s : Dev nD) (h : s ≠ c) :
    bigSep ((ringRd (F := F) m ρ).duties (rsR c s) 0 \ ∅) (fun d => (ringRd (F := F) m ρ).payload (rsR c s) 0 d)
      = slotPts rsM s c fullShare (RS m ρ c) := by
  rw [Finset.sdiff_empty, duties_rsR m ρ c s h, bigSep_singleton, payload_rsR]

theorem rest_agS {F : FTy → Type} [FloatOps F] (m : (ℓ : Loc nD τ sig) → Buf (Elt F) ℓ) (ρ : Dev nD → PrngReg) (c : Dev nD) (j : Fin 31) :
    bigSep ((ringRd (F := F) m ρ).duties (agS c j) 0 \ ∅) (fun d => (ringRd (F := F) m ρ).payload (agS c j) 0 d)
      = slotPts agM c c (shr j.val) (AG m ρ) := by
  rw [Finset.sdiff_empty, duties_agS, bigSep_singleton, payload_agS]

theorem rest_agR {F : FTy → Type} [FloatOps F] (m : (ℓ : Loc nD τ sig) → Buf (Elt F) ℓ) (ρ : Dev nD → PrngReg) (c s : Dev nD) (h : s ≠ c) :
    bigSep ((ringRd (F := F) m ρ).duties (agR c s) 0 \ ∅) (fun d => (ringRd (F := F) m ρ).payload (agR c s) 0 d)
      = slotPts agM s c fullShare (AG m ρ) := by
  rw [Finset.sdiff_empty, duties_agR m ρ c s h, bigSep_singleton, payload_agR]

theorem rest_bar {F : FTy → Type} [FloatOps F] (m : (ℓ : Loc nD τ sig) → Buf (Elt F) ℓ) (ρ : Dev nD → PrngReg) (c : Dev nD) :
    bigSep ((ringRd (F := F) m ρ).duties (barC c) 0 \ ∅) (fun d => (ringRd (F := F) m ρ).payload (barC c) 0 d)
      = bigSep (Finset.univ.erase c) (fun p => barPay (F := F) c p) := by
  rw [Finset.sdiff_empty, duties_bar, show (fun d => (ringRd (F := F) m ρ).payload (barC c) 0 d) = fun p => barPay (F := F) c p from
    funext fun p => payload_bar m ρ c p]

theorem csem_kind (i : CellIx) :
    kind (csem i) = match i with
      | .inl _ => .bar
      | .inr (.inl j) => .rsS j
      | .inr (.inr (.inl s)) => .rsR s
      | .inr (.inr (.inr (.inl j))) => .agS j
      | .inr (.inr (.inr (.inr s))) => .agR s := by
  rcases i with u | j | s | j | s
  · exact kind_bar
  · exact kind_rsS j
  · exact kind_rsR s
  · exact kind_agS j
  · exact kind_agR s

theorem csem_injective : Function.Injective csem := by
  intro i i' h
  have hk : kind (csem i) = kind (csem i') := congrArg kind h
  rw [csem_kind, csem_kind] at hk
  rcases i with u | j | s | j | s <;> rcases i' with u' | j' | s' | j' | s' <;>
    first
      | rfl
      | (cases hk <;> rfl)

theorem kcell_injective : Function.Injective (kcell : Dev nD × CellIx → GSem nD τ sig) := by
  rintro ⟨c, i⟩ ⟨c', i'⟩ h
  have h1 : c = c' := congrArg (fun g : GSem nD τ sig => g.1.1) h
  have h2 : csem i = csem i' := congrArg Prod.snd h
  rw [h1, csem_injective h2]

end Cert.KernelIdeal.Ring

end
-- ==== Proof.Levels.lean ====
import proofs.«901011_g7700000000001012_dist_rs_then_ag_i_m256_n256_v7x_i32_bf16_1_alg».proof.Proof.State
import Mathlib.Algebra.BigOperators.Group.Finset.Basic
import Mathlib.Algebra.BigOperators.Pi
import Mathlib.Algebra.BigOperators.Finsupp.Basic
import Mathlib.Order.Interval.Finset.Nat
import Mathlib.Tactic.Abel

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

theorem barC_ne_rsR (a c s : Dev nD) : (barC a : GSem nD τ sig) ≠ rsR c s := fun h => by
  have h2 : (SemLoc.reg barS : SemLoc sig) = .dma (sem32 cc0_scratch4 s) := congrArg Prod.snd h
  cases h2
theorem barC_ne_agR (a c s : Dev nD) : (barC a : GSem nD τ sig) ≠ agR c s := fun h => by
  have h2 : (SemLoc.reg barS : SemLoc sig) = .dma (sem32 cc0_scratch6 s) := congrArg Prod.snd h
  cases h2

theorem rsR_ne_agR (c s c' s' : Dev nD) : (rsR c s : GSem nD τ sig) ≠ agR c' s' := fun h => by
  have h2 : kind (.dma (sem32 cc0_scratch4 s) : SemLoc sig) = kind (.dma (sem32 cc0_scratch6 s')) := congrArg (fun g : GSem nD τ sig => kind g.2) h
  rw [kind_rsR, kind_agR] at h2
  cases h2

theorem barC_eq_iff {a b : Dev nD} : Iff ((barC a : GSem nD τ sig) = barC b) (a = b) :=
  ⟨fun h => Fin.ext (congrArg (fun g : GSem nD τ sig => g.1.1.val) h), fun h => h ▸ rfl⟩

theorem rsR_eq_iff {c s c' s' : Dev nD} : Iff ((rsR c s : GSem nD τ sig) = rsR c' s') (c = c' ∧ s = s') :=
  ⟨fun h => ⟨Fin.ext (congrArg (fun g : GSem nD τ sig => g.1.1.val) h), by
      have h2 : kind (.dma (sem32 cc0_scratch4 s) : SemLoc sig) = kind (.dma (sem32 cc0_scratch4 s')) := congrArg (fun g : GSem nD τ sig => kind g.2) h
      rw [kind_rsR, kind_rsR] at h2
      exact Kind.rsR.inj h2⟩, fun h => by rw [h.1, h.2]⟩
theorem agR_eq_iff {c s c' s' : Dev nD} : Iff ((agR c s : GSem nD τ sig) = agR c' s') (c = c' ∧ s = s') :=
  ⟨fun h => ⟨Fin.ext (congrArg (fun g : GSem nD τ sig => g.1.1.val) h), by
      have h2 : kind (.dma (sem32 cc0_scratch6 s) : SemLoc sig) = kind (.dma (sem32 cc0_scratch6 s')) := congrArg (fun g : GSem nD τ sig => kind g.2) h
      rw [kind_agR, kind_agR] at h2
      exact Kind.agR.inj h2⟩, fun h => by rw [h.1, h.2]⟩

theorem lv_bar (c : Dev nD) : lv (barC c) () = 1 := by
  unfold lv; rw [show kind (barC c : GSem nD τ sig).2 = Kind.bar from kind_bar]
theorem lv_rsR (c s : Dev nD) : lv (rsR c s) () = 2 := by
  unfold lv; rw [show kind (rsR c s : GSem nD τ sig).2 = Kind.rsR s from kind_rsR s]
theorem lv_agR (c s : Dev nD) : lv (agR c s) () = 3 := by
  unfold lv; rw [show kind (agR c s : GSem nD τ sig).2 = Kind.agR s from kind_agR s]

theorem lv_other (c : Dev nD) (q : DmaSem sig) (h : kind (.dma q : SemLoc sig) = Kind.other) : lv ((c : Thread nD τ), .dma q) () = 0 := by
  unfold lv; rw [show kind (((c : Thread nD τ), SemLoc.dma q) : GSem nD τ sig).2 = Kind.other from h]

theorem Ioc_peel (a : ℕ) (h : a < 31) : Finset.Ioc a 31 = insert (a + 1) (Finset.Ioc (a + 1) 31) := by
  ext k; simp only [Finset.mem_Ioc, Finset.mem_insert]; omega

theorem sum_peel (D : ℕ → CellTallies nD τ sig Unit) (a : ℕ) (h : a < 31) :
    (∑ k ∈ Finset.Ioc a 31, D k) = D (a + 1) + ∑ k ∈ Finset.Ioc (a + 1) 31, D k := by
  rw [Ioc_peel a h, Finset.sum_insert (by simp only [Finset.mem_Ioc]; omega)]

theorem owedAt_bar (c : Dev nD) (a b g : ℕ) (h : a < 31) :
    owedAt c a b g = owedAt c (a + 1) b g + tallyAt (barC (peer c (a + 1))) () 1 := by
  unfold owedAt
  rw [sum_peel (oweBar c) a h]
  unfold oweBar
  abel

theorem owedAt_rs (c : Dev nD) (a b g : ℕ) (h : b < 31) :
    owedAt c a b g = owedAt c a (b + 1) g + tallyAt (rsR (peer c (b + 1)) c) () N := by
  unfold owedAt
  rw [sum_peel (oweRs c) b h]
  unfold oweRs
  abel

theorem owedAt_ag (c : Dev nD) (a b g : ℕ) (h : g < 31) :
    owedAt c a b g = owedAt c a b (g + 1) + tallyAt (agR (peer c (g + 1)) c) () N := by
  unfold owedAt
  rw [sum_peel (oweAg c) g h]
  unfold oweAg
  abel

theorem owedAt_done (c : Dev nD) : owedAt c 31 31 31 = 0 := by
  unfold owedAt
  rw [Finset.Ioc_self, Finset.sum_empty, Finset.sum_empty, Finset.sum_empty, add_zero, add_zero]

theorem owedAt_pos {c : Dev nD} {a b g : ℕ} {x : GSem nD τ sig} {u : Unit} (h : 0 < owedAt c a b g x u) :
    (∃ k, a < k ∧ k ≤ 31 ∧ x = barC (peer c k)) ∨ (∃ k, b < k ∧ k ≤ 31 ∧ x = rsR (peer c k) c) ∨ (∃ k, g < k ∧ k ≤ 31 ∧ x = agR (peer c k) c) := by
  unfold owedAt at h
  rcases Pipeline.add_pos_cases h with h | h
  · rcases Pipeline.add_pos_cases h with h | h
    · obtain ⟨k, hk, hp⟩ := Pipeline.sum_pos_exists h
      unfold oweAg at hp
      exact Or.inr (Or.inr ⟨k, (Finset.mem_Ioc.mp hk).1, (Finset.mem_Ioc.mp hk).2, (Pipeline.tallyAt_pos hp).1⟩)
    · obtain ⟨k, hk, hp⟩ := Pipeline.sum_pos_exists h
      unfold oweRs at hp
      exact Or.inr (Or.inl ⟨k, (Finset.mem_Ioc.mp hk).1, (Finset.mem_Ioc.mp hk).2, (Pipeline.tallyAt_pos hp).1⟩)
  · obtain ⟨k, hk, hp⟩ := Pipeline.sum_pos_exists h
    unfold oweBar at hp
    exact Or.inl ⟨k, (Finset.mem_Ioc.mp hk).1, (Finset.mem_Ioc.mp hk).2, (Pipeline.tallyAt_pos hp).1⟩

theorem owed_mem_L {c : Dev nD} {a b g : ℕ} {x : GSem nD τ sig} {u : Unit} (h : 0 < owedAt c a b g x u) : u ∈ L x := by
  rcases owedAt_pos h with ⟨k, _, _, rfl⟩ | ⟨k, _, _, rfl⟩ | ⟨k, _, _, rfl⟩
  · rw [show L (barC (peer c k) : GSem nD τ sig) = {()} from L_tc _ _]; exact Finset.mem_singleton_self _
  · rw [show L (rsR (peer c k) c : GSem nD τ sig) = {()} from L_tc _ _]; exact Finset.mem_singleton_self _
  · rw [show L (agR (peer c k) c : GSem nD τ sig) = {()} from L_tc _ _]; exact Finset.mem_singleton_self _

theorem mayWait_stage (c : Dev nD) (q : DmaSem sig) (hq : lv ((c : Thread nD τ), .dma q) () = 0)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun x u hx => owed_mem_L (show 0 < owedAt c 0 0 0 x u from hx))
      (fun p hp => by rw [Finset.mem_singleton.mp hp]; exact le_of_eq hq)
      (fun x u hx => ?_)
    rcases owedAt_pos (show 0 < owedAt c 0 0 0 x u from hx) with ⟨k, _, _, rfl⟩ | ⟨k, _, _, rfl⟩ | ⟨k, _, _, rfl⟩
    · rw [lv_bar]; decide
    · rw [lv_rsR]; decide
    · rw [lv_agR]; decide
  · rw [MayWait_zero]; iintro -; iempintro

theorem mayWait_bar (c : Dev nD) :
    (levAts L lv : sProp 𝕄) ⊢ MayWait (c : Thread nD τ) (.reg barS) () (owedAt c 31 0 0) := by
  refine MayOwe.of_cut (L := L) (lev := lv) 1 (fun p hp => by rw [Finset.mem_singleton.mp hp, L_tc]; exact Finset.mem_singleton_self _)
    (fun x u hx => owed_mem_L hx)
    (fun p hp => by rw [Finset.mem_singleton.mp hp]; exact le_of_eq (lv_bar c))
    (fun x u hx => ?_)
  rcases owedAt_pos hx with ⟨k, h1, h2, rfl⟩ | ⟨k, _, _, rfl⟩ | ⟨k, _, _, rfl⟩
  · omega
  · rw [lv_rsR]; decide
  · rw [lv_agR]; decide

theorem mayWait_rsR (c s : Dev nD) :
    (levAts L lv : sProp 𝕄) ⊢ MayWait (c : Thread nD τ) (.dma (sem32 cc0_scratch4 s)) () (owedAt c 31 31 0) := by
  refine MayOwe.of_cut (L := L) (lev := lv) 2 (fun p hp => by rw [Finset.mem_singleton.mp hp, L_tc]; exact Finset.mem_singleton_self _)
    (fun x u hx => owed_mem_L hx)
    (fun p hp => by rw [Finset.mem_singleton.mp hp]; exact le_of_eq (lv_rsR c s))
    (fun x u hx => ?_)
  rcases owedAt_pos hx with ⟨k, h1, h2, rfl⟩ | ⟨k, h1, h2, rfl⟩ | ⟨k, _, _, rfl⟩
  · omega
  · omega
  · rw [lv_agR]; decide

theorem sum_peer_ite (d c : Dev nD) (n : ℕ) :
    (∑ k ∈ Finset.Ioc 0 31, if peer d k = c then n else 0) = if d = c then 0 else n := by
  by_cases hdc : d = c
  · rw [if_pos hdc]
    refine Finset.sum_eq_zero fun k hk => if_neg fun h => ?_
    have hk' := Finset.mem_Ioc.mp hk
    exact peer_ne_self d k (by omega) hk'.2 (h.trans hdc.symm)
  · rw [if_neg hdc]
    have hpos := dist_pos d c hdc
    have hlt := dist_lt d c
    have hmem : Mesh.dist d c ∈ Finset.Ioc 0 31 := Finset.mem_Ioc.mpr ⟨by omega, by omega⟩
    rw [Finset.sum_eq_single_of_mem (Mesh.dist d c) hmem (fun k hk hne => if_neg fun h => hne ?_), if_pos (peer_dist d c)]
    have hk' := Finset.mem_Ioc.mp hk
    rw [← h, dist_peer d k (by omega)]

theorem sum_eval {α : Type} (s : Finset α) (D : α → CellTallies nD τ sig Unit) (x : GSem nD τ sig) (u : Unit) :
    (∑ k ∈ s, D k) x u = ∑ k ∈ s, D k x u := by rw [Finset.sum_apply, Finsupp.finsetSum_apply]

theorem O₀_bar (d c : Dev nD) : O₀ d (barC c) () = if d = c then 0 else 1 := by
  have hag : ∀ k, oweAg d k (barC c) () = 0 := fun k => by unfold oweAg; rw [tallyAt_ne_cell (barC_ne_agR _ _ _)]; rfl
  have hrs : ∀ k, oweRs d k (barC c) () = 0 := fun k => by unfold oweRs; rw [tallyAt_ne_cell (barC_ne_rsR _ _ _)]; rfl
  unfold O₀ owedAt
  rw [Pi.add_apply, Finsupp.add_apply, Pi.add_apply, Finsupp.add_apply, sum_eval, sum_eval, sum_eval,
    Finset.sum_eq_zero (fun k _ => hag k), Finset.sum_eq_zero (fun k _ => hrs k), Nat.zero_add, Nat.zero_add, ← sum_peer_ite d c 1]
  refine Finset.sum_congr rfl fun k _ => ?_
  unfold oweBar; rw [tallyAt_apply]
  by_cases h : peer d k = c
  · rw [if_pos h, if_pos ⟨by rw [h], rfl⟩]
  · rw [if_neg h, if_neg (fun h' => h (barC_eq_iff.mp h'.1).symm)]

theorem O₀_rsR (d c s : Dev nD) : O₀ d (rsR c s) () = if d = s then (if d = c then 0 else N) else 0 := by
  have hag : ∀ k, oweAg d k (rsR c s) () = 0 := fun k => by unfold oweAg; rw [tallyAt_ne_cell (rsR_ne_agR _ _ _ _)]; rfl
  have hbar : ∀ k, oweBar d k (rsR c s) () = 0 := fun k => by unfold oweBar; rw [tallyAt_ne_cell (barC_ne_rsR _ _ _).symm]; rfl
  unfold O₀ owedAt
  rw [Pi.add_apply, Finsupp.add_apply, Pi.add_apply, Finsupp.add_apply, sum_eval, sum_eval, sum_eval,
    Finset.sum_eq_zero (fun k _ => hag k), Finset.sum_eq_zero (fun k _ => hbar k), Nat.zero_add, Nat.add_zero]
  by_cases hds : d = s
  · rw [if_pos hds, ← sum_peer_ite d c N]
    refine Finset.sum_congr rfl fun k _ => ?_
    unfold oweRs; rw [tallyAt_apply]
    by_cases h : peer d k = c
    · rw [if_pos h, if_pos ⟨by rw [h, hds], rfl⟩]
    · rw [if_neg h, if_neg (fun h' => h (rsR_eq_iff.mp h'.1).1.symm)]
  · rw [if_neg hds]
    refine Finset.sum_eq_zero fun k _ => ?_
    unfold oweRs; rw [tallyAt_apply, if_neg (fun h' => hds (rsR_eq_iff.mp h'.1).2.symm)]

theorem O₀_agR (d c s : Dev nD) : O₀ d (agR c s) () = if d = s then (if d = c then 0 else N) else 0 := by
  have hrs : ∀ k, oweRs d k (agR c s) () = 0 := fun k => by unfold oweRs; rw [tallyAt_ne_cell (rsR_ne_agR _ _ _ _).symm]; rfl
  have hbar : ∀ k, oweBar d k (agR c s) () = 0 := fun k => by unfold oweBar; rw [tallyAt_ne_cell (barC_ne_agR _ _ _).symm]; rfl
  unfold O₀ owedAt
  rw [Pi.add_apply, Finsupp.add_apply, Pi.add_apply, Finsupp.add_apply, sum_eval, sum_eval, sum_eval,
    Finset.sum_eq_zero (fun k _ => hrs k), Finset.sum_eq_zero (fun k _ => hbar k), Nat.add_zero, Nat.add_zero]
  by_cases hds : d = s
  · rw [if_pos hds, ← sum_peer_ite d c N]
    refine Finset.sum_congr rfl fun k _ => ?_
    unfold oweAg; rw [tallyAt_apply]
    by_cases h : peer d k = c
    · rw [if_pos h, if_pos ⟨by rw [h, hds], rfl⟩]
    · rw [if_neg h, if_neg (fun h' => h (agR_eq_iff.mp h'.1).1.symm)]
  · rw [if_neg hds]
    refine Finset.sum_eq_zero fun k _ => ?_
    unfold oweAg; rw [tallyAt_apply, if_neg (fun h' => hds (agR_eq_iff.mp h'.1).2.symm)]

theorem launch_bar (c : Dev nD) :
    tallyOn (barC c) (launchCredit (Pipeline.owing O₀) 0 (barC c)) = (tallyAt (barC c) () 31 : CellTallies nD τ sig Unit) := by
  unfold tallyAt; refine congrArg _ (Finsupp.ext fun u => ?_); cases u
  rw [Pipeline.launchCredit_owing, Finsupp.single_eq_same, Finset.sum_congr rfl fun d _ => O₀_bar d c]
  revert c; decide

theorem launch_rsR (c s : Dev nD) (h : s ≠ c) :
    tallyOn (rsR c s) (launchCredit (Pipeline.owing O₀) 0 (rsR c s)) = (tallyAt (rsR c s) () N : CellTallies nD τ sig Unit) := by
  unfold tallyAt; refine congrArg _ (Finsupp.ext fun u => ?_); cases u
  rw [Pipeline.launchCredit_owing, Finsupp.single_eq_same, Finset.sum_congr rfl fun d _ => O₀_rsR d c s,
    Finset.sum_ite_eq' Finset.univ s fun d => if d = c then 0 else N, if_pos (Finset.mem_univ _), if_neg h]

theorem launch_agR (c s : Dev nD) (h : s ≠ c) :
    tallyOn (agR c s) (launchCredit (Pipeline.owing O₀) 0 (agR c s)) = (tallyAt (agR c s) () N : CellTallies nD τ sig Unit) := by
  unfold tallyAt; refine congrArg _ (Finsupp.ext fun u => ?_); cases u
  rw [Pipeline.launchCredit_owing, Finsupp.single_eq_same, Finset.sum_congr rfl fun d _ => O₀_agR d c s,
    Finset.sum_ite_eq' Finset.univ s fun d => if d = c then 0 else N, if_pos (Finset.mem_univ _), if_neg h]

abbrev rsRsem (s : Dev nD) : SemLoc sig := .dma (sem32 cc0_scratch4 s)
abbrev agRsem (s : Dev nD) : SemLoc sig := .dma (sem32 cc0_scratch6 s)

theorem rsRsem_inj : Function.Injective rsRsem := fun s s' h => by
  have h2 : kind (rsRsem s) = kind (rsRsem s') := congrArg kind h
  rw [kind_rsR, kind_rsR] at h2
  exact Kind.rsR.inj h2
theorem agRsem_inj : Function.Injective agRsem := fun s s' h => by
  have h2 : kind (agRsem s) = kind (agRsem s') := congrArg kind h
  rw [kind_agR, kind_agR] at h2
  exact Kind.agR.inj h2

theorem creds (c : Dev nD) : (Pipeline.launchCred O₀ c : sProp 𝕄) ⊢ credits c := by
  unfold Pipeline.launchCred credits
  have hd2 : Disjoint ((Finset.univ.erase c).image rsRsem) ((Finset.univ.erase c).image agRsem) := by
    rw [Finset.disjoint_left]
    intro x hx hx'
    obtain ⟨s, _, rfl⟩ := Finset.mem_image.mp hx
    obtain ⟨s', _, h⟩ := Finset.mem_image.mp hx'
    have h2 : kind (agRsem s') = kind (rsRsem s) := congrArg kind h
    rw [kind_rsR, kind_agR] at h2
    cases h2
  have hd1 : Disjoint ({.reg barS} : Finset (SemLoc sig)) ((Finset.univ.erase c).image rsRsem ∪ (Finset.univ.erase c).image agRsem) := by
    rw [Finset.disjoint_singleton_left, Finset.mem_union]
    rintro (hx | hx)
    · obtain ⟨s, _, h⟩ := Finset.mem_image.mp hx; cases h
    · obtain ⟨s, _, h⟩ := Finset.mem_image.mp hx; cases h
  refine (bigSep_subset (Finset.subset_univ ({.reg barS} ∪ ((Finset.univ.erase c).image rsRsem ∪ (Finset.univ.erase c).image agRsem)))).trans ?_
  rw [bigSep_union hd1, bigSep_union hd2, bigSep_singleton, bigSep_image_of_injOn (rsRsem_inj.injOn), bigSep_image_of_injOn (agRsem_inj.injOn)]
  refine sep_mono (Entails.of_eq (congrArg cred (launch_bar c))) (sep_mono ?_ ?_)
  · exact bigSep_mono fun s hs => Entails.of_eq (congrArg cred (launch_rsR c s (Finset.ne_of_mem_erase hs)))
  · exact bigSep_mono fun s hs => Entails.of_eq (congrArg cred (launch_agR c s (Finset.ne_of_mem_erase hs)))

theorem waits (m : (ℓ : Loc nD τ sig) → Buf (Elt F) ℓ) (ρ : Dev nD → PrngReg) (c : Dev nD) :
    (levAts L lv : sProp 𝕄) ⊢ Pipeline.cellsWaits cfgs (dats m ρ) () 0 c :=
  Pipeline.cellsWaits_intro cfgs (dats m ρ) () 0 c fun w s t =>
    mayWait_stage c _ (lv_other c _ (by fin_cases w <;> fin_cases s <;> decide)) _ (by
      rcases t with ⟨_ | _, ht⟩
      · exact Or.inl rfl
      · exact Or.inr rfl)

end Cert.KernelIdeal.Ring

end
-- ==== Proof.Launch.lean ====
import proofs.«901011_g7700000000001012_dist_rs_then_ag_i_m256_n256_v7x_i32_bf16_1_alg».proof.Proof.Tables
import proofs.«901011_g7700000000001012_dist_rs_then_ag_i_m256_n256_v7x_i32_bf16_1_alg».proof.Proof.Levels
import Mathlib.Order.Interval.Finset.Nat
import Mathlib.Logic.Equiv.Defs

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq {F : FTy → Type} [FloatOps F] (m : (ℓ : Loc nD τ sig) → Buf (Elt F) ℓ) (ρ : Dev nD → PrngReg)
    (c : Dev nD) (w : Fin cfg0.W) : (dats m ρ 0 c).share w = fullShare := by unfold Dat.share; split <;> rfl

def ringCells : Finset (GSem nD τ sig) := Finset.univ.map ⟨kcell, kcell_injective⟩

abbrev TokIx : Type := Dev nD × Fin 31 × Fin 5

def tokOf (x : TokIx) : GSem nD τ sig × ℕ × Dev nD :=
  match x.2.2 with
  | 0 => (barC x.1, 0, peer x.1 (x.2.1.val + 1))
  | 1 => (rsR x.1 (peer x.1 (x.2.1.val + 1)), 0, peer x.1 (x.2.1.val + 1))
  | 2 => (agR x.1 (peer x.1 (x.2.1.val + 1)), 0, peer x.1 (x.2.1.val + 1))
  | 3 => (rsS x.1 x.2.1, 0, x.1)
  | 4 => (agS x.1 x.2.1, 0, x.1)

def tokIx (x : GSem nD τ sig × ℕ × Dev nD) : TokIx :=
  match kind x.1.2 with
  | .bar => (x.1.1.1, ⟨(dist x.1.1.1 x.2.2 - 1) % 31, Nat.mod_lt _ (by decide)⟩, 0)
  | .rsR s => (x.1.1.1, ⟨(dist x.1.1.1 s - 1) % 31, Nat.mod_lt _ (by decide)⟩, 1)
  | .agR s => (x.1.1.1, ⟨(dist x.1.1.1 s - 1) % 31, Nat.mod_lt _ (by decide)⟩, 2)
  | .rsS j => (x.1.1.1, j, 3)
  | .agS j => (x.1.1.1, j, 4)
  | .other => (x.1.1.1, 0, 0)

theorem dist_place (d : Dev nD) (k : Fin 31) : (dist d (peer d (k.val + 1)) - 1) % 31 = k.val := by
  have hk : k.val < 31 := k.isLt
  rw [dist_peer d _ (by omega)]; omega

theorem tokIx_tokOf : ∀ x : TokIx, tokIx (tokOf x) = x
  | (d, k, 0) => by
    show tokIx (barC d, 0, peer d (k.val + 1)) = _
    unfold tokIx; simp only [kind_bar]
    exact Prod.ext rfl (Prod.ext (Fin.ext (dist_place d k)) rfl)
  | (d, k, 1) => by
    show tokIx (rsR d (peer d (k.val + 1)), 0, peer d (k.val + 1)) = _
    unfold tokIx; simp only [kind_rsR]
    exact Prod.ext rfl (Prod.ext (Fin.ext (dist_place d k)) rfl)
  | (d, k, 2) => by
    show tokIx (agR d (peer d (k.val + 1)), 0, peer d (k.val + 1)) = _
    unfold tokIx; simp only [kind_agR]
    exact Prod.ext rfl (Prod.ext (Fin.ext (dist_place d k)) rfl)
  | (d, k, 3) => by
    show tokIx (rsS d k, 0, d) = _
    unfold tokIx; simp only [kind_rsS]
  | (d, k, 4) => by
    show tokIx (agS d k, 0, d) = _
    unfold tokIx; simp only [kind_agS]

theorem tokOf_injective : Function.Injective tokOf := Function.LeftInverse.injective tokIx_tokOf

def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  bigSep Finset.univ fun k : Fin 31 =>
    iprop(dutyTok ER (barC c) 0 (peer c (k.val + 1)) ∗ dutyTok ER (rsR c (peer c (k.val + 1))) 0 (peer c (k.val + 1))
      ∗ dutyTok ER (agR c (peer c (k.val + 1))) 0 (peer c (k.val + 1)) ∗ dutyTok ER (rsS c k) 0 c ∗ dutyTok ER (agS c k) 0 c)

def G (c : Dev nD) : sProp 𝕄 :=
  iprop((bigSep Finset.univ fun i : CellIx => roundState ER (ringRd m ρ) (kcell (c, i)) 0)
    ∗ (bigSep Finset.univ fun i : CellIx => iprop(atPos ER (kcell (c, i)) 0 ∅ 0 ∗ reached ER (kcell (c, i)) 0)) ∗ toks c)

def G' (c : Dev nD) : sProp 𝕄 := iprop(∃ K, ghost m ρ K c)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : CellIx => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks; rw [bigSep_univ_prod]
    exact bigSep_congr fun k _ => by rw [bigSep_fin5]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem bigSep_cellIx (Φ : CellIx → sProp 𝕄) :
    bigSep Finset.univ Φ = iprop(Φ (.inl ()) ∗ bigSep Finset.univ fun i : OwnIx => Φ (.inr i)) := by
  rw [bigSep_univ_sum, bigSep_univ_of_subsingleton ()]; rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun i : OwnIx => semVal (kcell (c, .inr i)) 0 := rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CellIx => semVal (kcell (c, i)) 0 : sProp 𝕄) := by
  rw [unscopedSems0_eq, ownSems0_eq, bigSep_cellIx]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CellIx => iprop(∃ κ : ℕ, cellInv ER (ringRd m ρ) κ (kcell (c, i))))
          ∗ (bigSep Finset.univ fun i : CellIx => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CellIx => semVal (kcell (c, i)) 0) ∗ bigSep Finset.univ fun i : CellIx => roundState ER (ringRd m ρ) (kcell (c, i)) 0)
      ⊢ (|={Set.univ}=> bigSep Finset.univ fun i : CellIx => iprop(∃ κ : ℕ, cellInv ER (ringRd m ρ) κ (kcell (c, i))) : sProp 𝕄) from by
        rw [← bigSep_sep']
        exact (bigSep_mono fun i _ => (Rounds.body_intro ER (ringRd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

def turn (x : Dev nD × Fin 31) : Dev nD × Fin 31 := (peer x.1 (x.2.val + 1), ⟨30 - x.2.val, by omega⟩)

theorem peer_back (c : Dev nD) (k : Fin 31) : peer (peer c (k.val + 1)) (30 - k.val + 1) = c := by
  have hc : c.val < 32 := c.isLt
  have hk : k.val < 31 := k.isLt
  apply Fin.ext
  simp only [peer_val]
  omega

theorem turn_turn (x : Dev nD × Fin 31) : turn (turn x) = x := by
  obtain ⟨c, k⟩ := x
  have hk : k.val < 31 := k.isLt
  refine Prod.ext (peer_back c k) (Fin.ext ?_)
  show 30 - (30 - k.val) = k.val
  omega

def turnE : Dev nD × Fin 31 ≃ Dev nD × Fin 31 := ⟨turn, turn, turn_turn, turn_turn⟩

omit [FloatOps F] in
theorem bigSep_Ioc31 (Φ : ℕ → sProp 𝕄) : bigSep (Finset.Ioc 0 31) Φ = bigSep Finset.univ fun k : Fin 31 => Φ (k.val + 1) := by
  have h : Finset.Ioc 0 31 = (Finset.univ : Finset (Fin 31)).map ⟨fun k => k.val + 1, fun a b h => Fin.ext (Nat.succ.inj h)⟩ := by
    ext n
    simp only [Finset.mem_Ioc, Finset.mem_map, Finset.mem_univ, true_and, Function.Embedding.coeFn_mk]
    constructor
    · rintro ⟨h1, h2⟩; exact ⟨⟨n - 1, by omega⟩, by show n - 1 + 1 = n; omega⟩
    · rintro ⟨k, hk⟩
      have hk' : k.val + 1 = n := hk
      have := k.isLt
      omega
  rw [h, bigSep_map]; rfl

def arrTok (p : Dev nD) (k : ℕ) : sProp 𝕄 :=
  iprop(dutyTok ER (barC (peer p k)) 0 p ∗ dutyTok ER (rsR (peer p k) p) 0 p ∗ dutyTok ER (agR (peer p k) p) 0 p)
def depTok (c : Dev nD) (j : Fin 31) : sProp 𝕄 := iprop(dutyTok ER (rsS c j) 0 c ∗ dutyTok ER (agS c j) 0 c)

omit [FloatOps F] in
theorem payToks_eq (c : Dev nD) :
    (payToks c : sProp 𝕄) = iprop((bigSep (Finset.Ioc 0 31) fun k => arrTok c k) ∗ bigSep Finset.univ fun j : Fin 31 => depTok c j) := rfl

omit [FloatOps F] in
theorem arrTok_turn (c : Dev nD) (k : Fin 31) :
    (arrTok (turn (c, k)).1 ((turn (c, k)).2.val + 1) : sProp 𝕄)
      = iprop(dutyTok ER (barC c) 0 (peer c (k.val + 1)) ∗ dutyTok ER (rsR c (peer c (k.val + 1))) 0 (peer c (k.val + 1))
          ∗ dutyTok ER (agR c (peer c (k.val + 1))) 0 (peer c (k.val + 1))) := by
  show arrTok (peer c (k.val + 1)) (30 - k.val + 1) = _
  unfold arrTok; rw [peer_back c k]

omit [FloatOps F] in
theorem tok_split (c : Dev nD) (k : Fin 31) :
    iprop(dutyTok ER (barC c) 0 (peer c (k.val + 1)) ∗ dutyTok ER (rsR c (peer c (k.val + 1))) 0 (peer c (k.val + 1))
      ∗ dutyTok ER (agR c (peer c (k.val + 1))) 0 (peer c (k.val + 1)) ∗ dutyTok ER (rsS c k) 0 c ∗ dutyTok ER (agS c k) 0 c)
      ⊢ (iprop(arrTok (turn (c, k)).1 ((turn (c, k)).2.val + 1) ∗ depTok c k) : sProp 𝕄) := by
  rw [arrTok_turn]; unfold depTok
  iintro ⟨H1, H2, H3, H4, H5⟩
  isplitl [H1 H2 H3]
  · isplitl [H1]; · iexact H1
    isplitl [H2] <;> iassumption
  · isplitl [H4] <;> iassumption

omit [FloatOps F] in
theorem toks_split (c : Dev nD) :
    (toks c : sProp 𝕄) ⊢ iprop((bigSep Finset.univ fun k : Fin 31 => arrTok (turn (c, k)).1 ((turn (c, k)).2.val + 1))
      ∗ bigSep Finset.univ fun j : Fin 31 => depTok c j) := by
  unfold toks
  rw [← bigSep_sep']
  exact bigSep_mono fun k _ => tok_split c k

omit [FloatOps F] in
theorem toks_around : (bigSep Finset.univ fun c : Dev nD => (toks c : sProp 𝕄)) ⊢ bigSep Finset.univ fun c : Dev nD => payToks c := by
  have h2 : (bigSep Finset.univ fun x : Dev nD × Fin 31 => (arrTok x.1 (x.2.val + 1) : sProp 𝕄))
      = bigSep Finset.univ fun x : Dev nD × Fin 31 => arrTok (turn x).1 ((turn x).2.val + 1) := bigSep_univ_equiv turnE _
  have hA : (bigSep Finset.univ fun c : Dev nD => bigSep Finset.univ fun k : Fin 31 => (arrTok (turn (c, k)).1 ((turn (c, k)).2.val + 1) : sProp 𝕄))
      = bigSep Finset.univ fun c : Dev nD => bigSep (Finset.Ioc 0 31) fun k => (arrTok c k : sProp 𝕄) :=
    calc _ = bigSep Finset.univ fun x : Dev nD × Fin 31 => (arrTok (turn x).1 ((turn x).2.val + 1) : sProp 𝕄) :=
            (bigSep_univ_prod (fun x : Dev nD × Fin 31 => (arrTok (turn x).1 ((turn x).2.val + 1) : sProp 𝕄))).symm
      _ = bigSep Finset.univ fun x : Dev nD × Fin 31 => (arrTok x.1 (x.2.val + 1) : sProp 𝕄) := h2.symm
      _ = bigSep Finset.univ fun c : Dev nD => bigSep Finset.univ fun k : Fin 31 => (arrTok c (k.val + 1) : sProp 𝕄) :=
            bigSep_univ_prod (fun x : Dev nD × Fin 31 => (arrTok x.1 (x.2.val + 1) : sProp 𝕄))
      _ = _ := bigSep_congr fun c _ => (bigSep_Ioc31 fun k => arrTok c k).symm
  have e : (bigSep Finset.univ fun c : Dev nD => (iprop((bigSep Finset.univ fun k : Fin 31 => arrTok (turn (c, k)).1 ((turn (c, k)).2.val + 1))
      ∗ bigSep Finset.univ fun j : Fin 31 => depTok c j) : sProp 𝕄)) = bigSep Finset.univ fun c : Dev nD => payToks c := by
    rw [bigSep_sep', hA, ← bigSep_sep']
    exact bigSep_congr fun c _ => (payToks_eq c).symm
  exact (bigSep_mono fun c _ => toks_split c).trans (Entails.of_eq e)

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CellIx → ℕ) (c : Dev nD) : iprop(records m ρ K ∗ positions c ∗ payToks c) ⊢ G' m ρ c := by
  unfold G' ghost
  iintro H
  iexists K
  iexact H

theorem regroup :
    (bigSep Finset.univ fun c : Dev nD => iprop((bigSep Finset.univ fun i : CellIx => iprop(∃ κ : ℕ, cellInv ER (ringRd m ρ) κ (kcell (c, i))))
          ∗ (bigSep Finset.univ fun i : CellIx => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ck : Dev nD × CellIx => iprop(∃ κ : ℕ, cellInv ER (ringRd m ρ) κ (kcell ck))),
    bigSep_congr (s := Finset.univ) (fun (c : Dev nD) _ => bigSep_sep' Finset.univ (fun i : CellIx => (atPos ER (kcell (c, i)) 0 ∅ 0 : sProp 𝕄)) (fun i => reached ER (kcell (c, i)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun i : CellIx => (atPos ER (kcell (c, i)) 0 ∅ 0 : sProp 𝕄)) payToks).symm).trans
      (bigSep_mono fun c _ => show _ ⊢ iprop(positions c ∗ payToks c) from Entails.of_eq rfl))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H0, H1, H2⟩
  isplitl [Hs]; · iexact Hs
  isplitl [H0]; · iexact H0
  isplitl [H1] <;> iassumption

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ Pipeline.ownSems0
  iintro ⟨⟨H0, H1, H2⟩, HS⟩
  isplitr; · iempintro
  isplitl [HS]; · iexact HS
  isplitl [H0]; · iexact H0
  isplitl [H1] <;> iassumption

def finalA {F : FTy → Type} [FloatOps F] (m : (ℓ : Loc nD τ sig) → Buf (Elt F) ℓ) (ρ : Dev nD → PrngReg)
    (c : Dev nD) (w : Fin cfg0.W) : Buf (Elt F) ((cfg0.win w).arr.view.loc (c : Thread nD τ)) := (dats m ρ 0 c).arrAt w cfg0.N

def QC {F : FTy → Type} [FloatOps F] (m : (ℓ : Loc nD τ sig) → Buf (Elt F) ℓ) (ρ : Dev nD → PrngReg) :
    PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From every device's body, all fair runs of the mesh end, each array at the contents the proof data name. -/
theorem run_main_of {F : FTy → Type} [FloatOps F] (m : (ℓ : Loc nD τ sig) → Buf (Elt F) ℓ) (ρ : Dev nD → PrngReg)
    (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_x {F : FTy → Type} [FloatOps F] (m : (ℓ : Loc nD τ sig) → Buf (Elt F) ℓ) (ρ : Dev nD → PrngReg) (c : Dev nD) :
    finalA m ρ c (0 : Fin 2) = (s₀ m ρ).mem (win0_0.arr.view.loc (c : Thread nD τ)) :=
  (dats (F := F) m ρ 0 c).arrAt_in (0 : Fin 2) rfl _

theorem finalA_out {F : FTy → Type} [FloatOps F] (m : (ℓ : Loc nD τ sig) → Buf (Elt F) ℓ) (ρ : Dev nD → PrngReg) (c : Dev nD) :
    finalA m ρ c (1 : Fin 2) = outAt m ρ c := by
  have h := (dats (F := F) m ρ 0 c).arrAt_succ (1 : Fin 2) t₀
  rw [if_pos (show (cfg0.win (1 : Fin 2)).flush t₀ = true from by decide)] at h
  refine (show finalA m ρ c (1 : Fin 2) = (dats m ρ 0 c).arrAt (1 : Fin 2) (t₀.val + 1) from rfl).trans (h.trans ?_)
  exact Memref.write_access_unit_zero_univ (Elt F) main_v1 (funext fun a => Nat.zero_mul _) _ _ _

end Cert.KernelIdeal.Ring

end
-- ==== Proof.Phases.lean ====
import proofs.«901011_g7700000000001012_dist_rs_then_ag_i_m256_n256_v7x_i32_bf16_1_alg».proof.Proof.State

noncomputable section

namespace Cert.KernelIdeal.Ring

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

def jOf (k : ℕ) : Fin 31 := ⟨(k - 1) % 31, Nat.mod_lt _ (by decide)⟩

def owesX (c : Dev nD) (O : CellTallies nD τ sig Unit) : sProp 𝕄 := iprop(∃ W : Waits sig Unit, owes (c : Thread nD τ) O W)

abbrev tokBar (c : Dev nD) (k : ℕ) : sProp 𝕄 := dutyTok ER (barC (peer c k)) 0 c
abbrev tokRsR (c : Dev nD) (k : ℕ) : sProp 𝕄 := dutyTok ER (rsR (peer c k) c) 0 c
abbrev tokAgR (c : Dev nD) (k : ℕ) : sProp 𝕄 := dutyTok ER (agR (peer c k) c) 0 c
abbrev tokRsS (c : Dev nD) (k : ℕ) : sProp 𝕄 := dutyTok ER (rsS c (jOf k)) 0 c
abbrev tokAgS (c : Dev nD) (k : ℕ) : sProp 𝕄 := dutyTok ER (agS c (jOf k)) 0 c

def sigRes (c : Dev nD) (a : ℕ) : sProp 𝕄 :=
  bigSep (Finset.Ioc a 31) fun k => iprop(tokBar c k ∗ (∃ f, slotPts rsM (peer c k) c fullShare f) ∗ (∃ f, slotPts agM (peer c k) c fullShare f))

def gotBar (c : Dev nD) : sProp 𝕄 := bigSep (Finset.Ioc 0 31) fun k => barPay (F := F) c (peer c k)

def otherToks (c : Dev nD) : sProp 𝕄 :=
  bigSep (Finset.Ioc 0 31) fun k => iprop(tokRsS (F := F) c k ∗ tokRsR c k ∗ tokAgS c k ∗ tokAgR c k)
def agToks (c : Dev nD) : sProp 𝕄 := bigSep (Finset.Ioc 0 31) fun k => iprop(tokAgS (F := F) c k ∗ tokAgR c k)

def agDst (c : Dev nD) : sProp 𝕄 := bigSep (Finset.Ioc 0 31) fun k => iprop(∃ f, slotPts (F := F) agM c (peer c k) fullShare f)

def rsRecvRes (c : Dev nD) (b : ℕ) : sProp 𝕄 :=
  bigSep (Finset.Ioc b 31) fun k => iprop(cred (tallyAt (rsR c (peer c k)) () N) ∗ atPos ER (rsR c (peer c k)) 0 ∅ 0)
def agRecvRes (c : Dev nD) (b : ℕ) : sProp 𝕄 :=
  bigSep (Finset.Ioc b 31) fun k => iprop(cred (tallyAt (agR c (peer c k)) () N) ∗ atPos ER (agR c (peer c k)) 0 ∅ 0)
def rsSpos (c : Dev nD) : sProp 𝕄 := bigSep (Finset.Ioc 0 31) fun k => (atPos ER (rsS c (jOf k)) 0 ∅ 0 : sProp 𝕄)
def agSpos (c : Dev nD) : sProp 𝕄 := bigSep (Finset.Ioc 0 31) fun k => (atPos ER (agS c (jOf k)) 0 ∅ 0 : sProp 𝕄)

def rsSendRes (c : Dev nD) (b : ℕ) : sProp 𝕄 :=
  bigSep (Finset.Ioc b 31) fun k => iprop(slotPts bfM (peer c k) c fullShare (xbf m ρ c) ∗ (∃ f, slotPts rsM c (peer c k) fullShare f) ∗ tokRsS (F := F) c k ∗ tokRsR c k)

def rsSent (c : Dev nD) (b : ℕ) : sProp 𝕄 := bigSep (Finset.Ioc 0 b) fun k => (cred (tallyAt (rsS c (jOf k)) () N) : sProp 𝕄)

def rsGot (c : Dev nD) (b : ℕ) : sProp 𝕄 :=
  bigSep (Finset.Ioc 0 b) fun k => iprop(slotPts rsM (peer c k) c fullShare (RS m ρ c) ∗ atPos ER (rsR c (peer c k)) 1 ∅ 0)

def agSendRes (c : Dev nD) (g : ℕ) : sProp 𝕄 :=
  bigSep (Finset.Ioc g 31) fun k => iprop(slotPts agM c c (shr (k - 1)) (AG m ρ) ∗ (∃ f, slotPts agM c (peer c k) fullShare f) ∗ tokAgS (F := F) c k ∗ tokAgR c k)
def agSent (c : Dev nD) (g : ℕ) : sProp 𝕄 := bigSep (Finset.Ioc 0 g) fun k => (cred (tallyAt (agS c (jOf k)) () N) : sProp 𝕄)

def agGot (c : Dev nD) (g : ℕ) : sProp 𝕄 :=
  bigSep (Finset.Ioc 0 g) fun k => iprop(slotPts agM (peer c k) c fullShare (AG m ρ) ∗ atPos ER (agR c (peer c k)) 1 ∅ 0)

def rsWaitRes (c : Dev nD) (b : ℕ) : sProp 𝕄 :=
  bigSep (Finset.Ioc b 31) fun k => iprop(cred (tallyAt (rsS c (jOf k)) () N) ∗ atPos ER (rsS c (jOf k)) 0 ∅ 0)
def rsBack (c : Dev nD) (b : ℕ) : sProp 𝕄 :=
  bigSep (Finset.Ioc 0 b) fun k => iprop(slotPts bfM (peer c k) c fullShare (xbf m ρ c) ∗ atPos ER (rsS c (jOf k)) 1 ∅ 0)
def agWaitRes (c : Dev nD) (b : ℕ) : sProp 𝕄 :=
  bigSep (Finset.Ioc b 31) fun k => iprop(cred (tallyAt (agS c (jOf k)) () N) ∗ atPos ER (agS c (jOf k)) 0 ∅ 0)
def agBack (c : Dev nD) (b : ℕ) : sProp 𝕄 :=
  bigSep (Finset.Ioc 0 b) fun k => iprop(slotPts agM c c (shr (k - 1)) (AG m ρ) ∗ atPos ER (agS c (jOf k)) 1 ∅ 0)

end Cert.KernelIdeal.Ring

end
-- ==== Proof.Slots.lean ====
import proofs.«901011_g7700000000001012_dist_rs_then_ag_i_m256_n256_v7x_i32_bf16_1_alg».proof.Proof.State
import Idealize.ShloMosaic.Rules.PointsTo
import Idealize.ShloMosaic.Lib.ValueIdx

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem slot_rect_disjoint (s t : Dev nD) (h : s ≠ t) :
    Disjoint (Rect.unit (s := S32x8x256) ![s.val, 0, 0] S1x8x256.size (slot_inb s)).set
      (Rect.unit (s := S32x8x256) ![t.val, 0, 0] S1x8x256.size (slot_inb t)).set := by
  have hne : s.val ≠ t.val := fun e => h (Fin.ext e)
  refine Rect.unit_disjoint (0 : Fin 3) ?_
  show s.val + 1 ≤ t.val ∨ t.val + 1 ≤ s.val
  omega

theorem slot_set_eq (M : Memref sig .tc .vmem S32x8x256 .bf16) (s : Dev nD) :
    (slot M s).view.set = (Rect.unit (s := S32x8x256) ![s.val, 0, 0] S1x8x256.size (slot_inb s)).set.map M.view.emb :=
  View.set_slice _ _

theorem slot_set_disjoint' (M : Memref sig .tc .vmem S32x8x256 .bf16) (s t : Dev nD) (h : s ≠ t) :
    Disjoint (slot M s).view.set (slot M t).view.set := by
  rw [slot_set_eq, slot_set_eq, Finset.disjoint_map]
  exact slot_rect_disjoint s t h

theorem slot_rect_cover (i : S32x8x256.Idx) :
    i ∈ (Rect.unit (s := S32x8x256) ![(devOf i).val, 0, 0] S1x8x256.size (slot_inb (devOf i))).set := by
  rw [Rect.mem_set_unit]
  intro a
  fin_cases a
  · exact ⟨le_refl _, Nat.lt_succ_self _⟩
  · exact ⟨Nat.zero_le _, by have := (i 1).isLt; simpa using this⟩
  · exact ⟨Nat.zero_le _, by have := (i 2).isLt; simpa using this⟩

theorem slot_set_cover (M : Memref sig .tc .vmem S32x8x256 .bf16) :
    (Finset.univ : Finset (Dev nD)).biUnion (fun s => ((slot M s).view.set : Finset M.view.ty.Idx)) = M.view.set := by
  ext i
  simp only [Finset.mem_biUnion, Finset.mem_univ, true_and]
  constructor
  · rintro ⟨s, hs⟩
    exact View.set_slice_subset _ _ hs
  · intro hi
    obtain ⟨x, -, rfl⟩ := Finset.mem_map.mp hi
    refine ⟨devOf x, ?_⟩
    rw [slot_set_eq]
    exact Finset.mem_map_of_mem _ (slot_rect_cover x)

theorem slots_split (M : Memref sig .tc .vmem S32x8x256 .bf16) (c : Dev nD) (q : PosShare TreeShare)
    (f : Buf (Elt F) (M.view.loc (c : Thread nD τ))) :
    (M.view.loc (c : Thread nD τ) ↦[M.view.set]{q} f : sProp 𝕄) = bigSep Finset.univ (fun s : Dev nD => slotPts M s c q f) := by
  rw [← slot_set_cover M]
  exact pointsTo_biUnion Finset.univ _ (fun s _ t _ h => slot_set_disjoint' M s t h)

theorem slots_join (M : Memref sig .tc .vmem S32x8x256 .bf16) (c : Dev nD) (q : PosShare TreeShare)
    (f : Dev nD → Buf (Elt F) (M.view.loc (c : Thread nD τ))) :
    bigSep Finset.univ (fun s : Dev nD => slotPts M s c q (f s))
      ⊢ (iprop(∃ g : Buf (Elt F) (M.view.loc (c : Thread nD τ)), M.view.loc (c : Thread nD τ) ↦[M.view.set]{q} g) : sProp 𝕄) := by
  have h := pointsTo_biUnion_join (nD := nD) (τ := τ) (sig := sig) (Ix := Unit) (Val := Elt F) (Name := ℕ) (U := UU) (Lvl := ℕ) (q := q) (ℓ := M.view.loc (c : Thread nD τ)) (Finset.univ : Finset (Dev nD))
    (fun s => ((slot M s).view.set : Finset M.view.ty.Idx)) f (f c)
    (fun s _ t _ h => slot_set_disjoint' M s t h)
  rw [slot_set_cover M] at h
  refine h.trans ?_
  iintro ⟨%g, -, H⟩
  iexists g
  iexact H

theorem bf_split (c : Dev nD) (f : Buf (Elt F) ((c : Thread nD τ).loc cc0_scratch0)) :
    ((c : Thread nD τ).loc cc0_scratch0 ↦{fullShare} f : sProp 𝕄)
      ⊣⊢ bigSep Finset.univ (fun s : Dev nD => slotPts bfM s c fullShare f) := by
  have h := slots_split bfM c fullShare f
  rw [show bfM.view.set = Finset.univ from View.set_whole cc0_scratch0] at h
  exact BiEntails.of_eq h

theorem rs_split (c : Dev nD) (f : Buf (Elt F) ((c : Thread nD τ).loc cc0_scratch1)) :
    ((c : Thread nD τ).loc cc0_scratch1 ↦{fullShare} f : sProp 𝕄)
      ⊣⊢ bigSep Finset.univ (fun s : Dev nD => slotPts rsM s c fullShare f) := by
  have h := slots_split rsM c fullShare f
  rw [show rsM.view.set = Finset.univ from View.set_whole cc0_scratch1] at h
  exact BiEntails.of_eq h

theorem ag_split (c : Dev nD) (f : Buf (Elt F) ((c : Thread nD τ).loc cc0_scratch2)) :
    ((c : Thread nD τ).loc cc0_scratch2 ↦{fullShare} f : sProp 𝕄)
      ⊣⊢ bigSep Finset.univ (fun s : Dev nD => slotPts agM s c fullShare f) := by
  have h := slots_split agM c fullShare f
  rw [show agM.view.set = Finset.univ from View.set_whole cc0_scratch2] at h
  exact BiEntails.of_eq h

theorem bf_join (c : Dev nD) (f : Dev nD → Buf (Elt F) ((c : Thread nD τ).loc cc0_scratch0)) :
    bigSep Finset.univ (fun s : Dev nD => slotPts bfM s c fullShare (f s)) ⊢ (scr c cc0_scratch0 : sProp 𝕄) := by
  have h := slots_join bfM c fullShare f
  rw [show bfM.view.set = Finset.univ from View.set_whole cc0_scratch0] at h
  exact h

theorem rs_join (c : Dev nD) (f : Dev nD → Buf (Elt F) ((c : Thread nD τ).loc cc0_scratch1)) :
    bigSep Finset.univ (fun s : Dev nD => slotPts rsM s c fullShare (f s)) ⊢ (scr c cc0_scratch1 : sProp 𝕄) := by
  have h := slots_join rsM c fullShare f
  rw [show rsM.view.set = Finset.univ from View.set_whole cc0_scratch1] at h
  exact h

theorem ag_join (c : Dev nD) (f : Dev nD → Buf (Elt F) ((c : Thread nD τ).loc cc0_scratch2)) :
    bigSep Finset.univ (fun s : Dev nD => slotPts agM s c fullShare (f s)) ⊢ (scr c cc0_scratch2 : sProp 𝕄) := by
  have h := slots_join agM c fullShare f
  rw [show agM.view.set = Finset.univ from View.set_whole cc0_scratch2] at h
  exact h

theorem slot_emb (s : Dev nD) (x : S1x8x256.Idx) :
    (Rect.unit (s := S32x8x256) ![s.val, 0, 0] S1x8x256.size (slot_inb s)).emb x
      = ValueIdx.ix3 (n0 := 32) (n1 := 8) (n2 := 256) ⟨s.val, s.isLt⟩ ⟨(x 1).val, (x 1).isLt⟩ ⟨(x 2).val, (x 2).isLt⟩ := by
  have h0 : (x 0).val < 1 := (x 0).isLt
  funext a
  fin_cases a
  · apply Fin.ext; show s.val + 1 * (x 0).val = s.val; omega
  · apply Fin.ext; show 0 + 1 * (x 1).val = (x 1).val; omega
  · apply Fin.ext; show 0 + 1 * (x 2).val = (x 2).val; omega

theorem read_rs_slot (m : (ℓ : Loc nD τ sig) → Buf (Elt F) ℓ) (ρ : Dev nD → PrngReg) (c s : Dev nD) :
    (slot rsM s).view.read (Elt F) (RS m ρ c) = (slot bfM c).view.read (Elt F) (xbf m ρ s) := by
  funext x
  rw [View.read_apply, View.read_apply]
  have e1 : (slot rsM s).view.emb x
      = ValueIdx.ix3 (n0 := 32) (n1 := 8) (n2 := 256) ⟨s.val, s.isLt⟩ ⟨(x 1).val, (x 1).isLt⟩ ⟨(x 2).val, (x 2).isLt⟩ := slot_emb s x
  have e2 : (slot bfM c).view.emb x
      = ValueIdx.ix3 (n0 := 32) (n1 := 8) (n2 := 256) ⟨c.val, c.isLt⟩ ⟨(x 1).val, (x 1).isLt⟩ ⟨(x 2).val, (x 2).isLt⟩ := slot_emb c x
  rw [e1, e2]
  rfl

theorem read_rs (m : (ℓ : Loc nD τ sig) → Buf (Elt F) ℓ) (ρ : Dev nD → PrngReg) (c : Dev nD) (k : ℕ) :
    (slot rsM (peer c k)).view.read (Elt F) (RS m ρ c) = chunk m ρ c k :=
  read_rs_slot m ρ c (peer c k)

theorem read_bf (m : (ℓ : Loc nD τ sig) → Buf (Elt F) ℓ) (ρ : Dev nD → PrngReg) (c : Dev nD) :
    (slot bfM c).view.read (Elt F) (xbf m ρ c) = chunk m ρ c 0 := by
  unfold chunk
  rw [peer_zero]

theorem read_ag (m : (ℓ : Loc nD τ sig) → Buf (Elt F) ℓ) (ρ : Dev nD → PrngReg) (s : Dev nD) :
    (slot agM s).view.read (Elt F) (AG m ρ) = agv m ρ s := by
  funext x
  rw [View.read_apply]
  have e1 : (slot agM s).view.emb x
      = ValueIdx.ix3 (n0 := 32) (n1 := 8) (n2 := 256) ⟨s.val, s.isLt⟩ ⟨(x 1).val, (x 1).isLt⟩ ⟨(x 2).val, (x 2).isLt⟩ := slot_emb s x
  rw [e1]
  have hx : x = ValueIdx.ix3 (n0 := 1) (n1 := 8) (n2 := 256) ⟨0, by decide⟩ ⟨(x 1).val, (x 1).isLt⟩ ⟨(x 2).val, (x 2).isLt⟩ := by
    have h0 : (x 0).val < 1 := (x 0).isLt
    funext a
    fin_cases a
    · apply Fin.ext; show (x 0).val = 0; omega
    · rfl
    · rfl
  conv_rhs => rw [hx]
  rfl

theorem slotPts_write_read (M : Memref sig .tc .vmem S32x8x256 .bf16) (s d : Dev nD) (q : PosShare TreeShare)
    (fd g : Buf (Elt F) ((slot M s).view.loc (d : Thread nD τ))) :
    slotPts M s d q ((slot M s).view.write (Elt F) fd ((slot M s).view.read (Elt F) g) Finset.univ)
      = (slotPts M s d q g : sProp 𝕄) := by
  refine pointsTo_congr fun i hi => ?_
  rw [View.write_read_eq_piecewise, View.setOn_univ, Finset.piecewise_eq_of_mem _ _ _ hi]

theorem land_rs (m : (ℓ : Loc nD τ sig) → Buf (Elt F) ℓ) (ρ : Dev nD → PrngReg) (c s : Dev nD)
    (fd : Buf (Elt F) ((slot rsM s).view.loc (c : Thread nD τ))) :
    slotPts rsM s c fullShare ((slot rsM s).view.write (Elt F) fd ((slot bfM c).view.read (Elt F) (xbf m ρ s)) Finset.univ)
      = (slotPts rsM s c fullShare (RS m ρ c) : sProp 𝕄) := by
  rw [← read_rs_slot m ρ c s]
  exact slotPts_write_read rsM s c fullShare fd (RS m ρ c)

theorem land_ag (m : (ℓ : Loc nD τ sig) → Buf (Elt F) ℓ) (ρ : Dev nD → PrngReg) (c s : Dev nD)
    (fd : Buf (Elt F) ((slot agM s).view.loc (c : Thread nD τ))) :
    slotPts agM s c fullShare ((slot agM s).view.write (Elt F) fd ((slot agM s).view.read (Elt F) (AG m ρ)) Finset.univ)
      = (slotPts agM s c fullShare (AG m ρ) : sProp 𝕄) :=
  slotPts_write_read agM s c fullShare fd (AG m ρ)

theorem store_ag (m : (ℓ : Loc nD τ sig) → Buf (Elt F) ℓ) (ρ : Dev nD → PrngReg) (c : Dev nD)
    (fd : Buf (Elt F) ((c : Thread nD τ).loc cc0_scratch2)) (q : PosShare TreeShare) :
    slotPts agM c c q ((agM.access (Rect.unit (s := S32x8x256) ![c.val, 0, 0] S1x8x256.size (slot_inb c))).write (Elt F) fd (agv m ρ c) Finset.univ)
      = (slotPts agM c c q (AG m ρ) : sProp 𝕄) := by
  rw [← read_ag m ρ c]
  exact slotPts_write_read agM c c q fd (AG m ρ)

theorem ag_halvings (c : Dev nD) (f : Buf (Elt F) ((slot agM c).view.loc (c : Thread nD τ))) (n : ℕ) :
    (slotPts agM c c fullShare f : sProp 𝕄)
      ⊣⊢ iprop((bigSep (Finset.range n) fun j : ℕ => slotPts agM c c (shr j) f) ∗ slotPts agM c c (restShr n) f) := by
  induction n with
  | zero =>
    rw [Finset.range_zero, bigSep_empty]
    constructor
    · iintro H
      isplitr
      · iempintro
      · iexact H
    · iintro ⟨-, H⟩
      iexact H
  | succ n ih =>
    have hs : (slotPts agM c c (restShr n) f : sProp 𝕄)
        ⊣⊢ iprop(slotPts agM c c (restShr (n + 1)) f ∗ slotPts agM c c (shr n) f) :=
      pointsTo_share (PosShare.mem_left_op_right (restShr n))
    have hi : (bigSep (Finset.range (n + 1)) fun j : ℕ => (slotPts agM c c (shr j) f : sProp 𝕄))
        = iprop(slotPts agM c c (shr n) f ∗ bigSep (Finset.range n) fun j : ℕ => slotPts agM c c (shr j) f) := by
      rw [Finset.range_add_one]
      exact bigSep_insert Finset.notMem_range_self
    rw [hi]
    refine ⟨ih.1.trans ?_, BIBase.Entails.trans ?_ ih.2⟩
    · iintro ⟨HB, HR⟩
      ihave HR := hs.1 $$ HR
      icases HR with ⟨HL, HS⟩
      isplitr [HL]
      · isplitl [HS]
        · iexact HS
        · iexact HB
      · iexact HL
    · iintro ⟨⟨HS, HB⟩, HL⟩
      isplitl [HB]
      · iexact HB
      · iapply hs.2
        isplitl [HL]
        · iexact HL
        · iexact HS

theorem ag_shares (c : Dev nD) (f : Buf (Elt F) ((slot agM c).view.loc (c : Thread nD τ))) :
    (slotPts agM c c fullShare f : sProp 𝕄)
      ⊣⊢ iprop((bigSep Finset.univ fun j : Fin 31 => slotPts agM c c (shr j.val) f) ∗ slotPts agM c c (restShr 31) f) := by
  have h := ag_halvings c f 31
  have e : (Finset.univ : Finset (Fin 31)).map Fin.valEmbedding = Finset.range 31 := by
    ext k
    simp only [Finset.mem_map, Finset.mem_univ, true_and, Fin.valEmbedding_apply, Finset.mem_range]
    exact ⟨fun ⟨j, hj⟩ => hj ▸ j.isLt, fun hk => ⟨⟨k, hk⟩, rfl⟩⟩
  rw [← e, bigSep_map] at h
  exact h

end Cert.KernelIdeal.Ring

end
-- ==== Proof.StepsEntry.lean ====
import proofs.«901011_g7700000000001012_dist_rs_then_ag_i_m256_n256_v7x_i32_bf16_1_alg».proof.Proof.Phases
import proofs.«901011_g7700000000001012_dist_rs_then_ag_i_m256_n256_v7x_i32_bf16_1_alg».proof.Proof.Tables
import proofs.«901011_g7700000000001012_dist_rs_then_ag_i_m256_n256_v7x_i32_bf16_1_alg».proof.Proof.Levels
import proofs.«901011_g7700000000001012_dist_rs_then_ag_i_m256_n256_v7x_i32_bf16_1_alg».proof.Proof.Slots

noncomputable section

namespace Cert.KernelIdeal.Ring

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- The devices other than `c` are its 31 successors on the ring. -/
theorem erase_eq_image (c : Dev nD) : (Finset.univ.erase c : Finset (Dev nD)) = (Finset.Ioc 0 31).image (peer c) := by
  ext p
  simp only [Finset.mem_erase, Finset.mem_univ, and_true, Finset.mem_image, Finset.mem_Ioc]
  constructor
  · intro h
    have h1 := dist_pos c p (Ne.symm h)
    have h2 := dist_lt c p
    exact ⟨Mesh.dist c p, ⟨by omega, by omega⟩, peer_dist c p⟩
  · rintro ⟨k, ⟨h1, h2⟩, rfl⟩
    exact peer_ne_self c k (by omega) h2

theorem peer_injOn (c : Dev nD) : Set.InjOn (peer c) (Finset.Ioc 0 31 : Finset ℕ) := by
  intro j hj k hk h
  have hj' := Finset.mem_Ioc.mp (Finset.mem_coe.mp hj)
  have hk' := Finset.mem_Ioc.mp (Finset.mem_coe.mp hk)
  exact peer_inj c j k (by omega) (by omega) h

theorem bigSep_peers (c : Dev nD) (Φ : Dev nD → sProp 𝕄) :
    bigSep (Finset.univ.erase c) Φ = bigSep (Finset.Ioc 0 31) fun k => Φ (peer c k) := by
  rw [erase_eq_image, bigSep_image_of_injOn (peer_injOn c)]

theorem univ31_eq_image : (Finset.univ : Finset (Fin 31)) = (Finset.Ioc 0 31).image jOf := by decide

theorem jOf_injOn : Set.InjOn jOf (Finset.Ioc 0 31 : Finset ℕ) := by
  intro j hj k hk h
  have hj' := Finset.mem_Ioc.mp (Finset.mem_coe.mp hj)
  have hk' := Finset.mem_Ioc.mp (Finset.mem_coe.mp hk)
  have hv : (j - 1) % 31 = (k - 1) % 31 := congrArg Fin.val h
  omega

theorem bigSep_sends (Φ : Fin 31 → sProp 𝕄) :
    bigSep Finset.univ Φ = bigSep (Finset.Ioc 0 31) fun k => Φ (jOf k) := by
  rw [univ31_eq_image, bigSep_image_of_injOn jOf_injOn]

/-- The peers after the `a`-th: the next one, and those after it. -/
theorem bigSep_peel (Φ : ℕ → sProp 𝕄) (a : ℕ) (h : a < 31) :
    bigSep (Finset.Ioc a 31) Φ = iprop(Φ (a + 1) ∗ bigSep (Finset.Ioc (a + 1) 31) Φ) := by
  rw [Ioc_peel a h, bigSep_insert (by simp only [Finset.mem_Ioc]; omega)]; rfl

/-- The first `b + 1` peers: the last of them, and the first `b`. -/
theorem bigSep_grow (Φ : ℕ → sProp 𝕄) (b : ℕ) :
    bigSep (Finset.Ioc 0 (b + 1)) Φ = iprop(Φ (b + 1) ∗ bigSep (Finset.Ioc 0 b) Φ) := by
  rw [show Finset.Ioc 0 (b + 1) = insert (b + 1) (Finset.Ioc 0 b) from by
    ext k; simp only [Finset.mem_Ioc, Finset.mem_insert]; omega]
  exact bigSep_insert (by simp only [Finset.mem_Ioc]; omega)

theorem jOf_succ_val (b : ℕ) (hb : b < 31) : (jOf (b + 1)).val = b := by
  show (b + 1 - 1) % 31 = b
  rw [Nat.add_sub_cancel, Nat.mod_eq_of_lt hb]

/-- Every cell's invariant is on record. -/
theorem records_inv (m : (ℓ : Loc nD τ sig) → Buf (Elt F) ℓ) (ρ : Dev nD → PrngReg) (K : Dev nD × CellIx → ℕ) (ck : Dev nD × CellIx) :
    records m ρ K ⊢ cellInv ER (ringRd m ρ) (K ck) (kcell ck) := by
  unfold records
  have h : iprop(bigSep Finset.univ fun ck : Dev nD × CellIx => cellInv ER (ringRd m ρ) (K ck) (kcell ck))
      ⊢ iprop(cellInv ER (ringRd m ρ) (K ck) (kcell ck)) := bigSep_elim (Finset.mem_univ ck)
  iintro ⟨H, -⟩
  iapply h $$ H

theorem records_reached (m : (ℓ : Loc nD τ sig) → Buf (Elt F) ℓ) (ρ : Dev nD → PrngReg) (K : Dev nD × CellIx → ℕ) (ck : Dev nD × CellIx) :
    records m ρ K ⊢ reached ER (kcell ck) 0 := by
  unfold records
  have h : iprop(bigSep Finset.univ fun ck : Dev nD × CellIx => (reached ER (kcell ck) 0 : sProp 𝕄))
      ⊢ iprop(reached ER (kcell ck) 0) := bigSep_elim (Finset.mem_univ ck)
  iintro ⟨-, H⟩
  iapply h $$ H

theorem step_signal (m : (ℓ : Loc nD τ sig) → Buf (Elt F) ℓ) (ρ : Dev nD → PrngReg)
    (K : Dev nD × CellIx → ℕ) (c n : Dev nD) (a : ℕ) (ha : a < 31) (hn : n = peer c (a + 1))
    {α : Type} (kk : PUnit → Prog (TpuEff nD τ sig (Elt F) Λ₀ .tc) α) (Q : α → sProp 𝕄) :
    iprop(records m ρ K ∗ sigRes (F := F) c a ∗ owesX c (owedAt c a 0 0))
      ⊢ iprop(((sigRes (F := F) c (a + 1) ∗ owesX c (owedAt c (a + 1) 0 0)) -∗ wp frame (wpE (defs₀ (F := F)) 𝒱₀ (c : Thread nD τ) none) Set.univ (kk ⟨⟩) Q)
          -∗ wp frame (wpE (defs₀ (F := F)) 𝒱₀ (c : Thread nD τ) none) Set.univ (Prog.op (TpuEff.semSignal (n : Thread nD τ) barS 1) kk) Q) := by
  subst hn
  unfold sigRes owesX
  rw [bigSep_peel _ a ha]
  iintro ⟨#Hrec, ⟨⟨Htok, Hs1, Hs2⟩, Hrest⟩, ⟨%W, HO⟩⟩ Hk
  ihave HI := (records_inv m ρ K (peer c (a + 1), Sum.inl ())) $$ Hrec
  ihave HR := (records_reached m ρ K (peer c (a + 1), Sum.inl ())) $$ Hrec
  iapply (Rounds.wp_signal 𝒱₀ ER (ringRd m ρ) (c : Thread nD τ) none (dst := (peer c (a + 1) : Thread nD τ)) (sem := barS)
      (κ := K (peer c (a + 1), Sum.inl ())) (r := 0) (d := c) (k' := 1)
      (by rw [duties_bar]; exact Finset.mem_erase.mpr ⟨(peer_ne_self c (a + 1) (by omega) (by omega)).symm, Finset.mem_univ _⟩)
      (amount_bar m ρ (peer c (a + 1)) c) () (owedAt c (a + 1) 0 0) (owedAt_bar c a 0 0 ha)) $$ [HO Htok Hs1 Hs2]
  · isplitr; · iexact HI
    isplitl [HO]; · iexact HO
    isplitl [Htok]; · iexact Htok
    isplitl [Hs1 Hs2]
    · rw [payload_bar]; unfold barPay
      isplitl [Hs1]; · iexact Hs1
      iexact Hs2
    · iexact HR
  iintro HO
  iapply Hk
  isplitl [Hrest]; · iexact Hrest
  iexists W; iexact HO

theorem step_barwait (m : (ℓ : Loc nD τ sig) → Buf (Elt F) ℓ) (ρ : Dev nD → PrngReg)
    (K : Dev nD × CellIx → ℕ) (c : Dev nD)
    {α : Type} (kk : PUnit → Prog (TpuEff nD τ sig (Elt F) Λ₀ .tc) α) (Q : α → sProp 𝕄) :
    iprop(records m ρ K ∗ levAts L lv ∗ cred (tallyAt (barC c) () 31) ∗ owesX c (owedAt c 31 0 0) ∗ atPos ER (barC c) 0 ∅ 0)
      ⊢ iprop(((owesX c (owedAt c 31 0 0) ∗ atPos ER (barC c) 1 ∅ 0 ∗ gotBar (F := F) c) -∗ wp frame (wpE (defs₀ (F := F)) 𝒱₀ (c : Thread nD τ) none) Set.univ (kk ⟨⟩) Q)
          -∗ wp frame (wpE (defs₀ (F := F)) 𝒱₀ (c : Thread nD τ) none) Set.univ (Prog.op (TpuEff.semWait barS 31) kk) Q) := by
  unfold owesX gotBar
  iintro ⟨#Hrec, #Hlev, Hc, ⟨%W, HO⟩, Hat⟩ Hk
  ihave HI := (records_inv m ρ K (c, Sum.inl ())) $$ Hrec
  iapply (Rounds.wp_wait_rest_token 𝒱₀ ER (ringRd m ρ) (c : Thread nD τ) none (κ := K (c, Sum.inl ()))
      (wpE_semWait_eq 𝒱₀ (c : Thread nD τ) none Set.univ) (Set.mem_univ _) () (O := owedAt c 31 0 0) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  iapply Hk
  isplitl [HO]; · iexists (insert (SemLoc.reg barS, ()) W); iexact HO
  isplitl [Hat]; · iexact Hat
  rw [← bigSep_peers c (fun p => barPay (F := F) c p)]
  iapply (Entails.of_eq (rest_bar m ρ c)) $$ Hpay

theorem positions_eq (c : Dev nD) :
    positions (F := F) c = iprop(atPos ER (barC c) 0 ∅ 0
      ∗ (bigSep Finset.univ fun j : Fin 31 => (atPos ER (rsS c j) 0 ∅ 0 : sProp 𝕄))
      ∗ (bigSep Finset.univ fun s : Dev nD => (atPos ER (rsR c s) 0 ∅ 0 : sProp 𝕄))
      ∗ (bigSep Finset.univ fun j : Fin 31 => (atPos ER (agS c j) 0 ∅ 0 : sProp 𝕄))
      ∗ (bigSep Finset.univ fun s : Dev nD => (atPos ER (agR c s) 0 ∅ 0 : sProp 𝕄))) := by
  unfold positions
  rw [bigSep_univ_sum, bigSep_univ_sum, bigSep_univ_sum, bigSep_univ_sum, bigSep_univ_of_subsingleton ()]
  rfl

theorem bigSep_devs (c : Dev nD) (Φ : Dev nD → sProp 𝕄) :
    bigSep Finset.univ Φ = iprop(Φ c ∗ bigSep (Finset.Ioc 0 31) fun k => Φ (peer c k)) := by
  rw [bigSep_univ_at Φ c, bigSep_peers]

theorem prep_pos (c : Dev nD) :
    iprop(positions (F := F) c ∗ credits (F := F) c)
      ⊢ iprop(atPos ER (barC c) 0 ∅ 0 ∗ cred (tallyAt (barC c) () 31) ∗ rsRecvRes (F := F) c 0 ∗ agRecvRes (F := F) c 0 ∗ rsSpos (F := F) c ∗ agSpos (F := F) c
          ∗ atPos ER (rsR c c) 0 ∅ 0 ∗ atPos ER (agR c c) 0 ∅ 0) := by
  unfold credits rsRecvRes agRecvRes rsSpos agSpos
  rw [positions_eq, bigSep_sends, bigSep_sends, bigSep_devs c, bigSep_devs c, bigSep_peers, bigSep_peers, bigSep_sep', bigSep_sep']
  iintro ⟨⟨Hb, HrsS, ⟨HrsRc, HrsR⟩, HagS, ⟨HagRc, HagR⟩⟩, Hcb, HcrsR, HcagR⟩
  isplitl [Hb]; · iexact Hb
  isplitl [Hcb]; · iexact Hcb
  isplitl [HcrsR HrsR]
  · isplitl [HcrsR]; · iexact HcrsR
    iexact HrsR
  isplitl [HcagR HagR]
  · isplitl [HcagR]; · iexact HcagR
    iexact HagR
  isplitl [HrsS]; · iexact HrsS
  isplitl [HagS]; · iexact HagS
  isplitl [HrsRc]; · iexact HrsRc
  iexact HagRc

theorem bigSep_zip4 (S : Finset ℕ) (A B C D X Y : ℕ → sProp 𝕄)
    (h : ∀ k ∈ S, iprop(A k ∗ B k ∗ C k ∗ D k) ⊢ iprop(X k ∗ Y k)) :
    iprop(bigSep S A ∗ bigSep S B ∗ bigSep S C ∗ bigSep S D) ⊢ iprop(bigSep S X ∗ bigSep S Y) := by
  rw [← bigSep_sep', ← bigSep_sep', ← bigSep_sep', ← bigSep_sep']
  exact bigSep_mono h

theorem entry_regroup (c : Dev nD) (f3 : Buf (Elt F) ((c : Thread nD τ).loc cc0_scratch1)) (f4 : Buf (Elt F) ((c : Thread nD τ).loc cc0_scratch2)) :
    iprop((bigSep (Finset.Ioc 0 31) fun k => iprop(dutyTok ER (barC (peer c k)) 0 c ∗ dutyTok ER (rsR (peer c k) c) 0 c ∗ dutyTok ER (agR (peer c k) c) 0 c))
        ∗ (bigSep Finset.univ fun j : Fin 31 => iprop(dutyTok ER (rsS c j) 0 c ∗ dutyTok ER (agS c j) 0 c))
        ∗ (bigSep (Finset.Ioc 0 31) fun k => slotPts rsM (peer c k) c fullShare f3)
        ∗ (bigSep (Finset.Ioc 0 31) fun k => slotPts agM (peer c k) c fullShare f4))
      ⊢ iprop(sigRes (F := F) c 0 ∗ otherToks (F := F) c) := by
  unfold sigRes otherToks
  rw [bigSep_sends]
  refine bigSep_zip4 _ _ _ _ _ _ _ fun k _ => ?_
  iintro ⟨⟨Hb, Hr, Ha⟩, ⟨Hs, Hg⟩, H3, H4⟩
  isplitl [Hb H3 H4]
  · isplitl [Hb]; · iexact Hb
    isplitl [H3]; · iexists f3; iexact H3
    iexists f4; iexact H4
  isplitl [Hs]; · iexact Hs
  isplitl [Hr]; · iexact Hr
  isplitl [Hg]; · iexact Hg
  iexact Ha

theorem prep_entry (m : (ℓ : Loc nD τ sig) → Buf (Elt F) ℓ) (ρ : Dev nD → PrngReg)
    (K : Dev nD × CellIx → ℕ) (c : Dev nD) (f3 : Buf (Elt F) ((c : Thread nD τ).loc cc0_scratch1)) (f4 : Buf (Elt F) ((c : Thread nD τ).loc cc0_scratch2)) :
    iprop(ghost m ρ K c ∗ ((c : Thread nD τ).loc cc0_scratch1 ↦{fullShare} f3) ∗ ((c : Thread nD τ).loc cc0_scratch2 ↦{fullShare} f4))
      ⊢ iprop(records m ρ K ∗ positions (F := F) c ∗ sigRes (F := F) c 0 ∗ otherToks (F := F) c ∗ slotPts rsM c c fullShare f3 ∗ slotPts agM c c fullShare f4) := by
  have e3 : iprop((c : Thread nD τ).loc cc0_scratch1 ↦{fullShare} f3)
      ⊢ iprop(slotPts rsM c c fullShare f3 ∗ bigSep (Finset.Ioc 0 31) fun k => slotPts rsM (peer c k) c fullShare f3) := by
    rw [← bigSep_devs c (fun s => slotPts rsM s c fullShare f3)]; exact (rs_split c f3).mp
  have e4 : iprop((c : Thread nD τ).loc cc0_scratch2 ↦{fullShare} f4)
      ⊢ iprop(slotPts agM c c fullShare f4 ∗ bigSep (Finset.Ioc 0 31) fun k => slotPts agM (peer c k) c fullShare f4) := by
    rw [← bigSep_devs c (fun s => slotPts agM s c fullShare f4)]; exact (ag_split c f4).mp
  unfold ghost payToks
  iintro ⟨⟨Hrec, Hpos, Htk, Hsend⟩, H3, H4⟩
  ihave ⟨H3c, H3p⟩ := e3 $$ H3
  ihave ⟨H4c, H4p⟩ := e4 $$ H4
  ihave ⟨Hsig, Hoth⟩ := (entry_regroup c f3 f4) $$ [Htk Hsend H3p H4p]
  · isplitl [Htk]; · iexact Htk
    isplitl [Hsend]; · iexact Hsend
    isplitl [H3p]; · iexact H3p
    iexact H4p
  isplitl [Hrec]; · iexact Hrec
  isplitl [Hpos]; · iexact Hpos
  isplitl [Hsig]; · iexact Hsig
  isplitl [Hoth]; · iexact Hoth
  isplitl [H3c]; · iexact H3c
  iexact H4c

end Cert.KernelIdeal.Ring

end
-- ==== Proof.StepsRs.lean ====
import proofs.«901011_g7700000000001012_dist_rs_then_ag_i_m256_n256_v7x_i32_bf16_1_alg».proof.Proof.StepsEntry

noncomputable section

namespace Cert.KernelIdeal.Ring

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

private theorem rs_credit (s : Dev nD) : (slot rsM s).view.dmaCredit = N := rfl

/-- Chunk `b + 1` leaves for its peer's receive slot; the departure's credit comes back. -/
theorem step_rs_send (m : (ℓ : Loc nD τ sig) → Buf (Elt F) ℓ) (ρ : Dev nD → PrngReg) (K : Dev nD × CellIx → ℕ) (c n : Dev nD) (b : ℕ) (hb : b < 31) (hn : n = peer c (b + 1))
    (src dst : Memref sig .tc .vmem S1x8x256 .bf16) (hs : src = slot bfM (peer c (b + 1))) (hd : dst = slot rsM c)
    (sS sR : DmaSem sig) (hsS : sS = sem31 cc0_scratch3 (jOf (b + 1))) (hsR : sR = sem32 cc0_scratch4 c)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} (kk : PUnit → Prog (TpuEff nD τ sig (Elt F) Λ₀ .tc) α) (Q : α → sProp 𝕄) :
    iprop(records m ρ K ∗ rsSendRes m ρ c b ∗ rsSent (F := F) c b ∗ owesX c (owedAt c 31 b 0))
      ⊢ iprop(((rsSendRes m ρ c (b + 1) ∗ rsSent (F := F) c (b + 1) ∗ owesX c (owedAt c 31 (b + 1) 0)) -∗ wp frame (wpE (defs₀ (F := F)) 𝒱₀ (c : Thread nD τ) none) Set.univ (kk ⟨⟩) Q)
          -∗ wp frame (wpE (defs₀ (F := F)) 𝒱₀ (c : Thread nD τ) none) Set.univ (Prog.op (TpuEff.enqueueDma src (.remote (Dev.tc n : Thread nD τ) dst (.dma sS) hsc) (.dma sR) hsrc hdst hsem) kk) Q) := by
  subst hn hs hd hsS hsR
  have hne : c ≠ peer c (b + 1) := fun h => peer_ne_self c (b + 1) (by omega) (by omega) h.symm
  have hj : (jOf (b + 1)).val = b := jOf_succ_val b hb
  unfold rsSendRes rsSent owesX
  rw [bigSep_peel _ b hb, bigSep_grow]
  iintro ⟨#Hrec, ⟨⟨Hsrc, ⟨%fd, Hdst⟩, HtS, HtR⟩, Hrest⟩, Hsent, ⟨%W, HO⟩⟩ Hk
  ihave #HI1 := (records_inv m ρ K (c, .inr (.inl (jOf (b + 1))))) $$ Hrec
  ihave #HI2 := (records_inv m ρ K (peer c (b + 1), .inr (.inr (.inl c)))) $$ Hrec
  ihave #HR1 := (records_reached m ρ K (c, .inr (.inl (jOf (b + 1))))) $$ Hrec
  ihave #HR2 := (records_reached m ρ K (peer c (b + 1), .inr (.inr (.inl c)))) $$ Hrec
  iapply (Rounds.wp_send_pointsTo 𝒱₀ ER (ringRd m ρ) (c : Thread nD τ) none
      (c' := (peer c (b + 1) : Thread nD τ)) (src := slot bfM (peer c (b + 1))) (dst := slot rsM c)
      (sS := .dma (sem31 cc0_scratch3 (jOf (b + 1)))) (sem := .dma (sem32 cc0_scratch4 c))
      (q := fullShare) (fs := xbf m ρ c) (fd := fd)
      (κ₁ := K (c, .inr (.inl (jOf (b + 1))))) (κ₂ := K (peer c (b + 1), .inr (.inr (.inl c))))
      (r₁ := 0) (r₂ := 0) (d₁ := c) (d₂ := c)
      (by rw [duties_rsS]; exact Finset.mem_singleton_self _)
      (by rw [duties_rsR m ρ (peer c (b + 1)) c hne]; exact Finset.mem_singleton_self _)
      () () N (rs_credit c) (amount_rsS m ρ c (jOf (b + 1)) c) (amount_rsR m ρ (peer c (b + 1)) c c)
      (owedAt c 31 (b + 1) 0) (owedAt_rs c 31 b 0 hb) (W := W)
      (by rw [payload_rsS, hj])
      (by rw [payload_rsR, ← land_rs m ρ (peer c (b + 1)) c fd]))
    $$ [Hsrc Hdst HO HtS HtR]
  · isplitr; · iexact HI1
    isplitr; · iexact HI2
    isplitl [Hsrc]; · iexact Hsrc
    isplitl [Hdst]; · iexact Hdst
    isplitl [HO]; · iexact HO
    isplitl [HtS]; · iexact HtS
    isplitr; · iexact HR1
    isplitl [HtR]; · iexact HtR
    iexact HR2
  iintro ⟨Hc, HO⟩
  iapply Hk
  isplitl [Hrest]; · iexact Hrest
  isplitl [Hc Hsent]
  · isplitl [Hc]; · iexact Hc
    iexact Hsent
  iexists W
  iexact HO

/-- The chunk of peer `b + 1` has landed: its slot comes back at the sender's contents. -/
theorem step_rs_wait (m : (ℓ : Loc nD τ sig) → Buf (Elt F) ℓ) (ρ : Dev nD → PrngReg) (K : Dev nD × CellIx → ℕ) (c : Dev nD) (b : ℕ) (hb : b < 31)
    (sR : DmaSem sig) (hsR : sR = sem32 cc0_scratch4 (peer c (b + 1)))
    (v1 v2 : Memref sig .tc .vmem S1x8x256 .bf16) {h1 : v1.view.WordExact} {h2 : v2.view.WordExact}
    (hv : v2.view.dmaCredit = N) {α : Type} (kk : PUnit → Prog (TpuEff nD τ sig (Elt F) Λ₀ .tc) α) (Q : α → sProp 𝕄) :
    iprop(records m ρ K ∗ levAts L lv ∗ rsRecvRes (F := F) c b ∗ owesX c (owedAt c 31 31 0))
      ⊢ iprop(((rsRecvRes (F := F) c (b + 1) ∗ (slotPts rsM (peer c (b + 1)) c fullShare (RS m ρ c) ∗ atPos ER (rsR c (peer c (b + 1))) 1 ∅ 0)
              ∗ owesX c (owedAt c 31 31 0)) -∗ wp frame (wpE (defs₀ (F := F)) 𝒱₀ (c : Thread nD τ) none) Set.univ (kk ⟨⟩) Q)
          -∗ wp frame (wpE (defs₀ (F := F)) 𝒱₀ (c : Thread nD τ) none) Set.univ (Prog.op (TpuEff.waitDma2 sR v1 v2 h1 h2) kk) Q) := by
  subst hsR
  have hne : peer c (b + 1) ≠ c := peer_ne_self c (b + 1) (by omega) (by omega)
  unfold rsRecvRes owesX
  rw [bigSep_peel _ b hb]
  iintro ⟨#Hrec, Hlev, ⟨⟨Hc, Hat⟩, Hrest⟩, ⟨%W, HO⟩⟩ Hk
  ihave #HI := (records_inv m ρ K (c, .inr (.inr (.inl (peer c (b + 1)))))) $$ Hrec
  iapply (Rounds.wp_wait_rest_token 𝒱₀ ER (ringRd m ρ) (c : Thread nD τ) none (κ := K (c, .inr (.inr (.inl (peer c (b + 1))))))
      (wpE_waitDma2_eq 𝒱₀ (c : Thread nD τ) none Set.univ) (Set.mem_univ _) () (O := owedAt c 31 31 0) (W := W) (R := 0) (m := 0) (T := ∅)
      (by rw [Nat.zero_add, expect_rsR m ρ c (peer c (b + 1)) hne, hv])) $$ [Hc HO Hlev Hat]
  · isplitr; · iexact HI
    isplitl [Hc]; · rw [hv]; iexact Hc
    isplitl [HO]; · iexact HO
    isplitl [Hlev]; · iapply (mayWait_rsR c (peer c (b + 1))); iexact Hlev
    iexact Hat
  iintro ⟨HO, Hat, -, Hpay⟩
  ihave Hslot := (Entails.of_eq (rest_rsR m ρ c (peer c (b + 1)) hne)) $$ Hpay
  iapply Hk
  isplitl [Hrest]; · iexact Hrest
  isplitl [Hslot Hat]
  · isplitl [Hslot]; · iexact Hslot
    iexact Hat
  iexists (insert (SemLoc.dma (sem32 cc0_scratch4 (peer c (b + 1))), ()) W)
  iexact HO

private theorem rs_setOn_slot (M : Memref sig .tc .vmem S32x8x256 .bf16) (s : Dev nD)
    (inb : ∀ a, (![s.val, 0, 0] : Fin 3 → ℕ) a + S1x8x256.size a ≤ S32x8x256.size a) :
    M.view.setOn (Rect.unit (s := S32x8x256) ![s.val, 0, 0] S1x8x256.size inb).toLoadRect.set ⊆ (slot M s).view.set := by
  rw [slot_set_eq]; exact subset_rfl

private theorem rs_readAt_slot (M : Memref sig .tc .vmem S32x8x256 .bf16) (s : Dev nD)
    (inb : ∀ a, (![s.val, 0, 0] : Fin 3 → ℕ) a + S1x8x256.size a ≤ S32x8x256.size a) (f : M.view.ty.Contents (Elt F)) :
    M.view.readAt (Elt F) (Rect.unit (s := S32x8x256) ![s.val, 0, 0] S1x8x256.size inb).toLoadRect f
      = (slot M s).view.read (Elt F) f := rfl

theorem step_rs_load (m : (ℓ : Loc nD τ sig) → Buf (Elt F) ℓ) (ρ : Dev nD → PrngReg) (c : Dev nD) (k : ℕ) (off : Fin 3 → ℕ) (hoff : off = ![(peer c k).val, 0, 0]) (inb : ∀ a, off a + S1x8x256.size a ≤ S32x8x256.size a)
    {hl : (rsM : Memref sig .tc .vmem S32x8x256 .bf16).view.LoadsAt (Rect.unit (s := S32x8x256) off S1x8x256.size inb).toLoadRect}
    {α : Type} (kk : Vec F S1x8x256 .bf16 → Prog (TpuEff nD τ sig (Elt F) Λ₀ .tc) α) (Q : α → sProp 𝕄) :
    iprop(slotPts rsM (peer c k) c fullShare (RS m ρ c))
      ⊢ iprop((slotPts rsM (peer c k) c fullShare (RS m ρ c) -∗ wp frame (wpE (defs₀ (F := F)) 𝒱₀ (c : Thread nD τ) none) Set.univ (kk (chunk m ρ c k)) Q)
          -∗ wp frame (wpE (defs₀ (F := F)) 𝒱₀ (c : Thread nD τ) none) Set.univ (Prog.op (TpuEff.load rsM (Rect.unit (s := S32x8x256) off S1x8x256.size inb).toLoadRect hl) kk) Q) := by
  subst hoff
  have e : (rsM : Memref sig .tc .vmem S32x8x256 .bf16).view.readAt (Elt F) (Rect.unit (s := S32x8x256) ![(peer c k).val, 0, 0] S1x8x256.size inb).toLoadRect (RS m ρ c)
      = chunk m ρ c k := (rs_readAt_slot rsM (peer c k) inb (RS m ρ c)).trans (read_rs m ρ c k)
  iintro H Hk
  iapply (wp_load 𝒱₀ (c : Thread nD τ) none Set.univ (m := rsM) (rs_setOn_slot rsM (peer c k) inb)) $$ H
  iintro H
  rw [e]
  iapply Hk
  iexact H

theorem prep_rs (m : (ℓ : Loc nD τ sig) → Buf (Elt F) ℓ) (ρ : Dev nD → PrngReg) (c : Dev nD) :
    iprop((((c : Thread nD τ).loc cc0_scratch0) ↦{fullShare} xbf m ρ c) ∗ gotBar (F := F) c ∗ otherToks (F := F) c)
      ⊢ iprop(slotPts bfM c c fullShare (xbf m ρ c) ∗ rsSendRes m ρ c 0 ∗ rsSent (F := F) c 0 ∗ agDst (F := F) c ∗ agToks (F := F) c) := by
  unfold gotBar otherToks rsSendRes rsSent agDst agToks barPay
  rw [Finset.Ioc_self, bigSep_empty]
  refine (sep_mono_left (bf_split (F := F) c (xbf m ρ c)).1).trans ?_
  rw [bigSep_univ_at _ c, bigSep_peers c]
  have key : iprop((bigSep (Finset.Ioc 0 31) fun k => slotPts bfM (peer c k) c fullShare (xbf m ρ c))
        ∗ (bigSep (Finset.Ioc 0 31) fun k => iprop((∃ f, slotPts (F := F) rsM c (peer c k) fullShare f) ∗ (∃ f, slotPts (F := F) agM c (peer c k) fullShare f)))
        ∗ (bigSep (Finset.Ioc 0 31) fun k => iprop(tokRsS (F := F) c k ∗ tokRsR c k ∗ tokAgS c k ∗ tokAgR c k)))
      ⊢ iprop((bigSep (Finset.Ioc 0 31) fun k => iprop(slotPts bfM (peer c k) c fullShare (xbf m ρ c) ∗ (∃ f, slotPts rsM c (peer c k) fullShare f) ∗ tokRsS (F := F) c k ∗ tokRsR c k))
        ∗ (bigSep (Finset.Ioc 0 31) fun k => iprop(∃ f, slotPts (F := F) agM c (peer c k) fullShare f))
        ∗ (bigSep (Finset.Ioc 0 31) fun k => iprop(tokAgS (F := F) c k ∗ tokAgR c k))) := by
    rw [← bigSep_sep', ← bigSep_sep', ← bigSep_sep', ← bigSep_sep']
    refine bigSep_mono fun k _ => ?_
    show (_ : sProp 𝕄) ⊢ (_ : sProp 𝕄)
    iintro ⟨Hsrc, ⟨Hrs, Hag⟩, HtS, HtR, HaS, HaR⟩
    isplitl [Hsrc Hrs HtS HtR]
    · isplitl [Hsrc]; · iexact Hsrc
      isplitl [Hrs]; · iexact Hrs
      isplitl [HtS]; · iexact HtS
      iexact HtR
    isplitl [Hag]; · iexact Hag
    isplitl [HaS]; · iexact HaS
    iexact HaR
  iintro ⟨⟨Hown, Hoth⟩, Hbar, Htok⟩
  ihave H := key $$ [Hoth Hbar Htok]
  · isplitl [Hoth]; · iexact Hoth
    isplitl [Hbar]; · iexact Hbar
    iexact Htok
  icases H with ⟨Hsend, Hdst, Htok⟩
  isplitl [Hown]; · iexact Hown
  isplitl [Hsend]; · iexact Hsend
  isplitr; · iempintro
  isplitl [Hdst]; · iexact Hdst
  iexact Htok

end Cert.KernelIdeal.Ring

end
-- ==== Proof.StepsAg.lean ====
import proofs.«901011_g7700000000001012_dist_rs_then_ag_i_m256_n256_v7x_i32_bf16_1_alg».proof.Proof.StepsEntry

noncomputable section

namespace Cert.KernelIdeal.Ring

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem ag_Ioc_eq_map :
    (Finset.univ : Finset (Fin 31)).map ⟨fun j => j.val + 1, fun a b h => Fin.ext (Nat.add_right_cancel h)⟩ = Finset.Ioc 0 31 := by
  ext k
  rw [Finset.mem_map, Finset.mem_Ioc]
  constructor
  · rintro ⟨j, _, hj⟩
    have h1 : j.val + 1 = k := hj
    have h2 := j.isLt
    omega
  · intro h
    exact ⟨⟨k - 1, by omega⟩, Finset.mem_univ _, by show k - 1 + 1 = k; omega⟩

theorem ag_shares_by_peer (c : Dev nD) (f : Buf (Elt F) ((slot agM c).view.loc (c : Thread nD τ))) :
    (bigSep Finset.univ fun j : Fin 31 => slotPts agM c c (shr j.val) f : sProp 𝕄)
      = bigSep (Finset.Ioc 0 31) fun k => slotPts agM c c (shr (k - 1)) f := by
  rw [← ag_Ioc_eq_map, bigSep_map]
  refine bigSep_congr fun j _ => ?_
  show _ = slotPts agM c c (shr (j.val + 1 - 1)) f
  rw [Nat.add_sub_cancel]

theorem prep_ag (c : Dev nD) :
    iprop(slotPts agM c c fullShare (AG m ρ) ∗ agDst (F := F) c ∗ agToks (F := F) c)
      ⊢ iprop(agSendRes m ρ c 0 ∗ agSent (F := F) c 0 ∗ slotPts agM c c (restShr 31) (AG m ρ)) := by
  unfold agSendRes agSent agDst agToks
  rw [Finset.Ioc_self, bigSep_empty,
    bigSep_sep' (Finset.Ioc 0 31) (fun k => slotPts agM c c (shr (k - 1)) (AG m ρ))
      (fun k => iprop((∃ f, slotPts (F := F) agM c (peer c k) fullShare f) ∗ tokAgS (F := F) c k ∗ tokAgR c k)),
    bigSep_sep' (Finset.Ioc 0 31) (fun k => iprop(∃ f, slotPts (F := F) agM c (peer c k) fullShare f))
      (fun k => iprop(tokAgS (F := F) c k ∗ tokAgR c k))]
  iintro ⟨H, HD, HT⟩
  ihave H' := (ag_shares c (AG m ρ)).mp $$ H
  icases H' with ⟨HA, HR⟩
  ihave HA' := (Entails.of_eq (ag_shares_by_peer c (AG m ρ))) $$ HA
  isplitl [HA' HD HT]
  · isplitl [HA']; · iexact HA'
    isplitl [HD]; · iexact HD
    iexact HT
  · isplitr; · iempintro
    iexact HR

theorem ag_cell_at (K : Dev nD × CellIx → ℕ) (ck : Dev nD × CellIx) :
    records m ρ K ⊢ iprop(cellInv ER (ringRd m ρ) (K ck) (kcell ck) ∗ reached ER (kcell ck) 0) := by
  unfold records
  exact BIClass.sep_mono (bigSep_elim (Finset.mem_univ ck)) (bigSep_elim (Finset.mem_univ ck))

theorem ag_cell_agS (K : Dev nD × CellIx → ℕ) (c : Dev nD) (j : Fin 31) :
    records m ρ K ⊢ iprop(cellInv ER (ringRd m ρ) (K (c, Sum.inr (Sum.inr (Sum.inr (Sum.inl j))))) (agS c j) ∗ reached ER (agS c j) 0) :=
  ag_cell_at m ρ K (c, Sum.inr (Sum.inr (Sum.inr (Sum.inl j))))

theorem ag_cell_agR (K : Dev nD × CellIx → ℕ) (c s : Dev nD) :
    records m ρ K ⊢ iprop(cellInv ER (ringRd m ρ) (K (c, Sum.inr (Sum.inr (Sum.inr (Sum.inr s))))) (agR c s) ∗ reached ER (agR c s) 0) :=
  ag_cell_at m ρ K (c, Sum.inr (Sum.inr (Sum.inr (Sum.inr s))))

theorem ag_credit (s : Dev nD) : (slot agM s).view.dmaCredit = N := rfl

/-- The summed rows leave for peer `g + 1` under the `g`-th half-share of the own slot. -/
theorem step_ag_send (K : Dev nD × CellIx → ℕ) (c n : Dev nD) (g : ℕ) (hg : g < 31) (hn : n = peer c (g + 1))
    (src dst : Memref sig .tc .vmem S1x8x256 .bf16) (hs : src = slot agM c) (hd : dst = slot agM c)
    (sS sR : DmaSem sig) (hsS : sS = sem31 cc0_scratch5 (jOf (g + 1))) (hsR : sR = sem32 cc0_scratch6 c)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} (kk : PUnit → Prog (TpuEff nD τ sig (Elt F) Λ₀ .tc) α) (Q : α → sProp 𝕄) :
    iprop(records m ρ K ∗ agSendRes m ρ c g ∗ agSent (F := F) c g ∗ owesX c (owedAt c 31 31 g))
      ⊢ iprop(((agSendRes m ρ c (g + 1) ∗ agSent (F := F) c (g + 1) ∗ owesX c (owedAt c 31 31 (g + 1))) -∗ wp frame (wpE (defs₀ (F := F)) 𝒱₀ (c : Thread nD τ) none) Set.univ (kk ⟨⟩) Q)
          -∗ wp frame (wpE (defs₀ (F := F)) 𝒱₀ (c : Thread nD τ) none) Set.univ (Prog.op (TpuEff.enqueueDma src (.remote (Dev.tc n : Thread nD τ) dst (.dma sS) hsc) (.dma sR) hsrc hdst hsem) kk) Q) := by
  subst hn hs hd hsS hsR
  have hj : (jOf (g + 1)).val = g := jOf_succ_val g hg
  have hne : c ≠ peer c (g + 1) := (peer_ne_self c (g + 1) (by omega) (by omega)).symm
  unfold agSendRes agSent owesX
  rw [bigSep_peel _ g hg, bigSep_grow _ g, Nat.add_sub_cancel]
  iintro ⟨#Hrec, ⟨⟨Hsrc, ⟨%fd, Hdst⟩, HtS, HtR⟩, Hrest⟩, Hsent, ⟨%W, HO⟩⟩ Hk
  ihave #H1 := (ag_cell_agS m ρ K c (jOf (g + 1))) $$ Hrec
  icases H1 with ⟨#HI1, #HR1⟩
  ihave #H2 := (ag_cell_agR m ρ K (peer c (g + 1)) c) $$ Hrec
  icases H2 with ⟨#HI2, #HR2⟩
  iapply (Rounds.wp_send_pointsTo 𝒱₀ ER (ringRd m ρ) (c : Thread nD τ) none (c' := (peer c (g + 1) : Thread nD τ))
      (src := slot agM c) (dst := slot agM c) (q := shr g) (fs := AG m ρ) (fd := fd)
      (sS := .dma (sem31 cc0_scratch5 (jOf (g + 1)))) (sem := .dma (sem32 cc0_scratch6 c))
      (κ₁ := K (c, Sum.inr (Sum.inr (Sum.inr (Sum.inl (jOf (g + 1))))))) (κ₂ := K (peer c (g + 1), Sum.inr (Sum.inr (Sum.inr (Sum.inr c)))))
      (r₁ := 0) (r₂ := 0) (d₁ := c) (d₂ := c)
      (by rw [duties_agS]; exact Finset.mem_singleton_self _)
      (by rw [duties_agR m ρ (peer c (g + 1)) c hne]; exact Finset.mem_singleton_self _)
      () () N (ag_credit c) (amount_agS m ρ c (jOf (g + 1)) c) (amount_agR m ρ (peer c (g + 1)) c c)
      (owedAt c 31 31 (g + 1)) (owedAt_ag c 31 31 g hg) (W := W)
      (by rw [payload_agS, hj])
      (by rw [payload_agR]; exact Entails.of_eq (land_ag m ρ (peer c (g + 1)) c fd)))
    $$ [Hsrc Hdst HO HtS HtR]
  · isplitr; · iexact HI1
    isplitr; · iexact HI2
    isplitl [Hsrc]; · iexact Hsrc
    isplitl [Hdst]; · iexact Hdst
    isplitl [HO]; · iexact HO
    isplitl [HtS]; · iexact HtS
    isplitr; · iexact HR1
    isplitl [HtR]; · iexact HtR
    iexact HR2
  iintro ⟨Hc, HO⟩
  iapply Hk
  isplitl [Hrest]; · iexact Hrest
  isplitl [Hc Hsent]
  · isplitl [Hc]; · iexact Hc
    iexact Hsent
  iexists W
  iexact HO

/-- The summed rows of peer `g + 1` have landed in their slot. -/
theorem step_ag_wait (K : Dev nD × CellIx → ℕ) (c : Dev nD) (g : ℕ) (hg : g < 31)
    (sR : DmaSem sig) (hsR : sR = sem32 cc0_scratch6 (peer c (g + 1)))
    (v1 v2 : Memref sig .tc .vmem S1x8x256 .bf16) {h1 : v1.view.WordExact} {h2 : v2.view.WordExact}
    (hv : v2.view.dmaCredit = N) {α : Type} (kk : PUnit → Prog (TpuEff nD τ sig (Elt F) Λ₀ .tc) α) (Q : α → sProp 𝕄) :
    iprop(records m ρ K ∗ agRecvRes (F := F) c g ∗ owesX c (owedAt c 31 31 31))
      ⊢ iprop(((agRecvRes (F := F) c (g + 1) ∗ (slotPts agM (peer c (g + 1)) c fullShare (AG m ρ) ∗ atPos ER (agR c (peer c (g + 1))) 1 ∅ 0)
              ∗ owesX c (owedAt c 31 31 31)) -∗ wp frame (wpE (defs₀ (F := F)) 𝒱₀ (c : Thread nD τ) none) Set.univ (kk ⟨⟩) Q)
          -∗ wp frame (wpE (defs₀ (F := F)) 𝒱₀ (c : Thread nD τ) none) Set.univ (Prog.op (TpuEff.waitDma2 sR v1 v2 h1 h2) kk) Q) := by
  subst hsR
  have hne : peer c (g + 1) ≠ c := peer_ne_self c (g + 1) (by omega) (by omega)
  unfold agRecvRes owesX
  rw [bigSep_peel _ g hg, owedAt_done]
  iintro ⟨#Hrec, ⟨⟨Hc, Hat⟩, Hrest⟩, ⟨%W, HO⟩⟩ Hk
  ihave #H1 := (ag_cell_agR m ρ K c (peer c (g + 1))) $$ Hrec
  icases H1 with ⟨#HI1, -⟩
  iapply (Rounds.wp_wait_rest_token 𝒱₀ ER (ringRd m ρ) (c : Thread nD τ) none
      (κ := K (c, Sum.inr (Sum.inr (Sum.inr (Sum.inr (peer c (g + 1)))))))
      (sm := .dma (sem32 cc0_scratch6 (peer c (g + 1)))) (k' := v2.view.dmaCredit)
      (wpE_waitDma2_eq 𝒱₀ (c : Thread nD τ) none Set.univ (sem := sem32 cc0_scratch6 (peer c (g + 1))) (src := v1) (dst := v2) (hsrc := h1) (hdst := h2))
      (Set.mem_univ _) () (O := 0) (W := W) (R := 0) (m := 0) (T := ∅)
      (by rw [Nat.zero_add, hv, expect_agR m ρ c (peer c (g + 1)) hne])) $$ [Hc HO Hat]
  · isplitr; · iexact HI1
    isplitl [Hc]; · rw [hv]; iexact Hc
    isplitl [HO]; · iexact HO
    isplitr; · rw [MayWait_zero]; iempintro
    iexact Hat
  iintro ⟨HO, Hat, -, Hpay⟩
  ihave Hs := (Entails.of_eq (rest_agR m ρ c (peer c (g + 1)) hne)) $$ Hpay
  iapply Hk
  isplitl [Hrest]; · iexact Hrest
  isplitl [Hs Hat]
  · isplitl [Hs]; · iexact Hs
    iexact Hat
  iexists _
  iexact HO

theorem step_ag_load (c : Dev nD) (k : ℕ) (off : Fin 3 → ℕ) (hoff : off = ![(peer c k).val, 0, 0]) (inb : ∀ a, off a + S1x8x256.size a ≤ S32x8x256.size a)
    {hl : (agM : Memref sig .tc .vmem S32x8x256 .bf16).view.LoadsAt (Rect.unit (s := S32x8x256) off S1x8x256.size inb).toLoadRect}
    {α : Type} (kk : Vec F S1x8x256 .bf16 → Prog (TpuEff nD τ sig (Elt F) Λ₀ .tc) α) (Q : α → sProp 𝕄) :
    iprop(slotPts agM (peer c k) c fullShare (AG m ρ))
      ⊢ iprop((slotPts agM (peer c k) c fullShare (AG m ρ) -∗ wp frame (wpE (defs₀ (F := F)) 𝒱₀ (c : Thread nD τ) none) Set.univ (kk (agv m ρ (peer c k))) Q)
          -∗ wp frame (wpE (defs₀ (F := F)) 𝒱₀ (c : Thread nD τ) none) Set.univ (Prog.op (TpuEff.load agM (Rect.unit (s := S32x8x256) off S1x8x256.size inb).toLoadRect hl) kk) Q) := by
  subst hoff
  iintro H Hk
  iapply (wp_load_rect 𝒱₀ (c : Thread nD τ) none Set.univ (m := agM)
    (r := Rect.unit (s := S32x8x256) ![(peer c k).val, 0, 0] S1x8x256.size inb) (S := (slot agM (peer c k)).view.set) (f := AG m ρ)
    (Finset.Subset.refl _)) $$ H
  iintro H

  rw [show (agM.access (Rect.unit (s := S32x8x256) ![(peer c k).val, 0, 0] S1x8x256.size inb)).read (Elt F) (AG m ρ) = agv m ρ (peer c k) from read_ag m ρ (peer c k)]
  iapply Hk $$ H

end Cert.KernelIdeal.Ring

end
-- ==== Proof.StepsExit.lean ====
import proofs.«901011_g7700000000001012_dist_rs_then_ag_i_m256_n256_v7x_i32_bf16_1_alg».proof.Proof.StepsEntry

noncomputable section

namespace Cert.KernelIdeal.Ring

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem prep_sendwaits (c : Dev nD) :
    iprop(rsSent (F := F) c 31 ∗ rsSpos (F := F) c ∗ agSent (F := F) c 31 ∗ agSpos (F := F) c)
      ⊢ iprop(rsWaitRes (F := F) c 0 ∗ rsBack m ρ c 0 ∗ agWaitRes (F := F) c 0 ∗ agBack m ρ c 0) := by
  unfold rsSent rsSpos agSent agSpos rsWaitRes rsBack agWaitRes agBack
  rw [Finset.Ioc_self, bigSep_empty, bigSep_empty, bigSep_sep', bigSep_sep']
  iintro ⟨H1, H2, H3, H4⟩
  isplitl [H1 H2]
  · isplitl [H1] <;> iassumption
  isplitr; · iempintro
  isplitl [H3 H4]
  · isplitl [H3] <;> iassumption
  iempintro

/-- Departure `b + 1` of the reduce-scatter is over: the chunk's slot comes back. -/
theorem step_rs_sendwait (K : Dev nD × CellIx → ℕ) (c : Dev nD) (b : ℕ) (hb : b < 31)
    (sS : DmaSem sig) (hsS : sS = sem31 cc0_scratch3 (jOf (b + 1)))
    (v1 v2 : Memref sig .tc .vmem S1x8x256 .bf16) {h1 : v1.view.WordExact} {h2 : v2.view.WordExact}
    (hv : v2.view.dmaCredit = N) {α : Type} (kk : PUnit → Prog (TpuEff nD τ sig (Elt F) Λ₀ .tc) α) (Q : α → sProp 𝕄) :
    iprop(records m ρ K ∗ rsWaitRes (F := F) c b ∗ rsBack m ρ c b ∗ owesX c 0)
      ⊢ iprop(((rsWaitRes (F := F) c (b + 1) ∗ rsBack m ρ c (b + 1) ∗ owesX c 0) -∗ wp frame (wpE (defs₀ (F := F)) 𝒱₀ (c : Thread nD τ) none) Set.univ (kk ⟨⟩) Q)
          -∗ wp frame (wpE (defs₀ (F := F)) 𝒱₀ (c : Thread nD τ) none) Set.univ (Prog.op (TpuEff.waitDma2 sS v1 v2 h1 h2) kk) Q) := by
  subst hsS
  unfold rsWaitRes rsBack owesX
  rw [bigSep_peel _ b hb, bigSep_grow _ b]
  iintro ⟨#Hrec, ⟨⟨Hcr, Hat⟩, Hw⟩, Hb, ⟨%W, HO⟩⟩ Hk
  ihave HI := (records_inv m ρ K (c, .inr (.inl (jOf (b + 1))))) $$ Hrec
  have hw : ∀ K' : PUnit → sProp 𝕄,
      wpE (defs₀ (F := F)) 𝒱₀ (c : Thread nD τ) none Set.univ (TpuEff.waitDma2 (sem31 cc0_scratch3 (jOf (b + 1))) v1 v2 h1 h2) K'
        = waitSpec (c : Thread nD τ) Set.univ (.dma (sem31 cc0_scratch3 (jOf (b + 1)))) N K' := fun K' => by
    rw [← hv]; exact wpE_waitDma2_eq 𝒱₀ (c : Thread nD τ) none Set.univ K'
  iapply (Rounds.wp_wait_rest_token 𝒱₀ ER (ringRd m ρ) (c : Thread nD τ) none (κ := K (c, .inr (.inl (jOf (b + 1)))))
      hw (Set.mem_univ _) () (O := 0) (W := W) (R := 0) (m := 0) (T := ∅)
      (by rw [Nat.zero_add, expect_rsS])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (rest_rsS m ρ c (jOf (b + 1)))) $$ Hpay
  rw [jOf_succ_val b hb]
  iapply Hk
  isplitl [Hw]; · iexact Hw
  isplitl [Hp Hat Hb]
  · isplitl [Hp Hat]
    · isplitl [Hp] <;> iassumption
    iexact Hb
  iexists _
  iexact HO

/-- Departure `b + 1` of the all-gather is over: the lent half-share comes back. -/
theorem step_ag_sendwait (K : Dev nD × CellIx → ℕ) (c : Dev nD) (b : ℕ) (hb : b < 31)
    (sS : DmaSem sig) (hsS : sS = sem31 cc0_scratch5 (jOf (b + 1)))
    (v1 v2 : Memref sig .tc .vmem S1x8x256 .bf16) {h1 : v1.view.WordExact} {h2 : v2.view.WordExact}
    (hv : v2.view.dmaCredit = N) {α : Type} (kk : PUnit → Prog (TpuEff nD τ sig (Elt F) Λ₀ .tc) α) (Q : α → sProp 𝕄) :
    iprop(records m ρ K ∗ agWaitRes (F := F) c b ∗ agBack m ρ c b ∗ owesX c 0)
      ⊢ iprop(((agWaitRes (F := F) c (b + 1) ∗ agBack m ρ c (b + 1) ∗ owesX c 0) -∗ wp frame (wpE (defs₀ (F := F)) 𝒱₀ (c : Thread nD τ) none) Set.univ (kk ⟨⟩) Q)
          -∗ wp frame (wpE (defs₀ (F := F)) 𝒱₀ (c : Thread nD τ) none) Set.univ (Prog.op (TpuEff.waitDma2 sS v1 v2 h1 h2) kk) Q) := by
  subst hsS
  unfold agWaitRes agBack owesX
  rw [bigSep_peel _ b hb, bigSep_grow _ b, Nat.add_sub_cancel]
  iintro ⟨#Hrec, ⟨⟨Hcr, Hat⟩, Hw⟩, Hb, ⟨%W, HO⟩⟩ Hk
  ihave HI := (records_inv m ρ K (c, .inr (.inr (.inr (.inl (jOf (b + 1))))))) $$ Hrec
  have hw : ∀ K' : PUnit → sProp 𝕄,
      wpE (defs₀ (F := F)) 𝒱₀ (c : Thread nD τ) none Set.univ (TpuEff.waitDma2 (sem31 cc0_scratch5 (jOf (b + 1))) v1 v2 h1 h2) K'
        = waitSpec (c : Thread nD τ) Set.univ (.dma (sem31 cc0_scratch5 (jOf (b + 1)))) N K' := fun K' => by
    rw [← hv]; exact wpE_waitDma2_eq 𝒱₀ (c : Thread nD τ) none Set.univ K'
  iapply (Rounds.wp_wait_rest_token 𝒱₀ ER (ringRd m ρ) (c : Thread nD τ) none (κ := K (c, .inr (.inr (.inr (.inl (jOf (b + 1)))))))
      hw (Set.mem_univ _) () (O := 0) (W := W) (R := 0) (m := 0) (T := ∅)
      (by rw [Nat.zero_add, expect_agS])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (rest_agS m ρ c (jOf (b + 1)))) $$ Hpay
  rw [jOf_succ_val b hb]
  iapply Hk
  isplitl [Hw]; · iexact Hw
  isplitl [Hp Hat Hb]
  · isplitl [Hp Hat]
    · isplitl [Hp] <;> iassumption
    iexact Hb
  iexists _
  iexact HO

private theorem jOf_val (k : ℕ) (h1 : 1 ≤ k) (h2 : k ≤ 31) : (jOf k).val = k - 1 := by
  show (k - 1) % 31 = k - 1
  exact Nat.mod_eq_of_lt (by omega)

private theorem bf_back (c : Dev nD) :
    iprop(slotPts bfM c c fullShare (xbf m ρ c) ∗ bigSep (Finset.Ioc 0 31) fun k => slotPts bfM (peer c k) c fullShare (xbf m ρ c))
      ⊢ (scr c cc0_scratch0 : sProp 𝕄) :=
  (Entails.of_eq (bigSep_devs c fun s => slotPts bfM s c fullShare (xbf m ρ c)).symm).trans (bf_join c fun _ => xbf m ρ c)

private theorem rs_back (c : Dev nD) (f3 : Buf (Elt F) ((c : Thread nD τ).loc cc0_scratch1)) :
    iprop(slotPts rsM c c fullShare f3 ∗ bigSep (Finset.Ioc 0 31) fun k => slotPts rsM (peer c k) c fullShare (RS m ρ c))
      ⊢ (scr c cc0_scratch1 : sProp 𝕄) := by
  let g : Dev nD → Buf (Elt F) ((c : Thread nD τ).loc cc0_scratch1) := fun s => if s = c then f3 else RS m ρ c
  have h0 : g c = f3 := if_pos rfl
  have hk : ∀ k ∈ Finset.Ioc 0 31,
      (slotPts rsM (peer c k) c fullShare (RS m ρ c) : sProp 𝕄) = slotPts rsM (peer c k) c fullShare (g (peer c k)) := fun k hk => by
    have hk' := Finset.mem_Ioc.mp hk
    rw [show g (peer c k) = RS m ρ c from if_neg (peer_ne_self c k (by omega) hk'.2)]
  refine (Entails.of_eq ?_).trans (rs_join c g)
  rw [bigSep_devs c fun s => slotPts rsM s c fullShare (g s), h0, bigSep_congr hk]

private theorem ag_back (c : Dev nD) :
    iprop(slotPts agM c c (restShr 31) (AG m ρ)
        ∗ (bigSep (Finset.Ioc 0 31) fun k => slotPts agM c c (shr (k - 1)) (AG m ρ))
        ∗ bigSep (Finset.Ioc 0 31) fun k => slotPts agM (peer c k) c fullShare (AG m ρ))
      ⊢ (scr c cc0_scratch2 : sProp 𝕄) := by
  have e1 : (bigSep (Finset.Ioc 0 31) fun k => (slotPts agM c c (shr (k - 1)) (AG m ρ) : sProp 𝕄))
      = bigSep Finset.univ fun j : Fin 31 => slotPts agM c c (shr j.val) (AG m ρ) := by
    rw [bigSep_sends]
    exact bigSep_congr fun k hk => by
      have hk' := Finset.mem_Ioc.mp hk
      rw [jOf_val k (by omega) hk'.2]
  rw [e1]
  iintro ⟨Hr, Hsh, Hag⟩
  ihave H0 := (ag_shares c (AG m ρ)).mpr $$ [Hr Hsh]
  · isplitl [Hsh] <;> iassumption
  iapply ((Entails.of_eq (bigSep_devs c fun s => slotPts agM s c fullShare (AG m ρ)).symm).trans (ag_join c fun _ => AG m ρ))
  isplitl [H0] <;> iassumption

private theorem close_own (K : Dev nD × CellIx → ℕ) (c : Dev nD) (i : OwnIx) (R : ℕ)
    (hR : ∀ r, R ≤ r → (ringRd (F := F) m ρ).duties ((c : Thread nD τ), osem i) r = ∅) :
    iprop(records m ρ K ∗ atPos ER ((c : Thread nD τ), osem i) R ∅ 0)
      ⊢ iprop(|={Set.univ}=> semVal ((c : Thread nD τ), osem i) 0) := by
  iintro ⟨#Hrec, Hat⟩
  ihave HI := (records_inv m ρ K (c, .inr i)) $$ Hrec
  iapply (Rounds.cell_close ER (ringRd m ρ) (Set.mem_univ (K (c, .inr i))) (not_unitless m ρ _) (R := R) hR)
  isplitr; · iexact HI
  iexact Hat

private theorem close_many (K : Dev nD × CellIx → ℕ) (c : Dev nD) (S : Finset ℕ) (e : ℕ → OwnIx) :
    iprop(records m ρ K ∗ bigSep S fun k => atPos ER ((c : Thread nD τ), osem (e k)) 1 ∅ 0)
      ⊢ iprop(|={Set.univ}=> bigSep S fun k => semVal ((c : Thread nD τ), osem (e k)) 0) :=
  (bigSep_with_persistent fun k _ => close_own m ρ K c (e k) 1 (duties_later m ρ _)).trans (bigSep_fupd _ _)

private theorem close_sends (K : Dev nD × CellIx → ℕ) (c : Dev nD) (e : Fin 31 → OwnIx) :
    iprop(records m ρ K ∗ bigSep (Finset.Ioc 0 31) fun k => atPos ER ((c : Thread nD τ), osem (e (jOf k))) 1 ∅ 0)
      ⊢ iprop(|={Set.univ}=> bigSep Finset.univ fun j : Fin 31 => semVal ((c : Thread nD τ), osem (e j)) 0) := by
  rw [bigSep_sends]
  exact close_many m ρ K c (Finset.Ioc 0 31) fun k => e (jOf k)

private theorem close_recvs (K : Dev nD × CellIx → ℕ) (c : Dev nD) (e : Dev nD → OwnIx)
    (h0 : (ringRd (F := F) m ρ).duties ((c : Thread nD τ), osem (e c)) 0 = ∅) :
    iprop(records m ρ K ∗ atPos ER ((c : Thread nD τ), osem (e c)) 0 ∅ 0
        ∗ bigSep (Finset.Ioc 0 31) fun k => atPos ER ((c : Thread nD τ), osem (e (peer c k))) 1 ∅ 0)
      ⊢ iprop(|={Set.univ}=> bigSep Finset.univ fun s : Dev nD => semVal ((c : Thread nD τ), osem (e s)) 0) := by
  rw [bigSep_devs c]
  iintro ⟨#Hrec, H0, Hs⟩
  imod (close_own m ρ K c (e c) 0 (fun r _ => by
      rcases Nat.eq_zero_or_pos r with rfl | h
      · exact h0
      · exact duties_later m ρ _ r h)) $$ [H0] with Hz
  · isplitr; · iexact Hrec
    iexact H0
  imod (close_many m ρ K c (Finset.Ioc 0 31) fun k => e (peer c k)) $$ [Hs] with Hzs
  · isplitr; · iexact Hrec
    iexact Hs
  imodintro
  isplitl [Hz] <;> iassumption

private theorem bigSep_own (Φ : OwnIx → sProp 𝕄) :
    bigSep Finset.univ Φ
      = iprop((bigSep Finset.univ fun j : Fin 31 => Φ (.inl j)) ∗ (bigSep Finset.univ fun s : Dev nD => Φ (.inr (.inl s)))
          ∗ (bigSep Finset.univ fun j : Fin 31 => Φ (.inr (.inr (.inl j)))) ∗ bigSep Finset.univ fun s : Dev nD => Φ (.inr (.inr (.inr s)))) := by
  rw [bigSep_univ_sum, bigSep_univ_sum, bigSep_univ_sum]
  rfl

theorem finish (K : Dev nD × CellIx → ℕ) (c : Dev nD) (f3 : Buf (Elt F) ((c : Thread nD τ).loc cc0_scratch1)) :
    iprop(records m ρ K
        ∗ (slotPts bfM c c fullShare (xbf m ρ c) ∗ rsBack m ρ c 31)
        ∗ (slotPts rsM c c fullShare f3 ∗ rsGot m ρ c 31 ∗ atPos ER (rsR c c) 0 ∅ 0)
        ∗ (slotPts agM c c (restShr 31) (AG m ρ) ∗ agBack m ρ c 31 ∗ agGot m ρ c 31 ∗ atPos ER (agR c c) 0 ∅ 0))
      ⊢ iprop(|={Set.univ}=> Φ₁ (F := F) c) := by
  unfold rsBack rsGot agBack agGot Φ₁
  rw [bigSep_sep', bigSep_sep', bigSep_sep', bigSep_sep']
  rw [bigSep_own]
  iintro ⟨#Hrec, ⟨Hbf0, Hbf, HpRsS⟩, ⟨Hrs0, ⟨Hrs, HpRsR⟩, HpRsR0⟩, ⟨Hag0, ⟨Hsh, HpAgS⟩, ⟨Hag, HpAgR⟩, HpAgR0⟩⟩
  ihave Hs0 := (bf_back m ρ c) $$ [Hbf0 Hbf]
  · isplitl [Hbf0] <;> iassumption
  ihave Hs1 := (rs_back m ρ c f3) $$ [Hrs0 Hrs]
  · isplitl [Hrs0] <;> iassumption
  ihave Hs2 := (ag_back m ρ c) $$ [Hag0 Hsh Hag]
  · isplitl [Hag0]; · iexact Hag0
    isplitl [Hsh] <;> iassumption
  imod (close_sends m ρ K c fun j => Sum.inl j) $$ [HpRsS] with Hz1
  · isplitr; · iexact Hrec
    iexact HpRsS
  imod (close_recvs m ρ K c (fun s => Sum.inr (Sum.inl s)) (duties_rsR_self m ρ c)) $$ [HpRsR0 HpRsR] with Hz2
  · isplitr; · iexact Hrec
    isplitl [HpRsR0]; · iexact HpRsR0
    iexact HpRsR
  imod (close_sends m ρ K c fun j => Sum.inr (Sum.inr (Sum.inl j))) $$ [HpAgS] with Hz3
  · isplitr; · iexact Hrec
    iexact HpAgS
  imod (close_recvs m ρ K c (fun s => Sum.inr (Sum.inr (Sum.inr s))) (duties_agR_self m ρ c)) $$ [HpAgR0 HpAgR] with Hz4
  · isplitr; · iexact Hrec
    isplitl [HpAgR0]; · iexact HpAgR0
    iexact HpAgR
  imodintro
  isplitl [Hs0 Hs1 Hs2]
  · isplitl [Hs0]; · iexact Hs0
    isplitl [Hs1] <;> iassumption
  isplitl [Hz1]; · iexact Hz1
  isplitl [Hz2]; · iexact Hz2
  isplitl [Hz3] <;> iassumption

end Cert.KernelIdeal.Ring

end
-- ==== Proof.Contents.lean ====
import proofs.«901011_g7700000000001012_dist_rs_then_ag_i_m256_n256_v7x_i32_bf16_1_alg».proof.Proof.State
import proofs.«901011_g7700000000001012_dist_rs_then_ag_i_m256_n256_v7x_i32_bf16_1_alg».proof.Proof.Gen.KernelIdeal.Points
import Idealize.ShloMosaic.Lib.Pipeline.Frame
import Idealize.ShloMosaic.Lib.Writes

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem stg_x_eq (m : (ℓ : Loc nD τ sig) → Buf (Elt F) ℓ) (ρ : Dev nD → PrngReg) (c : Dev nD)
    (g0 : Buf (Elt F) ((c : Thread nD τ).loc cc0_stg0_0)) (d0 : (cfg0.win 0).block.Idx → Elt F (cfg0.win 0).elt)
    (hg0 : g0 = (dats m ρ 0 c).before 0 t₀ d0) : g0 = xstg m ρ c := by
  rw [hg0, Pipeline.Dat.before_fetched (dats m ρ 0 c) 0 t₀ (fetch0_0 t₀) d0]
  rfl

theorem bf_contents (m : (ℓ : Loc nD τ sig) → Buf (Elt F) ℓ) (ρ : Dev nD → PrngReg) (c : Dev nD)
    (f2 : Buf (Elt F) ((c : Thread nD τ).loc cc0_scratch0)) (g0 : Buf (Elt F) ((c : Thread nD τ).loc cc0_stg0_0))
    (hx : g0 = xstg m ρ c) :
    (Memref.whole cc0_scratch0 : Memref sig .tc .vmem S32x8x256 .bf16).view.writes (Elt F) f2
      [⟨Rect.unit (s := S32x8x256) ![0, 0, 0] S32x8x256.size inb_S32x8x256_S32x8x256_0_0_0,
        k0_pay1 (View.readAt (Elt F) (Memref.whole cc0_stg0_0 : Memref sig .tc .vmem S256x256 .f32).view (Rect.unit (s := S256x256) ![0, 0] S256x256.size inb_S256x256_S256x256_0_0).toLoadRect g0)⟩]
    = xbf m ρ c := by
  have h3 : (![0, 0, 0] : Fin 3 → ℕ) = fun _ => 0 := by decide
  have h2 : (![0, 0] : Fin 2 → ℕ) = fun _ => 0 := by decide
  have hr : View.readAt (Elt F) (Memref.whole cc0_stg0_0 : Memref sig .tc .vmem S256x256 .f32).view
      (Rect.unit (s := S256x256) ![0, 0] S256x256.size inb_S256x256_S256x256_0_0).toLoadRect g0 = g0 :=
    Memref.readAt_unit_zero (Elt F) cc0_stg0_0 h2 inb_S256x256_S256x256_0_0 g0
  rw [View.writes_singleton, hr, hx]
  exact Memref.write_access_unit_zero_univ (Elt F) cc0_scratch0 h3 inb_S32x8x256_S32x8x256_0_0_0 f2 _

theorem pay2_eq (v : Vec F S1x8x256 .bf16) : k0_pay2 v = k0_pay25 v := rfl
theorem pay3_eq (a : FVec F S8x256 .f32) (v w : Vec F S1x8x256 .bf16) :
    k0_pay3 a v w = addf (addf a (k0_pay25 v)) (k0_pay25 w) := rfl
theorem pay4_eq (a : FVec F S8x256 .f32) (v : Vec F S1x8x256 .bf16) :
    k0_pay4 a v = addf a (k0_pay25 v) := rfl
theorem pay5_eq (a : FVec F S8x256 .f32) (v w : Vec F S1x8x256 .bf16) :
    k0_pay5 a v w = addf (addf a (k0_pay25 v)) (k0_pay25 w) := rfl
theorem pay6_eq (a : FVec F S8x256 .f32) (v : Vec F S1x8x256 .bf16) :
    k0_pay6 a v = addf a (k0_pay25 v) := rfl
theorem pay7_eq (a : FVec F S8x256 .f32) (v w : Vec F S1x8x256 .bf16) :
    k0_pay7 a v w = addf (addf a (k0_pay25 v)) (k0_pay25 w) := rfl
theorem pay8_eq (a : FVec F S8x256 .f32) (v : Vec F S1x8x256 .bf16) :
    k0_pay8 a v = addf a (k0_pay25 v) := rfl
theorem pay9_eq (a : FVec F S8x256 .f32) (v w : Vec F S1x8x256 .bf16) :
    k0_pay9 a v w = addf (addf a (k0_pay25 v)) (k0_pay25 w) := rfl
theorem pay10_eq (a : FVec F S8x256 .f32) (v : Vec F S1x8x256 .bf16) :
    k0_pay10 a v = addf a (k0_pay25 v) := rfl
theorem pay11_eq (a : FVec F S8x256 .f32) (v w : Vec F S1x8x256 .bf16) :
    k0_pay11 a v w = addf (addf a (k0_pay25 v)) (k0_pay25 w) := rfl
theorem pay12_eq (a : FVec F S8x256 .f32) (v : Vec F S1x8x256 .bf16) :
    k0_pay12 a v = addf a (k0_pay25 v) := rfl
theorem pay13_eq (a : FVec F S8x256 .f32) (v w : Vec F S1x8x256 .bf16) :
    k0_pay13 a v w = addf (addf a (k0_pay25 v)) (k0_pay25 w) := rfl
theorem pay14_eq (a : FVec F S8x256 .f32) (v : Vec F S1x8x256 .bf16) :
    k0_pay14 a v = addf a (k0_pay25 v) := rfl
theorem pay15_eq (a : FVec F S8x256 .f32) (v w : Vec F S1x8x256 .bf16) :
    k0_pay15 a v w = addf (addf a (k0_pay25 v)) (k0_pay25 w) := rfl
theorem pay16_eq (a : FVec F S8x256 .f32) (v : Vec F S1x8x256 .bf16) :
    k0_pay16 a v = addf a (k0_pay25 v) := rfl
theorem pay17_eq (a : FVec F S8x256 .f32) (v w : Vec F S1x8x256 .bf16) :
    k0_pay17 a v w = addf (addf a (k0_pay25 v)) (k0_pay25 w) := rfl
theorem pay18_eq (a : FVec F S8x256 .f32) (v : Vec F S1x8x256 .bf16) :
    k0_pay18 a v = addf a (k0_pay25 v) := rfl
theorem pay19_eq (a : FVec F S8x256 .f32) (v w : Vec F S1x8x256 .bf16) :
    k0_pay19 a v w = addf (addf a (k0_pay25 v)) (k0_pay25 w) := rfl
theorem pay20_eq (a : FVec F S8x256 .f32) (v : Vec F S1x8x256 .bf16) :
    k0_pay20 a v = addf a (k0_pay25 v) := rfl
theorem pay21_eq (a : FVec F S8x256 .f32) (v w : Vec F S1x8x256 .bf16) :
    k0_pay21 a v w = addf (addf a (k0_pay25 v)) (k0_pay25 w) := rfl
theorem pay22_eq (a : FVec F S8x256 .f32) (v : Vec F S1x8x256 .bf16) :
    k0_pay22 a v = addf a (k0_pay25 v) := rfl
theorem pay23_eq (a : FVec F S8x256 .f32) (v : Vec F S1x8x256 .bf16) :
    k0_pay23 a v = addf a (k0_pay25 v) := rfl

end Cert.KernelIdeal.Ring

end
-- ==== Proof.Respell.lean ====
import proofs.«901011_g7700000000001012_dist_rs_then_ag_i_m256_n256_v7x_i32_bf16_1_alg».proof.Proof.State

noncomputable section

namespace Cert.KernelIdeal.Ring

open Cert.KernelIdeal Cert.KernelIdeal.Gen Cert.KernelIdeal.Mesh
open Idealize.ShloMosaic
open Idealize.ShloMosaic.TcCoe
open Idealize.SL Idealize.SL.Sem

theorem off_own (c : Dev nD) : k0_off4 c = ![c.val, 0, 0] := off4_eq c

theorem off_peer (c : Dev nD) (r : Fin 31) :
    k0_off6 c (BitVec.ofNat 32 (1 + r.val)) = ![(peer c (1 + r.val)).val, 0, 0] := off6_eq c r

theorem slot_off2 (M : Memref sig .tc .vmem S32x8x256 .bf16) (c : Dev nD) (p : ∀ a, (Rect.unit (s := S32x8x256) (k0_off2 c) S1x8x256.size (k0_off2_inb c)).stride a = 1) :
    M.slice (Rect.unit (s := S32x8x256) (k0_off2 c) S1x8x256.size (k0_off2_inb c)) p = slot M c :=
  Memref.slice_unit_congr M (off2_eq c) (k0_off2_inb c) (slot_inb c) p (fun _ => rfl)

theorem slot_off3 (M : Memref sig .tc .vmem S32x8x256 .bf16) (c : Dev nD) (r : Fin 31)
    (p : ∀ a, (Rect.unit (s := S32x8x256) (k0_off3 c (BitVec.ofNat 32 (1 + r.val))) S1x8x256.size (k0_off3_inb c r)).stride a = 1) :
    M.slice (Rect.unit (s := S32x8x256) (k0_off3 c (BitVec.ofNat 32 (1 + r.val))) S1x8x256.size (k0_off3_inb c r)) p = slot M (peer c (1 + r.val)) :=
  Memref.slice_unit_congr M (off3_eq c r) (k0_off3_inb c r) (slot_inb (peer c (1 + r.val))) p (fun _ => rfl)

theorem sem32_off1 (A : DmaSems sig S32) (c : Dev nD) :
    ((A.slice (Rect.unit (s := S32) (k0_off1 c) S1.size (k0_off1_inb c))).squeeze S_ squeezes_S1_S_).sem = sem32 A c := by
  rw [SemArray.slice_unit_congr A (off1_eq c) (k0_off1_inb c) (i32_inb c)]

theorem sem32_off5 (A : DmaSems sig S32) (c : Dev nD) (r : Fin 31) :
    ((A.slice (Rect.unit (s := S32) (k0_off5 c (BitVec.ofNat 32 (1 + r.val))) S1.size (k0_off5_inb c r))).squeeze S_ squeezes_S1_S_).sem = sem32 A (peer c (1 + r.val)) := by
  rw [SemArray.slice_unit_congr A (off5_eq c r) (k0_off5_inb c r) (i32_inb (peer c (1 + r.val)))]

theorem slot_credit (M : Memref sig .tc .vmem S32x8x256 .bf16) (hM : M = bfM ∨ M = rsM ∨ M = agM) (s : Dev nD) : (slot M s).view.dmaCredit = N := by
  rcases hM with rfl | rfl | rfl <;> rfl

end Cert.KernelIdeal.Ring

end
-- ==== Proof.Fold.lean ====
import proofs.«901011_g7700000000001012_dist_rs_then_ag_i_m256_n256_v7x_i32_bf16_1_alg».proof.Proof.Phases
import proofs.«901011_g7700000000001012_dist_rs_then_ag_i_m256_n256_v7x_i32_bf16_1_alg».proof.Proof.Slots
import proofs.«901011_g7700000000001012_dist_rs_then_ag_i_m256_n256_v7x_i32_bf16_1_alg».proof.Proof.Respell

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

private theorem Ioc_succ (b : ℕ) : Finset.Ioc 0 (b + 1) = insert (b + 1) (Finset.Ioc 0 b) := by
  ext k
  simp only [Finset.mem_Ioc, Finset.mem_insert]
  omega

private theorem not_mem_Ioc (b : ℕ) : b + 1 ∉ Finset.Ioc 0 b := by
  simp only [Finset.mem_Ioc]
  omega

private theorem bigSep_Ioc_succ (Φ : ℕ → sProp 𝕄) (b : ℕ) :
    bigSep (Finset.Ioc 0 (b + 1)) Φ = iprop(Φ (b + 1) ∗ bigSep (Finset.Ioc 0 b) Φ) := by
  rw [Ioc_succ]
  exact bigSep_insert (not_mem_Ioc b)

theorem rsGot_zero (m : (ℓ : Loc nD τ sig) → Buf (Elt F) ℓ) (ρ : Dev nD → PrngReg) (c : Dev nD) :
    (iprop(emp) : sProp 𝕄) ⊢ rsGot m ρ c 0 := by
  unfold rsGot
  rw [Finset.Ioc_self, bigSep_empty]
  exact .rfl

theorem rsGot_succ (m : (ℓ : Loc nD τ sig) → Buf (Elt F) ℓ) (ρ : Dev nD → PrngReg) (c : Dev nD) (b : ℕ) :
    iprop(rsGot m ρ c b ∗ slotPts rsM (peer c (b + 1)) c fullShare (RS m ρ c) ∗ atPos ER (rsR c (peer c (b + 1))) 1 ∅ 0)
      ⊢ rsGot m ρ c (b + 1) := by
  have hi : rsGot m ρ c (b + 1)
      = iprop((slotPts rsM (peer c (b + 1)) c fullShare (RS m ρ c) ∗ atPos ER (rsR c (peer c (b + 1))) 1 ∅ 0) ∗ rsGot m ρ c b) := by
    unfold rsGot
    exact bigSep_Ioc_succ _ b
  rw [hi]
  iintro ⟨HG, HS, HP⟩
  isplitr [HG]
  · isplitl [HS]
    · iexact HS
    · iexact HP
  · iexact HG

theorem agGot_zero (m : (ℓ : Loc nD τ sig) → Buf (Elt F) ℓ) (ρ : Dev nD → PrngReg) (c : Dev nD) :
    (iprop(emp) : sProp 𝕄) ⊢ agGot m ρ c 0 := by
  unfold agGot
  rw [Finset.Ioc_self, bigSep_empty]
  exact .rfl

theorem agGot_succ (m : (ℓ : Loc nD τ sig) → Buf (Elt F) ℓ) (ρ : Dev nD → PrngReg) (c : Dev nD) (b : ℕ) :
    iprop(agGot m ρ c b ∗ slotPts agM (peer c (b + 1)) c fullShare (AG m ρ) ∗ atPos ER (agR c (peer c (b + 1))) 1 ∅ 0)
      ⊢ agGot m ρ c (b + 1) := by
  have hi : agGot m ρ c (b + 1)
      = iprop((slotPts agM (peer c (b + 1)) c fullShare (AG m ρ) ∗ atPos ER (agR c (peer c (b + 1))) 1 ∅ 0) ∗ agGot m ρ c b) := by
    unfold agGot
    exact bigSep_Ioc_succ _ b
  rw [hi]
  iintro ⟨HG, HS, HP⟩
  isplitr [HG]
  · isplitl [HS]
    · iexact HS
    · iexact HP
  · iexact HG

private theorem readAt_unit_off (M : Memref sig .tc .vmem S32x8x256 .bf16) (f : M.view.ty.Contents (Elt F))
    {off off' : Fin 3 → ℕ} (h : off = off') (p : ∀ a, off a + S1x8x256.size a ≤ S32x8x256.size a)
    (p' : ∀ a, off' a + S1x8x256.size a ≤ S32x8x256.size a) :
    M.view.readAt (Elt F) (Rect.unit (s := S32x8x256) off S1x8x256.size p).toLoadRect f
      = M.view.readAt (Elt F) (Rect.unit (s := S32x8x256) off' S1x8x256.size p').toLoadRect f := by
  subst h; rfl

theorem read_own (m : (ℓ : Loc nD τ sig) → Buf (Elt F) ℓ) (ρ : Dev nD → PrngReg) (c : Dev nD)
    (inb : ∀ a, (k0_off4 c) a + S1x8x256.size a ≤ S32x8x256.size a) :
    View.readAt (Elt F) (Memref.whole cc0_scratch0 : Memref sig .tc .vmem S32x8x256 .bf16).view
      (Rect.unit (s := S32x8x256) (k0_off4 c) S1x8x256.size inb).toLoadRect (xbf m ρ c) = chunk m ρ c 0 :=
  (readAt_unit_off bfM (xbf m ρ c) (off_own c) inb (slot_inb c)).trans (read_bf m ρ c)

end Cert.KernelIdeal.Ring

end
-- ==== Proof.OutFinal.lean ====
import proofs.«901011_g7700000000001012_dist_rs_then_ag_i_m256_n256_v7x_i32_bf16_1_alg».proof.Proof.State
import proofs.«901011_g7700000000001012_dist_rs_then_ag_i_m256_n256_v7x_i32_bf16_1_alg».proof.Proof.MeshForms
import proofs.«901011_g7700000000001012_dist_rs_then_ag_i_m256_n256_v7x_i32_bf16_1_alg».proof.Proof.Slots
import Idealize.ShloMosaic.Lib.ValueIdx
import Idealize.ShloMosaic.Lib.Pipeline.Value

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def outUpTo (m : (ℓ : Loc nD τ sig) → Buf (Elt F) ℓ) (ρ : Dev nD → PrngReg) (c : Dev nD)
    (g1 : (cc0_stg1_0 : Ref sig .tc).ty.Contents (Elt F)) : ℕ → (cc0_stg1_0 : Ref sig .tc).ty.Contents (Elt F)
  | 0 => View.write (Elt F) ((oM : Memref sig .tc .vmem S256x256 .f32).access (Rect.unit (s := S256x256) (k0_off7 c) S8x256.size (k0_off7_inb c))) g1 (red m ρ c) Finset.univ
  | k + 1 => if h : k < 31 then
      View.write (Elt F) ((oM : Memref sig .tc .vmem S256x256 .f32).access (Rect.unit (s := S256x256) (k0_off8 c (BitVec.ofNat 32 (1 + k))) S8x256.size (k0_off8_inb c ⟨k, h⟩))) (outUpTo m ρ c g1 k) (k0_pay25 (agv m ρ (peer c (k + 1)))) Finset.univ
    else outUpTo m ρ c g1 k

private theorem write_rows (off : Fin 2 → ℕ) (inb : ∀ a, off a + S8x256.size a ≤ S256x256.size a) (s : ℕ) (hoff : off = ![8 * s, 0])
    (prev : (cc0_stg1_0 : Ref sig .tc).ty.Contents (Elt F)) (w : FVec F S8x256 .f32) (i : S256x256.Idx) :
    View.write (Elt F) ((oM : Memref sig .tc .vmem S256x256 .f32).access (Rect.unit (s := S256x256) off S8x256.size inb)) prev w Finset.univ i
      = if (i 0).val / 8 = s then
          w (ValueIdx.ix2 (n0 := 8) (n1 := 256) ⟨(i 0).val % 8, Nat.mod_lt _ (by decide)⟩ ⟨(i 1).val, (i 1).isLt⟩)
        else prev i := by
  subst hoff
  by_cases hs : (i 0).val / 8 = s
  · rw [if_pos hs]
    have hy : ((oM : Memref sig .tc .vmem S256x256 .f32).access (Rect.unit (s := S256x256) ![8 * s, 0] S8x256.size inb)).emb
        (ValueIdx.ix2 (n0 := 8) (n1 := 256) ⟨(i 0).val % 8, Nat.mod_lt _ (by decide)⟩ ⟨(i 1).val, (i 1).isLt⟩) = i := by
      funext a
      refine Fin.ext ?_
      match a with
      | ⟨0, _⟩ => show 8 * s + 1 * ((i 0).val % 8) = (i 0).val; omega
      | ⟨1, _⟩ => show 0 + 1 * (i 1).val = (i 1).val; omega
    conv_lhs => rw [← hy, View.write_emb_of_mem _ _ (Finset.mem_univ _)]
    rfl
  · rw [if_neg hs]
    refine View.write_of_not_mem _ _ _ fun hmem => hs ?_
    rw [View.setOn_univ] at hmem
    obtain ⟨j, hj⟩ := View.exists_emb_of_mem_set _ hmem
    have h0 : (i 0).val = 8 * s + 1 * (j 0).val := by rw [← hj]; rfl
    have hj0 : (j 0).val < 8 := (j 0).isLt
    omega

private abbrev blkOf (i : S256x256.Idx) : Dev nD :=
  ⟨(i 0).val / 8, by have h : (i 0).val < 256 := (i 0).isLt; show _ < 32; omega⟩
private abbrev inBlk (i : S256x256.Idx) : S8x256.Idx :=
  ValueIdx.ix2 (n0 := 8) (n1 := 256) ⟨(i 0).val % 8, Nat.mod_lt _ (by decide)⟩ ⟨(i 1).val, (i 1).isLt⟩

private theorem dist_eq_zero_iff (c s : Dev nD) : Mesh.dist c s = 0 ↔ s = c := by
  constructor
  · intro h
    have := peer_dist c s
    rw [h, peer_zero] at this
    exact this.symm
  · intro h
    have hc : c.val < 32 := c.isLt
    rw [h]; unfold Mesh.dist; omega

private theorem outUpTo_zero (m : (ℓ : Loc nD τ sig) → Buf (Elt F) ℓ) (ρ : Dev nD → PrngReg) (c : Dev nD)
    (g1 : (cc0_stg1_0 : Ref sig .tc).ty.Contents (Elt F)) :
    outUpTo m ρ c g1 0 = View.write (Elt F) ((oM : Memref sig .tc .vmem S256x256 .f32).access (Rect.unit (s := S256x256) (k0_off7 c) S8x256.size (k0_off7_inb c))) g1 (red m ρ c) Finset.univ := rfl

private theorem outUpTo_succ (m : (ℓ : Loc nD τ sig) → Buf (Elt F) ℓ) (ρ : Dev nD → PrngReg) (c : Dev nD)
    (g1 : (cc0_stg1_0 : Ref sig .tc).ty.Contents (Elt F)) (k : ℕ) (h : k < 31) :
    outUpTo m ρ c g1 (k + 1) = View.write (Elt F) ((oM : Memref sig .tc .vmem S256x256 .f32).access (Rect.unit (s := S256x256) (k0_off8 c (BitVec.ofNat 32 (1 + k))) S8x256.size (k0_off8_inb c ⟨k, h⟩))) (outUpTo m ρ c g1 k) (k0_pay25 (agv m ρ (peer c (k + 1)))) Finset.univ := by
  show (if h : k < 31 then _ else _) = _
  rw [dif_pos h]

private theorem outUpTo_at (m : (ℓ : Loc nD τ sig) → Buf (Elt F) ℓ) (ρ : Dev nD → PrngReg) (c : Dev nD)
    (g1 : (cc0_stg1_0 : Ref sig .tc).ty.Contents (Elt F)) (k : ℕ) (hk : k ≤ 31) (i : S256x256.Idx) :
    outUpTo m ρ c g1 k i = if Mesh.dist c (blkOf i) ≤ k then outBlock m ρ c (blkOf i) (inBlk i) else g1 i := by
  induction k with
  | zero =>
    rw [outUpTo_zero, write_rows (k0_off7 c) (k0_off7_inb c) c.val (off7_eq c)]
    by_cases hs : (i 0).val / 8 = c.val
    · have hb : blkOf i = c := Fin.ext hs
      rw [if_pos hs, if_pos (by rw [hb, (dist_eq_zero_iff c c).mpr rfl])]
      show red m ρ c (inBlk i) = outBlock m ρ c (blkOf i) (inBlk i)
      unfold outBlock
      rw [if_pos hb]
    · have hb : blkOf i ≠ c := fun e => hs (congrArg Fin.val e)
      rw [if_neg hs, if_neg (by
        intro hle
        exact hb ((dist_eq_zero_iff c (blkOf i)).mp (Nat.le_zero.mp hle)))]
  | succ k ih =>
    have hk' : k < 31 := by omega
    have hp : peer c (1 + k) = peer c (k + 1) := by rw [Nat.add_comm]
    rw [outUpTo_succ m ρ c g1 k hk', write_rows _ (k0_off8_inb c ⟨k, hk'⟩) (peer c (1 + k)).val (off8_eq c ⟨k, hk'⟩)]
    by_cases hs : (i 0).val / 8 = (peer c (1 + k)).val
    · have hb : blkOf i = peer c (k + 1) := by rw [← hp]; exact Fin.ext hs
      rw [if_pos hs, if_pos (by rw [hb, dist_peer c (k + 1) (by omega)])]
      show k0_pay25 (agv m ρ (peer c (k + 1))) (inBlk i) = outBlock m ρ c (blkOf i) (inBlk i)
      unfold outBlock
      rw [hb, if_neg (peer_ne_self c (k + 1) (by omega) (by omega)), read_ag]
    · have hb : blkOf i ≠ peer c (k + 1) := fun e => hs (by rw [hp]; exact congrArg Fin.val e)
      rw [if_neg hs, ih (by omega)]
      have hd : Mesh.dist c (blkOf i) ≠ k + 1 := fun e => hb (by rw [← e]; exact (peer_dist c (blkOf i)).symm)
      by_cases hle : Mesh.dist c (blkOf i) ≤ k
      · rw [if_pos hle, if_pos (by omega)]
      · rw [if_neg hle, if_neg (by omega)]

theorem outUpTo_final (m : (ℓ : Loc nD τ sig) → Buf (Elt F) ℓ) (ρ : Dev nD → PrngReg) (c : Dev nD)
    (g1 : (cc0_stg1_0 : Ref sig .tc).ty.Contents (Elt F)) : outUpTo m ρ c g1 31 = outAt m ρ c := by
  funext i
  rw [outUpTo_at m ρ c g1 31 (Nat.le_refl _) i, if_pos (by have := dist_lt c (blkOf i); omega)]
  rfl

end Cert.KernelIdeal.Ring

end
-- ==== Proof.Body.lean ====
import proofs.«901011_g7700000000001012_dist_rs_then_ag_i_m256_n256_v7x_i32_bf16_1_alg».proof.Proof.StepsEntry
import proofs.«901011_g7700000000001012_dist_rs_then_ag_i_m256_n256_v7x_i32_bf16_1_alg».proof.Proof.StepsRs
import proofs.«901011_g7700000000001012_dist_rs_then_ag_i_m256_n256_v7x_i32_bf16_1_alg».proof.Proof.StepsAg
import proofs.«901011_g7700000000001012_dist_rs_then_ag_i_m256_n256_v7x_i32_bf16_1_alg».proof.Proof.StepsExit
import proofs.«901011_g7700000000001012_dist_rs_then_ag_i_m256_n256_v7x_i32_bf16_1_alg».proof.Proof.Contents
import proofs.«901011_g7700000000001012_dist_rs_then_ag_i_m256_n256_v7x_i32_bf16_1_alg».proof.Proof.Fold
import proofs.«901011_g7700000000001012_dist_rs_then_ag_i_m256_n256_v7x_i32_bf16_1_alg».proof.Proof.Respell
import proofs.«901011_g7700000000001012_dist_rs_then_ag_i_m256_n256_v7x_i32_bf16_1_alg».proof.Proof.OutFinal
import Idealize.ShloMosaic.Lib.Writes

noncomputable section

namespace Cert.KernelIdeal.Ring

open Cert.KernelIdeal Cert.KernelIdeal.Gen Cert.KernelIdeal.Mesh
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem ret_bind_app {E : Type → Type} {α β : Type} (a : α) (k : α → Prog E β) : (Prog.ret a : Prog E α).bind k = k a := rfl

set_option hygiene false in
local macro "sig_step " a:num " with " e:term : tactic => `(tactic| (
  iapply (step_signal m ρ K c _ $a (by decide) $e _ _) $$ [Hsig HOx]
  · (isplitr; · iexact HR); (isplitl [Hsig]; · iexact Hsig); iexact HOx
  iintro ⟨Hsig, HOx⟩
  (first | sl_exec_parts | (rw [ret_bind_app]; sl_exec_parts) | skip)))

set_option hygiene false in
local macro "rs_send " b:num " with " e:term : tactic => `(tactic| (
  iapply (step_rs_send m ρ K c _ $b (by decide) $e _ _ (slot_off3 bfM c ($b : Fin 31) _) (slot_off2 rsM c _) _ _ rfl (sem32_off1 cc0_scratch4 c) _ _) $$ [Hrss Hrsent HOx]
  · (isplitr; · iexact HR); (isplitl [Hrss]; · iexact Hrss); (isplitl [Hrsent]; · iexact Hrsent); iexact HOx
  iintro ⟨Hrss, Hrsent, HOx⟩
  (first | sl_exec_parts | (rw [ret_bind_app]; sl_exec_parts) | skip)))

set_option hygiene false in
local macro "rs_wait " b:num : tactic => `(tactic| (
  iapply (step_rs_wait m ρ K c $b (by decide) _ (sem32_off5 cc0_scratch4 c ($b : Fin 31)) _ _
      ((congrArg (fun v : Memref sig .tc .vmem S1x8x256 .bf16 => v.view.dmaCredit) (slot_off3 rsM c ($b : Fin 31) _)).trans (slot_credit rsM (Or.inr (Or.inl rfl)) _)) _ _) $$ [HrsR HOx]
  · (isplitr; · iexact HR); (isplitr; · iexact Hlev); (isplitl [HrsR]; · iexact HrsR); iexact HOx
  iintro ⟨HrsR, ⟨Hs, Hat⟩, HOx⟩
  (first | sl_exec_parts | (rw [ret_bind_app]; sl_exec_parts) | skip)
  iapply (step_rs_load m ρ c ($b + 1) _ (off_peer c ($b : Fin 31)) _ _ _) $$ Hs
  iintro Hs
  ihave Hgot' := (rsGot_succ m ρ c $b) $$ [Hgrs Hs Hat]
  all_goals try ((isplitl [Hgrs]; · iexact Hgrs); (isplitl [Hs]; · iexact Hs); iexact Hat)
  icases Hgot' with Hgrs
  (first | sl_exec_parts | (rw [ret_bind_app]; sl_exec_parts) | skip)))

set_option hygiene false in
local macro "ag_send " b:num " with " e:term : tactic => `(tactic| (
  iapply (step_ag_send m ρ K c _ $b (by decide) $e _ _ (slot_off2 agM c _) (slot_off2 agM c _) _ _ rfl (sem32_off1 cc0_scratch6 c) _ _) $$ [Hags Hagsent HOx]
  · (isplitr; · iexact HR); (isplitl [Hags]; · iexact Hags); (isplitl [Hagsent]; · iexact Hagsent); iexact HOx
  iintro ⟨Hags, Hagsent, HOx⟩
  (first | sl_exec_parts | (rw [ret_bind_app]; sl_exec_parts) | skip)))

set_option hygiene false in
local macro "ag_wait " b:num : tactic => `(tactic| (
  iapply (step_ag_wait m ρ K c $b (by decide) _ (sem32_off5 cc0_scratch6 c ($b : Fin 31)) _ _
      ((congrArg (fun v : Memref sig .tc .vmem S1x8x256 .bf16 => v.view.dmaCredit) (slot_off3 agM c ($b : Fin 31) _)).trans (slot_credit agM (Or.inr (Or.inr rfl)) _)) _ _) $$ [HagR HOx]
  · (isplitr; · iexact HR); (isplitl [HagR]; · iexact HagR); iexact HOx
  iintro ⟨HagR, ⟨Hs, Hat⟩, HOx⟩
  (first | sl_exec_parts | (rw [ret_bind_app]; sl_exec_parts) | skip)
  iapply (step_ag_load m ρ c ($b + 1) _ (off_peer c ($b : Fin 31)) _ _ _) $$ Hs
  iintro Hs
  ihave Hgot' := (agGot_succ m ρ c $b) $$ [Hgag Hs Hat]
  all_goals try ((isplitl [Hgag]; · iexact Hgag); (isplitl [Hs]; · iexact Hs); iexact Hat)
  icases Hgot' with Hgag
  (first | sl_exec_parts | (rw [ret_bind_app]; sl_exec_parts) | skip)))

set_option hygiene false in
local macro "rs_swait " b:num : tactic => `(tactic| (
  iapply (step_rs_sendwait m ρ K c $b (by decide) _ rfl _ _
      ((congrArg (fun v : Memref sig .tc .vmem S1x8x256 .bf16 => v.view.dmaCredit) (slot_off3 bfM c ($b : Fin 31) _)).trans (slot_credit bfM (Or.inl rfl) _)) _ _) $$ [Hrsw Hrsb HOx]
  · (isplitr; · iexact HR); (isplitl [Hrsw]; · iexact Hrsw); (isplitl [Hrsb]; · iexact Hrsb); iexact HOx
  iintro ⟨Hrsw, Hrsb, HOx⟩
  (first | sl_exec_parts | (rw [ret_bind_app]; sl_exec_parts) | skip)))

set_option hygiene false in
local macro "ag_swait " b:num : tactic => `(tactic| (
  iapply (step_ag_sendwait m ρ K c $b (by decide) _ rfl _ _
      ((congrArg (fun v : Memref sig .tc .vmem S1x8x256 .bf16 => v.view.dmaCredit) (slot_off2 agM c _)).trans (slot_credit agM (Or.inr (Or.inr rfl)) _)) _ _) $$ [Hagw Hagb HOx]
  · (isplitr; · iexact HR); (isplitl [Hagw]; · iexact Hagw); (isplitl [Hagb]; · iexact Hagb); iexact HOx
  iintro ⟨Hagw, Hagb, HOx⟩
  (first | sl_exec_parts | (rw [ret_bind_app]; sl_exec_parts) | skip)))

open Lean Elab Tactic in
set_option hygiene false in
local elab "sig_steps" : tactic => do
  for a in [0:31] do
    let aLit := Syntax.mkNumLit (toString a)
    let e := mkIdent (Name.mkSimple s!"dev{a + 1}_eq")
    evalTactic (← `(tactic| sig_step $aLit:num with ($e _)))

open Lean Elab Tactic in
set_option hygiene false in
local elab "rs_sends" : tactic => do
  for b in [0:31] do
    let bLit := Syntax.mkNumLit (toString b)
    let e := mkIdent (Name.mkSimple s!"dev{b + 32}_eq")
    evalTactic (← `(tactic| rs_send $bLit:num with ($e _)))

open Lean Elab Tactic in
set_option hygiene false in
local elab "ag_sends" : tactic => do
  for b in [0:31] do
    let bLit := Syntax.mkNumLit (toString b)
    let e := mkIdent (Name.mkSimple s!"dev{b + 63}_eq")
    evalTactic (← `(tactic| ag_send $bLit:num with ($e _)))

open Lean Elab Tactic in
set_option hygiene false in
local elab "rs_waits" : tactic => do
  for b in [0:31] do
    let bLit := Syntax.mkNumLit (toString b)
    evalTactic (← `(tactic| rs_wait $bLit:num))

open Lean Elab Tactic in
set_option hygiene false in
local elab "ag_waits" : tactic => do
  for b in [0:31] do
    let bLit := Syntax.mkNumLit (toString b)
    evalTactic (← `(tactic| ag_wait $bLit:num))

open Lean Elab Tactic in
set_option hygiene false in
local elab "rs_swaits" : tactic => do
  for b in [0:31] do
    let bLit := Syntax.mkNumLit (toString b)
    evalTactic (← `(tactic| rs_swait $bLit:num))

open Lean Elab Tactic in
set_option hygiene false in
local elab "ag_swaits" : tactic => do
  for b in [0:31] do
    let bLit := Syntax.mkNumLit (toString b)
    evalTactic (← `(tactic| ag_swait $bLit:num))

theorem out_step (c : Dev nD) (g1 : (cc0_stg1_0 : Ref sig .tc).ty.Contents (Elt F)) (k : ℕ) (h : k < 31)
    (L : List (View.Piece (Elt F) S256x256 .f32)) (w : FVec F S8x256 .f32) (hw : w = k0_pay25 (agv m ρ (peer c (k + 1))))
    (hL : (Memref.whole cc0_stg1_0 : Memref sig .tc .vmem S256x256 .f32).view.writes (Elt F) g1 L = outUpTo m ρ c g1 k) :
    (Memref.whole cc0_stg1_0 : Memref sig .tc .vmem S256x256 .f32).view.writes (Elt F) g1
        (⟨Rect.unit (s := S256x256) (k0_off8 c (BitVec.ofNat 32 (1 + k))) S8x256.size (k0_off8_inb c ⟨k, h⟩), w⟩ :: L)
      = outUpTo m ρ c g1 (k + 1) := by
  subst hw
  rw [View.writes_cons, hL, outUpTo, dif_pos h]

theorem out_base (c : Dev nD) (g1 : (cc0_stg1_0 : Ref sig .tc).ty.Contents (Elt F)) (w : FVec F S8x256 .f32) (hw : w = red m ρ c) :
    (Memref.whole cc0_stg1_0 : Memref sig .tc .vmem S256x256 .f32).view.writes (Elt F) g1
        [⟨Rect.unit (s := S256x256) (k0_off7 c) S8x256.size (k0_off7_inb c), w⟩]
      = outUpTo m ρ c g1 0 := by
  subst hw
  rw [View.writes_cons, View.writes_nil, outUpTo]

theorem write_own_slot (c : Dev nD) (f4 : Buf (Elt F) ((c : Thread nD τ).loc cc0_scratch2)) (off : Fin 3 → ℕ) (h : off = ![c.val, 0, 0])
    (inb : ∀ a, off a + S1x8x256.size a ≤ S32x8x256.size a) (v : FVec F S1x8x256 .bf16) :
    View.write (Elt F) ((agM : Memref sig .tc .vmem S32x8x256 .bf16).access (Rect.unit (s := S32x8x256) off S1x8x256.size inb)) f4 v Finset.univ
      = View.write (Elt F) ((agM : Memref sig .tc .vmem S32x8x256 .bf16).access (Rect.unit (s := S32x8x256) ![c.val, 0, 0] S1x8x256.size (slot_inb c))) f4 v Finset.univ := by
  subst h; rfl

open Lean Elab Tactic in
set_option hygiene false in
local elab "out_steps" : tactic => do
  for i in [0:31] do
    let kLit := Syntax.mkNumLit (toString (30 - i))
    evalTactic (← `(tactic| refine out_step m ρ c g1 $kLit:num (by decide) _ _ rfl ?_))

set_option maxHeartbeats 8000000 in
/-- One device's whole body: entry signals, reduce-scatter, summation, all-gather, departure waits. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ (theBody (F := F)) Kt := by
  unfold bodyPre Φ₀ start
  iintro ⟨⟨⟨⟨⟨%K, Hg⟩, Hcr, #Hlev⟩, ⟨%f2, Hbf⟩, ⟨%f3, Hrs⟩, ⟨%f4, Hag⟩⟩, Ho, ⟨%d0, %g0, %hg0, Hx⟩, ⟨%d1, %g1, %hg1, Hout⟩⟩, Hk⟩
  unfold Dat.owesAt Pipeline.owesWithin
  icases Ho with ⟨%W, %hW, HO⟩

  ihave Hp := (prep_entry m ρ K c f3 f4) $$ [Hg Hrs Hag]
  · isplitl [Hg]; · iexact Hg
    isplitl [Hrs]; · iexact Hrs
    iexact Hag
  icases Hp with ⟨#HR, Hpos, Hsig, Htok, Hrsc, Hagc⟩
  ihave Hpp := (prep_pos (F := F) c) $$ [Hpos Hcr]
  · isplitl [Hpos]; · iexact Hpos
    iexact Hcr
  icases Hpp with ⟨HatB, HcB, HrsR, HagR, HrsSp, HagSp, HatRcc, HatAcc⟩
  ihave HOx : (owesX (F := F) c (owedAt c 0 0 0)) $$ [HO]
  · unfold owesX; iexists W; iexact HO
  ihave Hx' : (((Memref.whole cc0_stg0_0 : Memref sig .tc .vmem S256x256 .f32).view.loc (c : Thread nD τ) ↦{fullShare} g0 : sProp 𝕄)) $$ [Hx]
  · iexact Hx
  ihave Hout' : (((Memref.whole cc0_stg1_0 : Memref sig .tc .vmem S256x256 .f32).view.loc (c : Thread nD τ) ↦{fullShare} g1 : sProp 𝕄)) $$ [Hout]
  · iexact Hout
  ihave Hbf' : (((Memref.whole cc0_scratch0 : Memref sig .tc .vmem S32x8x256 .bf16).view.loc (c : Thread nD τ) ↦{fullShare} f2 : sProp 𝕄)) $$ [Hbf]
  · iexact Hbf
  unfold theBody
  sl_exec_parts

  sig_steps

  iapply (step_barwait m ρ K c _ _) $$ [HcB HOx HatB]
  · isplitr; · iexact HR
    isplitr; · iexact Hlev
    isplitl [HcB]; · iexact HcB
    isplitl [HOx]; · iexact HOx
    iexact HatB
  iintro ⟨HOx, HatB, Hgot⟩
  sl_exec_parts

  have hx : g0 = xstg m ρ c := stg_x_eq m ρ c g0 d0 hg0
  rw [bf_contents m ρ c f2 g0 hx]
  ihave Hbfx : ((((c : Thread nD τ).loc cc0_scratch0) ↦{fullShare} xbf m ρ c : sProp 𝕄)) $$ [Hbf']
  · iexact Hbf'
  ihave Hprs := (prep_rs m ρ c) $$ [Hbfx Hgot Htok]
  · isplitl [Hbfx]; · iexact Hbfx
    isplitl [Hgot]; · iexact Hgot
    iexact Htok
  icases Hprs with ⟨Hbfc, Hrss, Hrsent, HagD, HagT⟩

  rs_sends

  ihave Hgrs := (rsGot_zero m ρ c) $$ []
  · iempintro
  rs_waits

  ihave Hagc2 : (iprop(∃ X : Buf (Elt F) ((slot agM c).view.loc (c : Thread nD τ)),
      ⌜X = View.write (Elt F) ((agM : Memref sig .tc .vmem S32x8x256 .bf16).access (Rect.unit (s := S32x8x256) ![c.val, 0, 0] S1x8x256.size (slot_inb c))) f4 (agv m ρ c) Finset.univ⌝
        ∗ slotPts agM c c fullShare X) : sProp 𝕄) $$ [Hagc]
  · iexists _
    isplitr
    rotate_left
    · iexact Hagc
    · ipureintro
      iterate 30 sl_unfold_run_names
      rw [read_own m ρ c _]
      rw [write_own_slot c f4 (k0_off4 c) (off_own c)]
      unfold agv
      simp only [pay2_eq, pay3_eq, pay4_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, accAt]
  icases Hagc2 with ⟨%X, %hX, Hagc⟩
  subst hX
  ihave Hagc3 := (Entails.of_eq (store_ag m ρ c f4 fullShare)) $$ Hagc
  ihave Hpa := (prep_ag m ρ c) $$ [Hagc3 HagD HagT]
  · isplitl [Hagc3]; · iexact Hagc3
    isplitl [HagD]; · iexact HagD
    iexact HagT
  icases Hpa with ⟨Hags, Hagsent, Hagrest⟩

  ag_sends
  (first | sl_exec_parts | skip)

  ihave Hgag := (agGot_zero m ρ c) $$ []
  · iempintro
  ag_waits

  ihave HOx0 := (Entails.of_eq (congrArg (owesX (F := F) c) (owedAt_done c))) $$ HOx
  ihave Hpw := (prep_sendwaits m ρ c) $$ [Hrsent HrsSp Hagsent HagSp]
  · isplitl [Hrsent]; · iexact Hrsent
    isplitl [HrsSp]; · iexact HrsSp
    isplitl [Hagsent]; · iexact Hagsent
    iexact HagSp
  icases Hpw with ⟨Hrsw, Hrsb, Hagw, Hagb⟩
  icases HOx0 with HOx
  rs_swaits
  ag_swaits

  rw [wp_ret]
  imod (finish m ρ K c f3) $$ [Hbfc Hrsb Hrsc Hgrs HatRcc Hagrest Hagb Hgag HatAcc] with HΦ
  · isplitr; · iexact HR
    isplitl [Hbfc Hrsb]
    · isplitl [Hbfc]; · iexact Hbfc
      iexact Hrsb
    isplitl [Hrsc Hgrs HatRcc]
    · isplitl [Hrsc]; · iexact Hrsc
      isplitl [Hgrs]; · iexact Hgrs
      iexact HatRcc
    isplitl [Hagrest]; · iexact Hagrest
    isplitl [Hagb]; · iexact Hagb
    isplitl [Hgag]; · iexact Hgag
    iexact HatAcc
  imodintro
  iapply Hk
  unfold bodyPost
  isplitl [HΦ]; · iexact HΦ
  isplitl [HOx]
  · unfold Dat.owesAt Pipeline.owesWithin owesX
    icases HOx with ⟨%W', HO'⟩
    iexists W'
    isplitr; · ipureintro; exact fun _ _ => Or.inl trivial
    iexact HO'
  isplitl [Hx']
  · iexists g0; isplitr; · (ipureintro; exact hx)
    iexact Hx'
  iexists _
  isplitr
  rotate_left
  · iexact Hout'
  · ipureintro
    refine Eq.trans ?_ (outUpTo_final m ρ c g1)
    iterate 30 sl_unfold_run_names
    rw [read_own m ρ c _]
    out_steps
    refine out_base m ρ c g1 _ ?_
    unfold red
    simp only [pay2_eq, pay3_eq, pay4_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, accAt]

end Cert.KernelIdeal.Ring

end
-- ==== Proof.Obligation.lean ====
import proofs.«901011_g7700000000001012_dist_rs_then_ag_i_m256_n256_v7x_i32_bf16_1_alg».proof.Proof.Body

noncomputable section

namespace Cert.KernelIdeal.Ring

open Cert.KernelIdeal Cert.KernelIdeal.Gen Cert.KernelIdeal.Mesh
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

attribute [local irreducible] cc0_body
set_option maxRecDepth 16000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ (theBody (F := F)) (fun _ => bodyPost m ρ c)
  iintro H
  iapply (sound_body m ρ c fun _ => bodyPost m ρ c)
  isplitl [H]; · iexact H
  iintro H; iexact H

end Cert.KernelIdeal.Ring

end
-- ==== Proof.RefValue.lean ====
import proofs.«901011_g7700000000001012_dist_rs_then_ag_i_m256_n256_v7x_i32_bf16_1_alg».proof.Defs
import proofs.«901011_g7700000000001012_dist_rs_then_ag_i_m256_n256_v7x_i32_bf16_1_alg».proof.Proof.Gen.ReferenceIdeal
import proofs.«901011_g7700000000001012_dist_rs_then_ag_i_m256_n256_v7x_i32_bf16_1_alg».proof.Proof.Gen.ReferenceIdeal.Run
import proofs.«901011_g7700000000001012_dist_rs_then_ag_i_m256_n256_v7x_i32_bf16_1_alg».proof.Proof.Gen.ReferenceIdeal.Read
import Idealize.ShloMosaic.Lib.ValueIdx
import Idealize.ShloMosaic.Lib.Layout
import Idealize.ShloMosaic.PureOps.Ideal.Laws

noncomputable section

open Idealize.ShloMosaic Idealize.ShloMosaic.TcCoe Idealize.SL.Sem Idealize.ShloMosaic.ValueIdx
open scoped BigOperators

namespace Cert.RefValue

def total (X : (⟨Cert.ReferenceIdeal.S8192x256, .f32⟩ : BufTy).Contents (Elt Ideal)) :
    (⟨Cert.ReferenceIdeal.S256x256, .f32⟩ : BufTy).Contents (Elt Ideal) :=
  fun i => ∑ s : Fin 32, X (ix2 (n0 := 8192) (n1 := 256)
    ⟨256 * s.val + (i 0).val, by have h0 : (i 0).val < 256 := idx2_lt0 i; have hs := s.isLt; omega⟩ (i 1))

theorem total_apply (X : (⟨Cert.ReferenceIdeal.S8192x256, .f32⟩ : BufTy).Contents (Elt Ideal))
    (i : Cert.ReferenceIdeal.S256x256.Idx) :
    total X i = ∑ s : Fin 32, X (ix2 (n0 := 8192) (n1 := 256)
      ⟨256 * s.val + (i 0).val, by have h0 : (i 0).val < 256 := idx2_lt0 i; have hs := s.isLt; omega⟩ (i 1)) := rfl

theorem slab_index (i : Cert.ReferenceIdeal.S256x256.Idx) (k : Fin 32) :
    Cert.ReferenceIdeal.Read.idx_main_v0 (Cert.ReferenceIdeal.Read.idx_main_v1 i k)
      = ix2 (n0 := 8192) (n1 := 256)
          ⟨256 * k.val + (i 0).val, by have h0 : (i 0).val < 256 := idx2_lt0 i; have hs := k.isLt; omega⟩ (i 1) := by
  have h0 : (i 0).val < 256 := idx2_lt0 i
  have h1 : (i 1).val < 256 := idx2_lt1 i
  have hk := k.isLt
  funext a
  refine Fin.ext ?_
  match a with
  | ⟨0, _⟩ =>
    show ((k.val * 256 + (i 0).val) * 256 + (i 1).val) / 256 = 256 * k.val + (i 0).val
    omega
  | ⟨1, _⟩ =>
    show ((k.val * 256 + (i 0).val) * 256 + (i 1).val) % 256 = (i 1).val
    omega

theorem val_eq_total (X : (⟨Cert.ReferenceIdeal.S8192x256, .f32⟩ : BufTy).Contents (Elt Ideal)) :
    Cert.ReferenceIdeal.Read.val_main_v1 (F := Ideal) X = total X := by
  funext i
  rw [Cert.ReferenceIdeal.Read.val_main_v1_apply, Cert.ReferenceIdeal.Read.val_main_cst_apply, total_apply]
  rw [show (FloatOps.ofBits (F := Ideal) .f32 0x00000000#32) = (0 : EReal) from Ideal.ofBits_zero_f32, zero_add]
  refine Finset.sum_congr rfl fun k _ => ?_
  rw [Cert.ReferenceIdeal.Read.val_main_v0_apply, slab_index]

theorem ref_run [hR : Cert.ReferenceIdeal.Facts]
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1)
          = total (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono
    (fun _ h => ⟨(h 0).1.trans ((Cert.ReferenceIdeal.Read.val_main_v1_eq (F := Ideal) _).trans (val_eq_total _)), (h 0).2⟩)
    (Cert.ReferenceIdeal.Value.run (F := Ideal) m' g')

theorem frame_ri [hR : Cert.ReferenceIdeal.Facts] [hP : Cert.Pre_finite_inputs_ReferenceIdeal.Facts] :
    Cert.frame_ReferenceIdeal := fun m g _ =>
  (θ_run (Cert.ReferenceIdeal.defs (F := Ideal)) _ _).mono (fun _ h c => (h c).2)
    (Cert.ReferenceIdeal.Value.run (F := Ideal) m g)

theorem block_entry (X : (⟨Cert.ReferenceIdeal.S8192x256, .f32⟩ : BufTy).Contents (Elt Ideal)) (c : Fin 32)
    (i : (⟨2, ![256, 256]⟩ : Shape).Idx) :
    (Layout.block ⟨2, ![256, 256]⟩ ⟨2, ![8192, 256]⟩ 0 32 c X) i
      = X (ix2 (n0 := 8192) (n1 := 256)
          ⟨256 * c.val + (i 0).val, by have h0 : (i 0).val < 256 := idx2_lt0 i; have hs := c.isLt; omega⟩ (i 1)) := by
  rw [Layout.block_apply]
  refine congrArg X ?_
  funext a
  refine Fin.ext ?_
  match a with
  | ⟨0, _⟩ =>
    show c.val * 256 + (i 0).val = 256 * c.val + (i 0).val
    omega
  | ⟨1, _⟩ => rfl

theorem total_of_blocks (X : (⟨Cert.ReferenceIdeal.S8192x256, .f32⟩ : BufTy).Contents (Elt Ideal))
    (x : Fin 32 → (⟨2, ![256, 256]⟩ : Shape).Idx → EReal)
    (hx : ∀ c, x c = Layout.block ⟨2, ![256, 256]⟩ ⟨2, ![8192, 256]⟩ 0 32 c X)
    (i : (⟨2, ![256, 256]⟩ : Shape).Idx) :
    total X i = ∑ s : Fin 32, x s i := by
  rw [total_apply]
  refine Finset.sum_congr rfl fun s _ => ?_
  rw [hx s, block_entry]

end Cert.RefValue

end
-- ==== Proof.RingSum.lean ====
import Mathlib.Algebra.BigOperators.Group.Finset.Basic
import Mathlib.Algebra.BigOperators.Fin
import Mathlib.Data.Fintype.Card

open scoped BigOperators

namespace Cert.RingSum

def chain {α : Type} [Add α] (g : ℕ → α) : ℕ → α
  | 0 => g 0
  | n + 1 => chain g n + g (n + 1)

theorem chain_eq_sum {α : Type} [AddCommMonoid α] (g : ℕ → α) (n : ℕ) :
    chain g n = ∑ k ∈ Finset.range (n + 1), g k := by
  induction n with
  | zero => simp [chain]
  | succ n ih => rw [chain, ih, Finset.sum_range_succ _ (n + 1)]

theorem step_injective (c : Fin 32) :
    Function.Injective (fun k : Fin 32 => (⟨(c.val + k.val) % 32, Nat.mod_lt _ (by decide)⟩ : Fin 32)) := by
  intro a b h
  have hv : (c.val + a.val) % 32 = (c.val + b.val) % 32 := congrArg Fin.val h
  have hc := c.isLt
  have ha := a.isLt
  have hb := b.isLt
  exact Fin.ext (by omega)

/-- Summing along the ring from `c` is summing over all 32 devices. -/
theorem ring_sum {α : Type} [AddCommMonoid α] (c : Fin 32) (f : Fin 32 → α) :
    chain (fun k => f ⟨(c.val + k) % 32, Nat.mod_lt _ (by decide)⟩) 31 = ∑ s : Fin 32, f s := by
  rw [chain_eq_sum, Finset.sum_range]
  exact (step_injective c).bijective_of_finite.sum_comp f

end Cert.RingSum
-- ==== Proof.Value.lean ====
import proofs.«901011_g7700000000001012_dist_rs_then_ag_i_m256_n256_v7x_i32_bf16_1_alg».proof.Proof.State
import proofs.«901011_g7700000000001012_dist_rs_then_ag_i_m256_n256_v7x_i32_bf16_1_alg».proof.Proof.RefValue
import proofs.«901011_g7700000000001012_dist_rs_then_ag_i_m256_n256_v7x_i32_bf16_1_alg».proof.Proof.RingSum
import Idealize.ShloMosaic.Lib.ValueIdx
import Idealize.ShloMosaic.Lib.Pipeline.Value
import Idealize.ShloMosaic.Lib.Layout

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem xstg_entry (m : (ℓ : Loc nD τ sig) → Buf (Elt Ideal) ℓ) (ρ : Dev nD → PrngReg) (c : Dev nD) :
    xstg (F := Ideal) m ρ c = m ((c : Thread nD τ).loc main_arg0) := by
  funext x
  show m ((c : Thread nD τ).loc main_arg0) ((win0_0.blk (0 : Fin 1)).view.emb x) = m ((c : Thread nD τ).loc main_arg0) x
  refine congrArg (m ((c : Thread nD τ).loc main_arg0)) ?_
  funext a
  refine Fin.ext ?_
  show 0 * _ + 1 * (x a).val = (x a).val
  omega

theorem xbf_entry (m : (ℓ : Loc nD τ sig) → Buf (Elt Ideal) ℓ) (ρ : Dev nD → PrngReg) (d : Dev nD)
    (j' : Fin 32) (r : Fin 8) (j : Fin 256) :
    xbf (F := Ideal) m ρ d (ix3 (n0 := 32) (n1 := 8) (n2 := 256) j' r j)
      = xstg (F := Ideal) m ρ d (ix2 (n0 := 256) (n1 := 256) ⟨8 * j'.val + r.val, by have := j'.isLt; have := r.isLt; omega⟩ j) := by
  unfold xbf k0_pay1
  rw [shapeCast_self]
  refine (shapeCast_apply _ _ _ (ix2 (n0 := 256) (n1 := 256) ⟨8 * j'.val + r.val, by have := j'.isLt; have := r.isLt; omega⟩ j) ?_).trans ?_
  · rw [Shape.rowMajor_val_two, Shape.rowMajor_val_three]
    show (8 * j'.val + r.val) * 256 + j.val = (j'.val * 8 + r.val) * 256 + j.val
    omega
  · rw [truncf_apply, shapeCast_self]

theorem slot_bf_read (c : Dev nD) (f : (cc0_scratch0 : Ref sig .tc).ty.Contents (Elt Ideal)) (r : Fin 8) (j : Fin 256) :
    (slot bfM c).view.read (Elt Ideal) f (ix3 (n0 := 1) (n1 := 8) (n2 := 256) ⟨0, by decide⟩ r j)
      = f (ix3 (n0 := 32) (n1 := 8) (n2 := 256) c r j) := by
  show f ((slot bfM c).view.emb (ix3 (n0 := 1) (n1 := 8) (n2 := 256) ⟨0, by decide⟩ r j)) = f (ix3 (n0 := 32) (n1 := 8) (n2 := 256) c r j)
  refine congrArg f ?_
  funext a
  refine Fin.ext ?_
  match a with
  | ⟨0, _⟩ => show c.val + 1 * 0 = c.val; omega
  | ⟨1, _⟩ => show 0 + 1 * r.val = r.val; omega
  | ⟨2, _⟩ => show 0 + 1 * j.val = j.val; omega

theorem slot_ag_read (s : Dev nD) (f : (cc0_scratch2 : Ref sig .tc).ty.Contents (Elt Ideal)) (r : Fin 8) (j : Fin 256) :
    (slot agM s).view.read (Elt Ideal) f (ix3 (n0 := 1) (n1 := 8) (n2 := 256) ⟨0, by decide⟩ r j)
      = f (ix3 (n0 := 32) (n1 := 8) (n2 := 256) s r j) := by
  show f ((slot agM s).view.emb (ix3 (n0 := 1) (n1 := 8) (n2 := 256) ⟨0, by decide⟩ r j)) = f (ix3 (n0 := 32) (n1 := 8) (n2 := 256) s r j)
  refine congrArg f ?_
  funext a
  refine Fin.ext ?_
  match a with
  | ⟨0, _⟩ => show s.val + 1 * 0 = s.val; omega
  | ⟨1, _⟩ => show 0 + 1 * r.val = r.val; omega
  | ⟨2, _⟩ => show 0 + 1 * j.val = j.val; omega

theorem chunk_entry (m : (ℓ : Loc nD τ sig) → Buf (Elt Ideal) ℓ) (ρ : Dev nD → PrngReg) (c : Dev nD) (k : ℕ)
    (r : Fin 8) (j : Fin 256) :
    chunk (F := Ideal) m ρ c k (ix3 (n0 := 1) (n1 := 8) (n2 := 256) ⟨0, by decide⟩ r j)
      = xbf (F := Ideal) m ρ (peer c k) (ix3 (n0 := 32) (n1 := 8) (n2 := 256) c r j) := by
  unfold chunk
  exact slot_bf_read c _ r j

theorem pay25_entry (v : Vec Ideal S1x8x256 .bf16) (r : Fin 8) (j : Fin 256) :
    k0_pay25 (F := Ideal) v (ix2 (n0 := 8) (n1 := 256) r j) = v (ix3 (n0 := 1) (n1 := 8) (n2 := 256) ⟨0, by decide⟩ r j) := by
  unfold k0_pay25
  refine (shapeCast_apply _ _ _ (ix3 (n0 := 1) (n1 := 8) (n2 := 256) ⟨0, by decide⟩ r j) ?_).trans ?_
  · rw [Shape.rowMajor_val_two, Shape.rowMajor_val_three]
    show (0 * 8 + r.val) * 256 + j.val = r.val * 256 + j.val
    omega
  · rw [extf_apply]

def rowOf (m : (ℓ : Loc nD τ sig) → Buf (Elt Ideal) ℓ) (c : Dev nD) (r : Fin 8) (j : Fin 256) (d : Dev nD) : EReal :=
  m ((d : Thread nD τ).loc main_arg0) (ix2 (n0 := 256) (n1 := 256)
    ⟨8 * c.val + r.val, by have hc : c.val < 32 := c.isLt; have := r.isLt; omega⟩ j)

theorem step_entry (m : (ℓ : Loc nD τ sig) → Buf (Elt Ideal) ℓ) (ρ : Dev nD → PrngReg) (c : Dev nD) (k : ℕ)
    (r : Fin 8) (j : Fin 256) :
    k0_pay25 (F := Ideal) (chunk (F := Ideal) m ρ c k) (ix2 (n0 := 8) (n1 := 256) r j) = rowOf m c r j (peer c k) := by
  rw [pay25_entry, chunk_entry, xbf_entry, xstg_entry]
  rfl

theorem accAt_entry (m : (ℓ : Loc nD τ sig) → Buf (Elt Ideal) ℓ) (ρ : Dev nD → PrngReg) (c : Dev nD) (n : ℕ)
    (r : Fin 8) (j : Fin 256) :
    (show EReal from accAt (F := Ideal) m ρ c n (ix2 (n0 := 8) (n1 := 256) r j))
      = Cert.RingSum.chain (fun k => rowOf m c r j (peer c k)) n := by
  induction n with
  | zero =>
    show k0_pay25 (F := Ideal) (chunk (F := Ideal) m ρ c 0) (ix2 (n0 := 8) (n1 := 256) r j) = _
    rw [step_entry]; rfl
  | succ n ih =>
    show (show EReal from accAt (F := Ideal) m ρ c n (ix2 (n0 := 8) (n1 := 256) r j))
        + (show EReal from k0_pay25 (F := Ideal) (chunk (F := Ideal) m ρ c (n + 1)) (ix2 (n0 := 8) (n1 := 256) r j)) = _
    rw [ih, step_entry]; rfl

theorem red_entry (m : (ℓ : Loc nD τ sig) → Buf (Elt Ideal) ℓ) (ρ : Dev nD → PrngReg) (c : Dev nD) (r : Fin 8) (j : Fin 256) :
    (red (F := Ideal) m ρ c) (ix2 (n0 := 8) (n1 := 256) r j)
      = ∑ d : Dev nD, (show EReal from m ((d : Thread nD τ).loc main_arg0)
          (ix2 (n0 := 256) (n1 := 256) ⟨8 * c.val + r.val, by have hc : c.val < 32 := c.isLt; have := r.isLt; omega⟩ j)) := by
  show (show EReal from accAt (F := Ideal) m ρ c 31 (ix2 (n0 := 8) (n1 := 256) r j)) = _
  rw [accAt_entry]
  exact Cert.RingSum.ring_sum c (rowOf m c r j)

theorem agv_entry (m : (ℓ : Loc nD τ sig) → Buf (Elt Ideal) ℓ) (ρ : Dev nD → PrngReg) (s : Dev nD) (r : Fin 8) (j : Fin 256) :
    agv (F := Ideal) m ρ s (ix3 (n0 := 1) (n1 := 8) (n2 := 256) ⟨0, by decide⟩ r j)
      = red (F := Ideal) m ρ s (ix2 (n0 := 8) (n1 := 256) r j) := by
  unfold agv k0_pay24
  rw [shapeCast_self]
  refine (shapeCast_apply _ _ _ (ix2 (n0 := 8) (n1 := 256) r j) ?_).trans ?_
  · rw [Shape.rowMajor_val_two, Shape.rowMajor_val_three]
    show r.val * 256 + j.val = (0 * 8 + r.val) * 256 + j.val
    omega
  · rw [truncf_apply]; rfl

theorem pay25_agv (m : (ℓ : Loc nD τ sig) → Buf (Elt Ideal) ℓ) (ρ : Dev nD → PrngReg) (s : Dev nD) :
    k0_pay25 (F := Ideal) ((slot agM s).view.read (Elt Ideal) (AG (F := Ideal) m ρ)) = red (F := Ideal) m ρ s := by
  funext i
  obtain ⟨r, j, rfl⟩ : ∃ (r : Fin 8) (j : Fin 256), i = ix2 (n0 := 8) (n1 := 256) r j := ⟨i 0, i 1, eq_ix2 i⟩
  rw [pay25_entry, slot_ag_read]
  exact agv_entry m ρ s r j

theorem outBlock_eq (m : (ℓ : Loc nD τ sig) → Buf (Elt Ideal) ℓ) (ρ : Dev nD → PrngReg) (c s : Dev nD) :
    outBlock (F := Ideal) m ρ c s = red (F := Ideal) m ρ s := by
  unfold outBlock
  by_cases h : s = c
  · rw [if_pos h, h]
  · rw [if_neg h, pay25_agv]

/-- Entry by entry the result is the sum over the 32 devices of their blocks: the walk round the ring meets each once. -/
theorem out_value (m : (ℓ : Loc nD τ sig) → Buf (Elt Ideal) ℓ) (ρ : Dev nD → PrngReg)
    (X : (⟨Cert.ReferenceIdeal.S8192x256, .f32⟩ : BufTy).Contents (Elt Ideal))
    (hx : ∀ c : Dev nD, m ((c : Thread nD τ).loc main_arg0) = Layout.block ⟨2, ![256, 256]⟩ ⟨2, ![8192, 256]⟩ 0 32 c X)
    (c : Dev nD) : outAt (F := Ideal) m ρ c = Cert.RefValue.total X := by
  funext i
  have h0 : (i 0).val < 256 := (i 0).isLt
  show outBlock (F := Ideal) m ρ c ⟨(i 0).val / 8, by show _ < 32; omega⟩
      (ix2 (n0 := 8) (n1 := 256) ⟨(i 0).val % 8, Nat.mod_lt _ (by decide)⟩ ⟨(i 1).val, (i 1).isLt⟩) = _
  rw [outBlock_eq, red_entry]
  rw [Cert.RefValue.total_of_blocks X (fun d => m ((d : Thread nD τ).loc main_arg0)) hx i]
  refine Finset.sum_congr rfl fun d _ => ?_
  show m ((d : Thread nD τ).loc main_arg0) _ = m ((d : Thread nD τ).loc main_arg0) i
  refine congrArg (m ((d : Thread nD τ).loc main_arg0)) ?_
  funext a
  refine Fin.ext ?_
  match a with
  | ⟨0, _⟩ => show 8 * ((i 0).val / 8) + (i 0).val % 8 = (i 0).val; omega
  | ⟨1, _⟩ => rfl

end Cert.KernelIdeal.Ring

end
-- ==== Proof.lean ====
/-
  Reduce-scatter then all-gather of a row-cut array on a ring of 32 devices, against the one-device sum of the row blocks.

  Device d holds rows 256 d … 256 d + 255 of X : [8192, 256]; the reference's result at (i, j) is ∑ d, X[256 d + i, j].
  Each device sends the 8-row chunk c of its block to device c, device c adds the 32 chunks it then holds, walking the
  ring from itself, and every device collects the 32 summed row groups. The walk meets every device once and addition
  of extended reals is commutative and associative, so every device ends with the reference's total.

  The kernel's two frames are one run, generic in the float values: the program as printed and its reading over the
  extended reals are the same text, so each frame is that run at its own values.
-/
import proofs.«901011_g7700000000001012_dist_rs_then_ag_i_m256_n256_v7x_i32_bf16_1_alg».proof.Defs
import proofs.«901011_g7700000000001012_dist_rs_then_ag_i_m256_n256_v7x_i32_bf16_1_alg».proof.Proof.Gen.Kernel
import proofs.«901011_g7700000000001012_dist_rs_then_ag_i_m256_n256_v7x_i32_bf16_1_alg».proof.Proof.Gen.KernelIdeal
import proofs.«901011_g7700000000001012_dist_rs_then_ag_i_m256_n256_v7x_i32_bf16_1_alg».proof.Proof.Gen.ReferenceIdeal
import proofs.«901011_g7700000000001012_dist_rs_then_ag_i_m256_n256_v7x_i32_bf16_1_alg».proof.Proof.Gen.Pre_finite_inputs_Kernel
import proofs.«901011_g7700000000001012_dist_rs_then_ag_i_m256_n256_v7x_i32_bf16_1_alg».proof.Proof.Gen.Pre_finite_inputs_ReferenceIdeal
import proofs.«901011_g7700000000001012_dist_rs_then_ag_i_m256_n256_v7x_i32_bf16_1_alg».proof.Proof.Launch
import proofs.«901011_g7700000000001012_dist_rs_then_ag_i_m256_n256_v7x_i32_bf16_1_alg».proof.Proof.Obligation
import proofs.«901011_g7700000000001012_dist_rs_then_ag_i_m256_n256_v7x_i32_bf16_1_alg».proof.Proof.RefValue
import proofs.«901011_g7700000000001012_dist_rs_then_ag_i_m256_n256_v7x_i32_bf16_1_alg».proof.Proof.Value

noncomputable section

namespace Cert.Proof

open Idealize.ShloMosaic Idealize.SL.Sem
open Cert.KernelIdeal Cert.KernelIdeal.Ring

/-- At any float values the program runs and leaves its argument array as it was: nothing writes it back. -/
theorem frame_any {F : FTy → Type} [FloatOps F] (m : (ℓ : Loc nD τ sig) → Buf (Elt F) ℓ) (g : Dev nD → PrngReg) :
    θ_run (defs (F := F)) (onTc (τ := τ) (main (F := F))) ⟨m, fun _ => 0, g⟩
      (fun r => ∀ c : Dev nD, r.2.mem ((c.tc : Thread nD τ).loc main_arg0) = m ((c.tc : Thread nD τ).loc main_arg0)) :=
  (θ_run defs _ _).mono (fun _ h c => (h c (0 : Fin 2)).trans (finalA_x m g c)) (run_main_of m g (body_obligation m g))

theorem frame_ki : Cert.frame_KernelIdeal := fun m g _ => frame_any m g

set_option smartUnfolding false in
/-- The program as printed is the same text under another name, so its frame is `frame_any` at its own values. -/
theorem frame_k : Cert.frame_Kernel := fun m g _ => frame_any (F := Bits) m g

theorem preserves : Cert.preserves_Kernel_KernelIdeal := trivial

/-- Each device's result array is what its body left to be written back, and that is the reference's total when each
    device's argument is its block of the whole array. -/
theorem algebraic : Cert.algebraic_KernelIdeal_ReferenceIdeal := by
  intro m g m' g' _ hblk
  refine ⟨Cert.RefValue.total (m' (((0 : Dev Cert.ReferenceIdeal.nD).tc : Thread Cert.ReferenceIdeal.nD Cert.ReferenceIdeal.τ).loc Cert.ReferenceIdeal.main_arg0)),
    ?_, Cert.RefValue.ref_run m' g'⟩
  exact (θ_run (defs (F := Ideal)) _ _).mono
    (fun _ h c => ⟨((h c (1 : Fin 2)).trans (finalA_out m g c)).trans (out_value m g _ hblk c),
      (h c (0 : Fin 2)).trans (finalA_x m g c)⟩)
    (run_main_of (F := Ideal) m g (body_obligation m g))

theorem claim : Cert.Claim := ⟨Cert.Kernel.Gen.facts, Cert.KernelIdeal.Gen.facts, Cert.ReferenceIdeal.Gen.facts,
  Cert.Pre_finite_inputs_Kernel.Gen.facts, Cert.Pre_finite_inputs_ReferenceIdeal.Gen.facts,
  frame_k, frame_ki, Cert.RefValue.frame_ri, preserves, algebraic⟩

end Cert.Proof

end
